-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v85)) (v2 : (c : Dev Cert.KernelIdeal.nD) → Buf (Elt Ideal) ((c.tc : Thread Cert.KernelIdeal.nD Cert.KernelIdeal.τ).loc Cert.KernelIdeal.main_v114)) (v3 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_v114) = v2 c
          ∧ r.2.mem ((c.tc : Thread Cert.KernelIdeal.nD Cert.KernelIdeal.τ).loc Cert.KernelIdeal.main_v129) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_v138) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S_ : Shape := ⟨0, ![]⟩

class Facts : Prop where
  bcast_S_S12288x128 : S_.BroadcastsInDim S12288x128 (![] : Fin 0 → Fin S12288x128.rank)
  reducesTo_S12288x128_S_d0_1 : S12288x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S2x196608 : S_.BroadcastsInDim S2x196608 (![] : Fin 0 → Fin S2x196608.rank)
  reducesTo_S2x196608_S_d0_1 : S2x196608.ReducesTo [0, 1] S_

variable [Facts]

def fn_part1 {F : FTy → Type} [FloatOps F] (main_arg1 : IVec S2x196608 32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 0#32
  let main_v24 : IVec S2x196608 32 := broadcastInDim S2x196608 ![] bcast_S_S2x196608 main_c_8
  let main_v25 : IVec S2x196608 1 := cmpi .sge main_arg1 main_v24
  let main_c_9 : IVec S_ 32 := constantI S_ 32 12288#32
  let main_v26 : IVec S2x196608 32 := broadcastInDim S2x196608 ![] bcast_S_S2x196608 main_c_9
  let main_v27 : IVec S2x196608 1 := cmpi .slt main_arg1 main_v26
  let main_v28 : IVec S2x196608 1 := andi main_v25 main_v27
  let main_c_10 : IVec S_ 1 := constantI S_ 1 1#1
  let main_v29 : IVec S_ 1 := (fun x v => Host.reduce IntOp.andi x v reducesTo_S2x196608_S_d0_1 h_S_) main_v28 main_c_10
  let main_v30 : IVec S_ 1 := andi main_v23 main_v29
  main_v30

def fn {F : FTy → Type} [FloatOps F] (main_arg0 : FVec F S12288x128 .f32) (main_arg1 : IVec S2x196608 32) (main_arg2 : IVec S12288 32) (main_arg3 : FVec F S256x128 .f32) (main_arg4 : FVec F S128 .f32) (main_arg5 : FVec F S256x256 .f32) (main_arg6 : FVec F S256 .f32) : IVec S_ 1 :=
  let main_v0 : FVec F S12288x128 .f32 := Host.absf main_arg0
  let main_cst : FVec F S_ .f32 := constant S_ .f32 0x7F800000#32
  let main_v1 : FVec F S12288x128 .f32 := broadcastInDim S12288x128 ![] bcast_S_S12288x128 main_cst
  let main_v2 : IVec S12288x128 1 := cmpf .olt main_v0 main_v1
  let main_c : IVec S_ 1 := constantI S_ 1 1#1
  let main_v3 : IVec S_ 1 := (fun x v => Host.reduce IntOp.andi x v reducesTo_S12288x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_v13 main_v16
-- ==== Kernel.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S1x196608 : Shape := ⟨2, ![1, 196608]⟩
abbrev S196608 : Shape := ⟨1, ![196608]⟩
abbrev S_ : Shape := ⟨0, ![]⟩
abbrev S196608x1 : Shape := ⟨2, ![196608, 1]⟩
abbrev S196608x128 : Shape := ⟨2, ![196608, 128]⟩
abbrev S12288x1 : Shape := ⟨2, ![12288, 1]⟩
abbrev S12288x256 : Shape := ⟨2, ![12288, 256]⟩
abbrev S256x384 : Shape := ⟨2, ![256, 384]⟩
abbrev S384 : Shape := ⟨1, ![384]⟩
abbrev S12288x384 : Shape := ⟨2, ![12288, 384]⟩
abbrev S1x384 : Shape := ⟨2, ![1, 384]⟩
abbrev S1x256 : Shape := ⟨2, ![1, 256]⟩
abbrev S196608x256 : Shape := ⟨2, ![196608, 256]⟩
abbrev S2x256x128 : Shape := ⟨3, ![2, 256, 128]⟩
abbrev S2x256x256 : Shape := ⟨3, ![2, 256, 256]⟩
abbrev S1024x256 : Shape := ⟨2, ![1024, 256]⟩
abbrev S1024x128 : Shape := ⟨2, ![1024, 128]⟩
abbrev S1x256x128 : Shape := ⟨3, ![1, 256, 128]⟩
abbrev S1x256x256 : Shape := ⟨3, ![1, 256, 256]⟩
abbrev S1 : Shape := ⟨1, ![1]⟩
abbrev S196607 : Shape := ⟨1, ![196607]⟩

abbrev nBuf : Space → Nat
  | .hbm => 208
  | .vmem => 12
  | .smem => 0
  | _ => 0

abbrev hbmTy0_0 (i : Nat) : BufTy := match i % 128 with
  | 0 => ⟨S12288x128, .f32⟩
  | 1 => ⟨S2x196608, .i32⟩
  | 2 => ⟨S12288, .i32⟩
  | 3 => ⟨S256x128, .f32⟩
  | 4 => ⟨S128, .f32⟩
  | 5 => ⟨S256x256, .f32⟩
  | 6 => ⟨S256, .f32⟩
  | 7 => ⟨S1x196608, .i32⟩
  | 8 => ⟨S196608, .i32⟩
  | 9 => ⟨S1x196608, .i32⟩
  | 10 => ⟨S196608, .i32⟩
  | 11 => ⟨S_, .i32⟩
  | 12 => ⟨S196608, .i32⟩
  | 13 => ⟨S196608, .i1⟩
  | 14 => ⟨S_, .i32⟩
  | 15 => ⟨S196608, .i32⟩
  | 16 => ⟨S196608, .i32⟩
  | 17 => ⟨S196608, .i32⟩
  | 18 => ⟨S196608x1, .i32⟩
  | 19 => ⟨S196608x128, .f32⟩
  | 20 => ⟨S_, .f32⟩
  | 21 => ⟨S12288x128, .f32⟩
  | 22 => ⟨S196608x1, .i32⟩
  | 23 => ⟨S12288x128, .f32⟩
  | 24 => ⟨S_, .f32⟩
  | 25 => ⟨S196608, .f32⟩
  | 26 => ⟨S_, .f32⟩
  | 27 => ⟨S12288, .f32⟩
  | 28 => ⟨S196608x1, .i32⟩
  | 29 => ⟨S12288, .f32⟩
  | 30 => ⟨S_, .f32⟩
  | 31 => ⟨S12288, .f32⟩
  | 32 => ⟨S12288, .f32⟩
  | 33 => ⟨S12288x1, .f32⟩
  | 34 => ⟨S12288x128, .f32⟩
  | 35 => ⟨S12288x128, .f32⟩
  | 36 => ⟨S12288x256, .f32⟩
  | 37 => ⟨S256x384, .f32⟩
  | 38 => ⟨S384, .f32⟩
  | 39 => ⟨S12288x384, .f32⟩
  | 40 => ⟨S1x384, .f32⟩
  | 41 => ⟨S12288x384, .f32⟩
  | 42 => ⟨S12288x384, .f32⟩
  | 43 => ⟨S12288x128, .f32⟩
  | 44 => ⟨S12288x256, .f32⟩
  | 45 => ⟨S12288x128, .f32⟩
  | 46 => ⟨S_, .f32⟩
  | 47 => ⟨S12288, .f32⟩
  | 48 => ⟨S12288x1, .f32⟩
  | 49 => ⟨S12288x1, .f32⟩
  | 50 => ⟨S_, .f32⟩
  | 51 => ⟨S12288x1, .f32⟩
  | 52 => ⟨S12288x1, .f32⟩
  | 53 => ⟨S12288x128, .f32⟩
  | 54 => ⟨S12288x128, .f32⟩
  | 55 => ⟨S12288x256, .f32⟩
  | 56 => ⟨S_, .f32⟩
  | 57 => ⟨S12288, .f32⟩
  | 58 => ⟨S12288x1, .f32⟩
  | 59 => ⟨S12288x1, .f32⟩
  | 60 => ⟨S_, .f32⟩
  | 61 => ⟨S12288x1, .f32⟩
  | 62 => ⟨S12288x1, .f32⟩
  | 63 => ⟨S12288x256, .f32⟩
  | 64 => ⟨S12288x256, .f32⟩
  | 65 => ⟨S256, .i32⟩
  | 66 => ⟨S_, .i32⟩
  | 67 => ⟨S_, .i32⟩
  | 68 => ⟨S256, .i32⟩
  | 69 => ⟨S256, .i32⟩
  | 70 => ⟨S256, .i32⟩
  | 71 => ⟨S_, .i32⟩
  | 72 => ⟨S256, .i32⟩
  | 73 => ⟨S256, .i1⟩
  | 74 => ⟨S256, .i32⟩
  | 75 => ⟨S256, .i32⟩
  | 76 => ⟨S_, .i32⟩
  | 77 => ⟨S256, .i32⟩
  | 78 => ⟨S256, .i1⟩
  | 79 => ⟨S256, .i1⟩
  | 80 => ⟨S_, .i32⟩
  | 81 => ⟨S256, .i32⟩
  | 82 => ⟨S256, .i32⟩
  | 83 => ⟨S256, .i32⟩
  | 84 => ⟨S12288x1, .i32⟩
  | 85 => ⟨S1x256, .i32⟩
  | 86 => ⟨S12288x256, .i32⟩
  | 87 => ⟨S12288x256, .i32⟩
  | 88 => ⟨S12288x256, .i1⟩
  | 89 => ⟨S12288x256, .f32⟩
  | 90 => ⟨S12288x256, .f32⟩
  | 91 => ⟨S_, .f32⟩
  | 92 => ⟨S12288, .f32⟩
  | 93 => ⟨S_, .f32⟩
  | 94 => ⟨S12288, .f32⟩
  | 95 => ⟨S12288, .f32⟩
  | 96 => ⟨S12288x1, .f32⟩
  | 97 => ⟨S12288x256, .f32⟩
  | 98 => ⟨S12288x256, .f32⟩
  | 99 => ⟨S12288x256, .f32⟩
  | 100 => ⟨S_, .f32⟩
  | 101 => ⟨S12288, .f32⟩
  | 102 => ⟨S12288x1, .f32⟩
  | 103 => ⟨S12288x256, .f32⟩
  | 104 => ⟨S12288x256, .f32⟩
  | 105 => ⟨S12288x256, .f32⟩
  | 106 => ⟨S_, .f32⟩
  | 107 => ⟨S12288, .f32⟩
  | 108 => ⟨S12288x1, .f32⟩
  | 109 => ⟨S_, .f32⟩
  | 110 => ⟨S12288x1, .f32⟩
  | 111 => ⟨S12288x1, .f32⟩
  | 112 => ⟨S12288x256, .f32⟩
  | 113 => ⟨S12288x256, .f32⟩
  | 114 => ⟨S_, .i32⟩
  | 115 => ⟨S196608, .i32⟩
  | 116 => ⟨S196608, .i1⟩
  | 117 => ⟨S_, .i32⟩
  | 118 => ⟨S196608, .i32⟩
  | 119 => ⟨S196608, .i32⟩
  | 120 => ⟨S196608, .i32⟩
  | 121 => ⟨S196608x1, .i32⟩
  | 122 => ⟨S196608x256, .f32⟩
  | 123 => ⟨S_, .f32⟩
  | 124 => ⟨S12288x256, .f32⟩
  | 125 => ⟨S196608x1, .i32⟩
  | 126 => ⟨S12288x256, .f32⟩
  | 127 => ⟨S12288x256, .f32⟩
  | _ => ⟨S12288x128, .f32⟩

abbrev hbmTy0_1 (i : Nat) : BufTy := match i % 128 with
  | 0 => ⟨S_, .f32⟩
  | 1 => ⟨S_, .f32⟩
  | 2 => ⟨S12288x256, .bf16⟩
  | 3 => ⟨S12288x128, .bf16⟩
  | 4 => ⟨S12288x256, .bf16⟩
  | 5 => ⟨S2x256x128, .f32⟩
  | 6 => ⟨S2x256x256, .f32⟩
  | 7 => ⟨S2x256x256, .f32⟩
  | 8 => ⟨S_, .f32⟩
  | 9 => ⟨S256x128, .f32⟩
  | 10 => ⟨S_, .f32⟩
  | 11 => ⟨S256x256, .f32⟩
  | 12 => ⟨S_, .f32⟩
  | 13 => ⟨S256x256, .f32⟩
  | 14 => ⟨S_, .i32⟩
  | 15 => ⟨S196608, .i32⟩
  | 16 => ⟨S196608, .i32⟩
  | 17 => ⟨S196608, .i32⟩
  | 18 => ⟨S196608, .i32⟩
  | 19 => ⟨S196608, .i32⟩
  | 20 => ⟨S_, .i1⟩
  | 21 => ⟨S1, .i1⟩
  | 22 => ⟨S196607, .i32⟩
  | 23 => ⟨S196607, .i32⟩
  | 24 => ⟨S196607, .i1⟩
  | 25 => ⟨S196608, .i1⟩
  | 26 => ⟨S_, .i32⟩
  | 27 => ⟨S196608, .i32⟩
  | 28 => ⟨S196608, .i32⟩
  | 29 => ⟨S_, .i32⟩
  | 30 => ⟨S_, .i32⟩
  | 31 => ⟨S196608, .i32⟩
  | 32 => ⟨S196608, .i32⟩
  | 33 => ⟨S_, .i32⟩
  | 34 => ⟨S196608, .i32⟩
  | 35 => ⟨S196608, .i32⟩
  | 36 => ⟨S_, .i32⟩
  | 37 => ⟨S196608, .i32⟩
  | 38 => ⟨S196608, .i32⟩
  | 39 => ⟨S196608, .f32⟩
  | 40 => ⟨S_, .f32⟩
  | 41 => ⟨S_, .f32⟩
  | 42 => ⟨S256x256, .f32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S12288, .f32⟩
  | 56 => ⟨S12288x1, .f32⟩
  | 57 => ⟨S12288x256, .f32⟩
  | 58 => ⟨S12288x256, .f32⟩
  | 59 => ⟨S_, .f32⟩
  | 60 => ⟨S12288x256, .f32⟩
  | 61 => ⟨S12288x256, .i1⟩
  | 62 => ⟨S_, .f32⟩
  | 63 => ⟨S12288x256, .f32⟩
  | 64 => ⟨S12288x256, .i1⟩
  | 65 => ⟨S_, .f32⟩
  | 66 => ⟨S_, .f32⟩
  | 67 => ⟨S12288x256, .f32⟩
  | 68 => ⟨S12288x256, .f32⟩
  | 69 => ⟨S12288x256, .f32⟩
  | 70 => ⟨S12288x256, .f32⟩
  | 71 => ⟨S_, .f32⟩
  | 72 => ⟨S_, .f32⟩
  | 73 => ⟨S12288x256, .f32⟩
  | 74 => ⟨S12288x256, .f32⟩
  | 75 => ⟨S_, .f32⟩
  | 76 => ⟨S12288, .f32⟩
  | 77 => ⟨S12288, .f32⟩
  | 78 => ⟨S_, .f32⟩
  | 79 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x128, .bf16⟩
  | .local _ .vmem, ⟨3, _⟩ => ⟨S1024x128, .bf16⟩
  | .local _ .vmem, ⟨4, _⟩ => ⟨S1024x256, .bf16⟩
  | .local _ .vmem, ⟨5, _⟩ => ⟨S1024x256, .bf16⟩
  | .local _ .vmem, ⟨6, _⟩ => ⟨S1x256x128, .f32⟩
  | .local _ .vmem, ⟨7, _⟩ => ⟨S1x256x128, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | _, _ => ⟨S12288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_call1_cst : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_cst_5 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_c : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_0 : Ref sig .tc := ⟨.hbm, 80, rfl⟩
abbrev main_call2_v12 : Ref sig .tc := ⟨.hbm, 81, rfl⟩
abbrev main_call2_v13 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_7 : Ref sig .tc := ⟨.hbm, 91, rfl⟩
abbrev main_v51 : Ref sig .tc := ⟨.hbm, 92, rfl⟩
abbrev main_cst_8 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_9 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_10 : Ref sig .tc := ⟨.hbm, 106, rfl⟩
abbrev main_v63 : Ref sig .tc := ⟨.hbm, 107, rfl⟩
abbrev main_v64 : Ref sig .tc := ⟨.hbm, 108, rfl⟩
abbrev main_cst_11 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_c_12 : Ref sig .tc := ⟨.hbm, 114, rfl⟩
abbrev main_v69 : Ref sig .tc := ⟨.hbm, 115, rfl⟩
abbrev main_v70 : Ref sig .tc := ⟨.hbm, 116, rfl⟩
abbrev main_c_13 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_14 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_15 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84_0 : Ref sig .tc := ⟨.hbm, 133, rfl⟩
abbrev main_v84_1 : Ref sig .tc := ⟨.hbm, 134, rfl⟩
abbrev main_v84_2 : Ref sig .tc := ⟨.hbm, 135, rfl⟩
abbrev main_cst_16 : Ref sig .tc := ⟨.hbm, 136, rfl⟩
abbrev main_v85 : Ref sig .tc := ⟨.hbm, 137, rfl⟩
abbrev main_cst_17 : Ref sig .tc := ⟨.hbm, 138, rfl⟩
abbrev main_v86 : Ref sig .tc := ⟨.hbm, 139, rfl⟩
abbrev main_cst_18 : Ref sig .tc := ⟨.hbm, 140, rfl⟩
abbrev main_v87 : Ref sig .tc := ⟨.hbm, 141, rfl⟩
abbrev main_c_19 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_20 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_c_21 : Ref sig .tc := ⟨.hbm, 154, rfl⟩
abbrev main_call4_v0 : Ref sig .tc := ⟨.hbm, 155, rfl⟩
abbrev main_v98 : Ref sig .tc := ⟨.hbm, 156, rfl⟩
abbrev main_call5_c : Ref sig .tc := ⟨.hbm, 157, rfl⟩
abbrev main_call5_v0 : Ref sig .tc := ⟨.hbm, 158, rfl⟩
abbrev main_v99 : Ref sig .tc := ⟨.hbm, 159, rfl⟩
abbrev main_v100 : Ref sig .tc := ⟨.hbm, 160, rfl⟩
abbrev main_c_22 : Ref sig .tc := ⟨.hbm, 161, rfl⟩
abbrev main_v101 : Ref sig .tc := ⟨.hbm, 162, rfl⟩
abbrev main_v102 : Ref sig .tc := ⟨.hbm, 163, rfl⟩
abbrev main_c_23 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_24 : Ref sig .tc := ⟨.hbm, 168, rfl⟩
abbrev main_v106 : Ref sig .tc := ⟨.hbm, 169, rfl⟩
abbrev main_v107 : Ref sig .tc := ⟨.hbm, 170, rfl⟩
abbrev main_cst_25 : Ref sig .tc := ⟨.hbm, 171, rfl⟩
abbrev main_v108 : Ref sig .tc := ⟨.hbm, 172, rfl⟩
abbrev main_cst_26 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_27 : Ref sig .tc := ⟨.hbm, 177, rfl⟩
abbrev main_v112 : Ref sig .tc := ⟨.hbm, 178, rfl⟩
abbrev main_v113 : Ref sig .tc := ⟨.hbm, 179, rfl⟩
abbrev main_cst_28 : Ref sig .tc := ⟨.hbm, 180, rfl⟩
abbrev main_v114 : Ref sig .tc := ⟨.hbm, 181, rfl⟩
abbrev main_cst_29 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_cst_30 : Ref sig .tc := ⟨.hbm, 187, rfl⟩
abbrev main_v119 : Ref sig .tc := ⟨.hbm, 188, rfl⟩
abbrev main_v120 : Ref sig .tc := ⟨.hbm, 189, rfl⟩
abbrev main_cst_31 : Ref sig .tc := ⟨.hbm, 190, rfl⟩
abbrev main_v121 : Ref sig .tc := ⟨.hbm, 191, rfl⟩
abbrev main_v122 : Ref sig .tc := ⟨.hbm, 192, rfl⟩
abbrev main_cst_32 : Ref sig .tc := ⟨.hbm, 193, rfl⟩
abbrev main_call6_v0 : Ref sig .tc := ⟨.hbm, 194, rfl⟩
abbrev main_call6_v1 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_cst_33 : Ref sig .tc := ⟨.hbm, 199, rfl⟩
abbrev main_call7_v0 : Ref sig .tc := ⟨.hbm, 200, rfl⟩
abbrev main_call7_v1 : Ref sig .tc := ⟨.hbm, 201, rfl⟩
abbrev main_v126 : Ref sig .tc := ⟨.hbm, 202, rfl⟩
abbrev main_cst_34 : Ref sig .tc := ⟨.hbm, 203, rfl⟩
abbrev main_v127 : Ref sig .tc := ⟨.hbm, 204, rfl⟩
abbrev main_v128 : Ref sig .tc := ⟨.hbm, 205, rfl⟩
abbrev main_cst_35 : Ref sig .tc := ⟨.hbm, 206, rfl⟩
abbrev main_v129 : Ref sig .tc := ⟨.hbm, 207, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  bcast_S_S12288x128 : S_.BroadcastsInDim S12288x128 (![] : Fin 0 → Fin S12288x128.rank)
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  concatenates_S12288x128_S12288x128_S12288x256_d1 : Shape.Concatenates [S12288x128, S12288x128] S12288x256 1
  concatenates_S256x128_S256x256_S256x384_d1 : Shape.Concatenates [S256x128, S256x256] S256x384 1
  concatenates_S128_S256_S384_d0 : Shape.Concatenates [S128, S256] S384 0
  bcast_S384_S1x384_1 : S384.BroadcastsInDim S1x384 (![1] : Fin 1 → Fin S1x384.rank)
  bcast_S1x384_S12288x384_0_1 : S1x384.BroadcastsInDim S12288x384 (![0, 1] : Fin 2 → Fin S12288x384.rank)
  slices_S12288x384_S12288x128_0_0 : S12288x384.Slices ![0, 0] S12288x128
  slices_S12288x384_S12288x256_0_128 : S12288x384.Slices ![0, 128] S12288x256
  reducesTo_S12288x128_S12288_d1 : S12288x128.ReducesTo [1] S12288
  h_S_ : 0 < S_.numel
  bcast_S_S12288x1 : S_.BroadcastsInDim S12288x1 (![] : Fin 0 → Fin S12288x1.rank)
  reducesTo_S12288x256_S12288_d1 : S12288x256.ReducesTo [1] S12288
  bcast_S12288x1_S12288x256_0_1 : S12288x1.BroadcastsInDim S12288x256 (![0, 1] : Fin 2 → Fin S12288x256.rank)
  bcast_S_S256 : S_.BroadcastsInDim S256 (![] : Fin 0 → Fin S256.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  bcast_S_S12288x256 : S_.BroadcastsInDim S12288x256 (![] : Fin 0 → Fin S12288x256.rank)
  reducesTo_S12288x256_S_d0_1 : S12288x256.ReducesTo [0, 1] S_
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reducesTo_S2x256x128_S256x128_d0 : S2x256x128.ReducesTo [0] S256x128
  reducesTo_S2x256x256_S256x256_d0 : S2x256x256.ReducesTo [0] S256x256
  bcast_S_S1 : S_.BroadcastsInDim S1 (![] : Fin 0 → Fin S1.rank)
  slices_S196608_S196607_1 : S196608.Slices ![1] S196607
  slices_S196608_S196607_0 : S196608.Slices ![0] S196607
  concatenates_S1_S196607_S196608_d0 : Shape.Concatenates [S1, S196607] S196608 0
  bcast_S_S_ : S_.BroadcastsInDim S_ (![] : Fin 0 → Fin S_.rank)
  reduceWindows_S196608_S196608_w196608s1p196607_0 : S196608.ReduceWindows (![196608] : Fin 1 → Nat) ![1] ![196607] ![0] S196608
  reducesTo_S196608_S_d0 : S196608.ReducesTo [0] S_
  reducesTo_S256x256_S_d0_1 : S256x256.ReducesTo [0, 1] S_
  reducesTo_S12288_S_d0 : S12288.ReducesTo [0] S_
  gather_S12288x128_S196608x1_S196608x128_1_0_n_n_0_1_1128_wf : GatherDims.WF S12288x128 S196608x1 S196608x128 [1] [0] [] [0] [] 1 ![1, 128]
  scatter_S12288x128_S196608x1_S196608x128_1_0_0_1_wf : ScatterDims.WF S12288x128 S196608x1 S196608x128 [1] [0] [0] 1
  scatter_S12288_S196608x1_S196608_n_0_0_1_wf : ScatterDims.WF S12288 S196608x1 S196608 [] [0] [0] 1
  dot_S12288x256_S256x384_S12288x384_1_0_0_1_n_n_wf : DotDims.WF S12288x256 S256x384 S12288x384 [1] [0] [0] [1] [] []
  gather_S12288x256_S196608x1_S196608x256_1_0_n_n_0_1_1256_wf : GatherDims.WF S12288x256 S196608x1 S196608x256 [1] [0] [] [0] [] 1 ![1, 256]
  scatter_S12288x256_S196608x1_S196608x256_1_0_0_1_wf : ScatterDims.WF S12288x256 S196608x1 S196608x256 [1] [0] [0] 1
  dot_S1024x256_S1024x128_S256x128_0_0_1_1_n_n_wf : DotDims.WF S1024x256 S1024x128 S256x128 [0] [0] [1] [1] [] []
  dot_S1024x256_S1024x256_S256x256_0_0_1_1_n_n_wf : DotDims.WF S1024x256 S1024x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S12288x256.size a
  hwx0_0 : ∀ i : grid0.Coords, EltTy.bits .bf16 = 32 ∨ (Rect.block (s := S12288x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S12288x128.size a
  hwx0_1 : ∀ i : grid0.Coords, EltTy.bits .bf16 = 32 ∨ (Rect.block (s := S12288x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S12288x256.size a
  hwx0_2 : ∀ i : grid0.Coords, EltTy.bits .bf16 = 32 ∨ (Rect.block (s := S12288x256) S1024x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S2x256x128.size a
  hwx0_3 : ∀ i : grid0.Coords, EltTy.bits .f32 = 32 ∨ (Rect.block (s := S2x256x128) S1x256x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x256.size a ≤ S2x256x256.size a
  hwx0_4 : ∀ i : grid0.Coords, EltTy.bits .f32 = 32 ∨ (Rect.block (s := S2x256x256) S1x256x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x256.size a ≤ S2x256x256.size a
  hwx0_5 : ∀ i : grid0.Coords, EltTy.bits .f32 = 32 ∨ (Rect.block (s := S2x256x256) S1x256x256.size (cc0_transform_5 i) (hinb0_5 i)).WholeWords (EltTy.packing .f32)

variable [Facts₀]

def gather_S12288x128_S196608x1_S196608x128_1_0_n_n_0_1_1128 : GatherDims S12288x128 S196608x1 S196608x128 where
  offsetDims := [1]
  collapsedSliceDims := [0]
  operandBatchingDims := []
  startIndicesBatchingDims := []
  startIndexMap := [0]
  indexVectorDim := 1
  sliceSizes := ![1, 128]
  wf := gather_S12288x128_S196608x1_S196608x128_1_0_n_n_0_1_1128_wf
def scatter_S12288x128_S196608x1_S196608x128_1_0_0_1 : ScatterDims S12288x128 S196608x1 S196608x128 where
  updateWindowDims := [1]
  insertedWindowDims := [0]
  scatterDimsToOperandDims := [0]
  indexVectorDim := 1
  wf := scatter_S12288x128_S196608x1_S196608x128_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S12288x256_S256x384_S12288x384_1_0_0_1_n_n : DotDims S12288x256 S256x384 S12288x384 where
  lhsContracting := [1]
  rhsContracting := [0]
  lhsNonContracting := [0]
  rhsNonContracting := [1]
  lhsBatch := []
  rhsBatch := []
  wf := dot_S12288x256_S256x384_S12288x384_1_0_0_1_n_n_wf
def gather_S12288x256_S196608x1_S196608x256_1_0_n_n_0_1_1256 : GatherDims S12288x256 S196608x1 S196608x256 where
  offsetDims := [1]
  collapsedSliceDims := [0]
  operandBatchingDims := []
  startIndicesBatchingDims := []
  startIndexMap := [0]
  indexVectorDim := 1
  sliceSizes := ![1, 256]
  wf := gather_S12288x256_S196608x1_S196608x256_1_0_n_n_0_1_1256_wf
def scatter_S12288x256_S196608x1_S196608x256_1_0_0_1 : ScatterDims S12288x256 S196608x1 S196608x256 where
  updateWindowDims := [1]
  insertedWindowDims := [0]
  scatterDimsToOperandDims := [0]
  indexVectorDim := 1
  wf := scatter_S12288x256_S196608x1_S196608x256_1_0_0_1_wf
def dot_S1024x256_S1024x128_S256x128_0_0_1_1_n_n : DotDims S1024x256 S1024x128 S256x128 where
  lhsContracting := [0]
  rhsContracting := [0]
  lhsNonContracting := [1]
  rhsNonContracting := [1]
  lhsBatch := []
  rhsBatch := []
  wf := dot_S1024x256_S1024x128_S256x128_0_0_1_1_n_n_wf
def dot_S1024x256_S1024x256_S256x256_0_0_1_1_n_n : DotDims S1024x256 S1024x256 S256x256 where
  lhsContracting := [0]
  rhsContracting := [0]
  lhsNonContracting := [1]
  rhsNonContracting := [1]
  lhsBatch := []
  rhsBatch := []
  wf := dot_S1024x256_S1024x256_S256x256_0_0_1_1_n_n_wf
def comparator_i32_d0 : BitVec 32 → BitVec 32 → BitVec 1 :=
  fun l r =>
    let v1 := IntOp.cmpi .slt l r
    v1

abbrev win0_0 : Pipeline.Window sig grid0 :=
  Pipeline.Window.ofSpec (Memref.whole main_v81) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v82) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84_0) S1x256x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v84_1) S1x256x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v84_2) S1x256x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S12288x128 : Shape := ⟨2, ![12288, 128]⟩
abbrev S2x196608 : Shape := ⟨2, ![2, 196608]⟩
abbrev S12288 : Shape := ⟨1, ![12288]⟩
abbrev S256x128 : Shape := ⟨2, ![256, 128]⟩
abbrev S128 : Shape := ⟨1, ![128]⟩
abbrev S256x256 : Shape := ⟨2, ![256, 256]⟩
abbrev S256 : Shape := ⟨1, ![256]⟩
abbrev S1x196608 : Shape := ⟨2, ![1, 196608]⟩
abbrev S196608 : Shape := ⟨1, ![196608]⟩
abbrev S_ : Shape := ⟨0, ![]⟩
abbrev S196608x1 : Shape := ⟨2, ![196608, 1]⟩
abbrev S196608x128 : Shape := ⟨2, ![196608, 128]⟩
abbrev S12288x1 : Shape := ⟨2, ![12288, 1]⟩
abbrev S12288x256 : Shape := ⟨2, ![12288, 256]⟩
abbrev S1x128 : Shape := ⟨2, ![1, 128]⟩
abbrev S1x256 : Shape := ⟨2, ![1, 256]⟩
abbrev S256x12288 : Shape := ⟨2, ![256, 12288]⟩
abbrev S196608x256 : Shape := ⟨2, ![196608, 256]⟩
abbrev S12288x12288 : Shape := ⟨2, ![12288, 12288]⟩
abbrev S196608x2 : Shape := ⟨2, ![196608, 2]⟩

abbrev nBuf : Space → Nat
  | .hbm => 214
  | .vmem => 0
  | .smem => 0
  | _ => 0

abbrev hbmTy0_0 (i : Nat) : BufTy := match i % 128 with
  | 0 => ⟨S12288x128, .f32⟩
  | 1 => ⟨S2x196608, .i32⟩
  | 2 => ⟨S12288, .i32⟩
  | 3 => ⟨S256x128, .f32⟩
  | 4 => ⟨S128, .f32⟩
  | 5 => ⟨S256x256, .f32⟩
  | 6 => ⟨S256, .f32⟩
  | 7 => ⟨S1x196608, .i32⟩
  | 8 => ⟨S196608, .i32⟩
  | 9 => ⟨S1x196608, .i32⟩
  | 10 => ⟨S196608, .i32⟩
  | 11 => ⟨S_, .i32⟩
  | 12 => ⟨S196608, .i32⟩
  | 13 => ⟨S196608, .i1⟩
  | 14 => ⟨S_, .i32⟩
  | 15 => ⟨S196608, .i32⟩
  | 16 => ⟨S196608, .i32⟩
  | 17 => ⟨S196608, .i32⟩
  | 18 => ⟨S196608x1, .i32⟩
  | 19 => ⟨S196608x128, .f32⟩
  | 20 => ⟨S_, .f32⟩
  | 21 => ⟨S12288x128, .f32⟩
  | 22 => ⟨S196608x1, .i32⟩
  | 23 => ⟨S12288x128, .f32⟩
  | 24 => ⟨S_, .f32⟩
  | 25 => ⟨S196608, .f32⟩
  | 26 => ⟨S_, .f32⟩
  | 27 => ⟨S12288, .f32⟩
  | 28 => ⟨S196608x1, .i32⟩
  | 29 => ⟨S12288, .f32⟩
  | 30 => ⟨S_, .f32⟩
  | 31 => ⟨S12288, .f32⟩
  | 32 => ⟨S12288, .f32⟩
  | 33 => ⟨S12288x1, .f32⟩
  | 34 => ⟨S12288x128, .f32⟩
  | 35 => ⟨S12288x128, .f32⟩
  | 36 => ⟨S12288x256, .f32⟩
  | 37 => ⟨S12288x128, .f32⟩
  | 38 => ⟨S1x128, .f32⟩
  | 39 => ⟨S12288x128, .f32⟩
  | 40 => ⟨S12288x128, .f32⟩
  | 41 => ⟨S12288x128, .f32⟩
  | 42 => ⟨S_, .f32⟩
  | 43 => ⟨S12288, .f32⟩
  | 44 => ⟨S12288x1, .f32⟩
  | 45 => ⟨S12288x1, .f32⟩
  | 46 => ⟨S_, .f32⟩
  | 47 => ⟨S12288x1, .f32⟩
  | 48 => ⟨S12288x1, .f32⟩
  | 49 => ⟨S12288x128, .f32⟩
  | 50 => ⟨S12288x128, .f32⟩
  | 51 => ⟨S_, .i32⟩
  | 52 => ⟨S196608, .i32⟩
  | 53 => ⟨S196608, .i1⟩
  | 54 => ⟨S_, .i32⟩
  | 55 => ⟨S196608, .i32⟩
  | 56 => ⟨S196608, .i32⟩
  | 57 => ⟨S196608, .i32⟩
  | 58 => ⟨S196608x1, .i32⟩
  | 59 => ⟨S196608x128, .f32⟩
  | 60 => ⟨S_, .f32⟩
  | 61 => ⟨S12288x128, .f32⟩
  | 62 => ⟨S196608x1, .i32⟩
  | 63 => ⟨S12288x128, .f32⟩
  | 64 => ⟨S_, .f32⟩
  | 65 => ⟨S196608, .f32⟩
  | 66 => ⟨S_, .f32⟩
  | 67 => ⟨S12288, .f32⟩
  | 68 => ⟨S196608x1, .i32⟩
  | 69 => ⟨S12288, .f32⟩
  | 70 => ⟨S_, .f32⟩
  | 71 => ⟨S12288, .f32⟩
  | 72 => ⟨S12288, .f32⟩
  | 73 => ⟨S12288x1, .f32⟩
  | 74 => ⟨S12288x128, .f32⟩
  | 75 => ⟨S12288x128, .f32⟩
  | 76 => ⟨S12288x256, .f32⟩
  | 77 => ⟨S12288x256, .f32⟩
  | 78 => ⟨S1x256, .f32⟩
  | 79 => ⟨S12288x256, .f32⟩
  | 80 => ⟨S12288x256, .f32⟩
  | 81 => ⟨S12288x256, .f32⟩
  | 82 => ⟨S_, .f32⟩
  | 83 => ⟨S12288, .f32⟩
  | 84 => ⟨S12288x1, .f32⟩
  | 85 => ⟨S12288x1, .f32⟩
  | 86 => ⟨S_, .f32⟩
  | 87 => ⟨S12288x1, .f32⟩
  | 88 => ⟨S12288x1, .f32⟩
  | 89 => ⟨S12288x256, .f32⟩
  | 90 => ⟨S12288x256, .f32⟩
  | 91 => ⟨S256, .i32⟩
  | 92 => ⟨S_, .i32⟩
  | 93 => ⟨S_, .i32⟩
  | 94 => ⟨S256, .i32⟩
  | 95 => ⟨S256, .i32⟩
  | 96 => ⟨S256, .i32⟩
  | 97 => ⟨S_, .i32⟩
  | 98 => ⟨S256, .i32⟩
  | 99 => ⟨S256, .i1⟩
  | 100 => ⟨S256, .i32⟩
  | 101 => ⟨S256, .i32⟩
  | 102 => ⟨S_, .i32⟩
  | 103 => ⟨S256, .i32⟩
  | 104 => ⟨S256, .i1⟩
  | 105 => ⟨S256, .i1⟩
  | 106 => ⟨S_, .i32⟩
  | 107 => ⟨S256, .i32⟩
  | 108 => ⟨S256, .i32⟩
  | 109 => ⟨S256, .i32⟩
  | 110 => ⟨S12288x1, .i32⟩
  | 111 => ⟨S1x256, .i32⟩
  | 112 => ⟨S12288x256, .i32⟩
  | 113 => ⟨S12288x256, .i32⟩
  | 114 => ⟨S12288x256, .i1⟩
  | 115 => ⟨S12288x256, .f32⟩
  | 116 => ⟨S12288x256, .f32⟩
  | 117 => ⟨S_, .f32⟩
  | 118 => ⟨S12288, .f32⟩
  | 119 => ⟨S_, .f32⟩
  | 120 => ⟨S12288, .f32⟩
  | 121 => ⟨S12288, .f32⟩
  | 122 => ⟨S12288x1, .f32⟩
  | 123 => ⟨S12288x256, .f32⟩
  | 124 => ⟨S12288x256, .f32⟩
  | 125 => ⟨S12288x256, .f32⟩
  | 126 => ⟨S_, .f32⟩
  | 127 => ⟨S12288, .f32⟩
  | _ => ⟨S12288x128, .f32⟩

abbrev hbmTy0_1 (i : Nat) : BufTy := match i % 128 with
  | 0 => ⟨S12288x1, .f32⟩
  | 1 => ⟨S12288x256, .f32⟩
  | 2 => ⟨S12288x256, .f32⟩
  | 3 => ⟨S12288x256, .f32⟩
  | 4 => ⟨S_, .f32⟩
  | 5 => ⟨S12288, .f32⟩
  | 6 => ⟨S12288x1, .f32⟩
  | 7 => ⟨S_, .f32⟩
  | 8 => ⟨S12288x1, .f32⟩
  | 9 => ⟨S12288x1, .f32⟩
  | 10 => ⟨S12288x256, .f32⟩
  | 11 => ⟨S12288x256, .f32⟩
  | 12 => ⟨S256x12288, .f32⟩
  | 13 => ⟨S256x128, .f32⟩
  | 14 => ⟨S_, .i32⟩
  | 15 => ⟨S196608, .i32⟩
  | 16 => ⟨S196608, .i1⟩
  | 17 => ⟨S_, .i32⟩
  | 18 => ⟨S196608, .i32⟩
  | 19 => ⟨S196608, .i32⟩
  | 20 => ⟨S196608, .i32⟩
  | 21 => ⟨S196608x1, .i32⟩
  | 22 => ⟨S196608x256, .f32⟩
  | 23 => ⟨S_, .f32⟩
  | 24 => ⟨S12288x256, .f32⟩
  | 25 => ⟨S196608x1, .i32⟩
  | 26 => ⟨S12288x256, .f32⟩
  | 27 => ⟨S256x12288, .f32⟩
  | 28 => ⟨S256x256, .f32⟩
  | 29 => ⟨S_, .f32⟩
  | 30 => ⟨S12288x12288, .f32⟩
  | 31 => ⟨S_, .i32⟩
  | 32 => ⟨S196608, .i32⟩
  | 33 => ⟨S196608, .i1⟩
  | 34 => ⟨S_, .i32⟩
  | 35 => ⟨S196608, .i32⟩
  | 36 => ⟨S196608, .i32⟩
  | 37 => ⟨S196608, .i32⟩
  | 38 => ⟨S_, .i32⟩
  | 39 => ⟨S196608, .i32⟩
  | 40 => ⟨S196608, .i1⟩
  | 41 => ⟨S_, .i32⟩
  | 42 => ⟨S196608, .i32⟩
  | 43 => ⟨S196608, .i32⟩
  | 44 => ⟨S196608, .i32⟩
  | 45 => ⟨S196608x1, .i32⟩
  | 46 => ⟨S196608x1, .i32⟩
  | 47 => ⟨S196608x2, .i32⟩
  | 48 => ⟨S_, .f32⟩
  | 49 => ⟨S196608, .f32⟩
  | 50 => ⟨S12288x12288, .f32⟩
  | 51 => ⟨S256x12288, .f32⟩
  | 52 => ⟨S12288x12288, .f32⟩
  | 53 => ⟨S12288x12288, .f32⟩
  | 54 => ⟨S12288x12288, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S12288, .f32⟩
  | 62 => ⟨S12288x1, .f32⟩
  | 63 => ⟨S12288x256, .f32⟩
  | 64 => ⟨S12288x256, .f32⟩
  | 65 => ⟨S_, .f32⟩
  | 66 => ⟨S12288x256, .f32⟩
  | 67 => ⟨S12288x256, .i1⟩
  | 68 => ⟨S_, .f32⟩
  | 69 => ⟨S12288x256, .f32⟩
  | 70 => ⟨S12288x256, .i1⟩
  | 71 => ⟨S_, .f32⟩
  | 72 => ⟨S_, .f32⟩
  | 73 => ⟨S12288x256, .f32⟩
  | 74 => ⟨S12288x256, .f32⟩
  | 75 => ⟨S12288x256, .f32⟩
  | 76 => ⟨S12288x256, .f32⟩
  | 77 => ⟨S_, .f32⟩
  | 78 => ⟨S_, .f32⟩
  | 79 => ⟨S12288x256, .f32⟩
  | 80 => ⟨S12288x256, .f32⟩
  | 81 => ⟨S_, .f32⟩
  | 82 => ⟨S12288, .f32⟩
  | 83 => ⟨S12288, .f32⟩
  | 84 => ⟨S_, .f32⟩
  | 85 => ⟨S_, .f32⟩
  | _ => ⟨S12288x128, .f32⟩

abbrev hbmTy (i : Nat) : BufTy := match i / 128 with
  | 0 => hbmTy0_0 i
  | 1 => hbmTy0_1 i
  | _ => ⟨S12288x128, .f32⟩

abbrev bufTy : (tb : Table) → Fin (tcTables nBuf tb) → BufTy
  | .hbm, ⟨i, _⟩ => hbmTy i
  | _, _ => ⟨S12288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_cst : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_cst_4 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v57 : Ref sig .tc := ⟨.hbm, 85, rfl⟩
abbrev main_cst_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_c : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_0 : Ref sig .tc := ⟨.hbm, 106, rfl⟩
abbrev main_call2_v12 : Ref sig .tc := ⟨.hbm, 107, rfl⟩
abbrev main_call2_v13 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_13 : Ref sig .tc := ⟨.hbm, 117, rfl⟩
abbrev main_v71 : Ref sig .tc := ⟨.hbm, 118, rfl⟩
abbrev main_cst_14 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_cst_15 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_16 : Ref sig .tc := ⟨.hbm, 132, rfl⟩
abbrev main_v83 : Ref sig .tc := ⟨.hbm, 133, rfl⟩
abbrev main_v84 : Ref sig .tc := ⟨.hbm, 134, rfl⟩
abbrev main_cst_17 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_c_18 : Ref sig .tc := ⟨.hbm, 142, rfl⟩
abbrev main_v91 : Ref sig .tc := ⟨.hbm, 143, rfl⟩
abbrev main_v92 : Ref sig .tc := ⟨.hbm, 144, rfl⟩
abbrev main_c_19 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_cst_20 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_21 : Ref sig .tc := ⟨.hbm, 157, rfl⟩
abbrev main_v103 : Ref sig .tc := ⟨.hbm, 158, rfl⟩
abbrev main_c_22 : Ref sig .tc := ⟨.hbm, 159, rfl⟩
abbrev main_v104 : Ref sig .tc := ⟨.hbm, 160, rfl⟩
abbrev main_v105 : Ref sig .tc := ⟨.hbm, 161, rfl⟩
abbrev main_c_23 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_24 : Ref sig .tc := ⟨.hbm, 166, rfl⟩
abbrev main_v109 : Ref sig .tc := ⟨.hbm, 167, rfl⟩
abbrev main_v110 : Ref sig .tc := ⟨.hbm, 168, rfl⟩
abbrev main_c_25 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_cst_26 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_call3_v0 : Ref sig .tc := ⟨.hbm, 182, rfl⟩
abbrev main_call3_cst : Ref sig .tc := ⟨.hbm, 183, rfl⟩
abbrev main_call3_v1 : Ref sig .tc := ⟨.hbm, 184, rfl⟩
abbrev main_v122 : Ref sig .tc := ⟨.hbm, 185, rfl⟩
abbrev main_cst_27 : Ref sig .tc := ⟨.hbm, 186, rfl⟩
abbrev main_v123 : Ref sig .tc := ⟨.hbm, 187, rfl⟩
abbrev main_cst_28 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_29 : Ref sig .tc := ⟨.hbm, 193, rfl⟩
abbrev main_v128 : Ref sig .tc := ⟨.hbm, 194, rfl⟩
abbrev main_v129 : Ref sig .tc := ⟨.hbm, 195, rfl⟩
abbrev main_cst_30 : Ref sig .tc := ⟨.hbm, 196, rfl⟩
abbrev main_v130 : Ref sig .tc := ⟨.hbm, 197, rfl⟩
abbrev main_v131 : Ref sig .tc := ⟨.hbm, 198, rfl⟩
abbrev main_cst_31 : Ref sig .tc := ⟨.hbm, 199, rfl⟩
abbrev main_call4_v0 : Ref sig .tc := ⟨.hbm, 200, rfl⟩
abbrev main_call4_v1 : Ref sig .tc := ⟨.hbm, 201, rfl⟩
abbrev main_v132 : Ref sig .tc := ⟨.hbm, 202, rfl⟩
abbrev main_v133 : Ref sig .tc := ⟨.hbm, 203, rfl⟩
abbrev main_v134 : Ref sig .tc := ⟨.hbm, 204, rfl⟩
abbrev main_cst_32 : Ref sig .tc := ⟨.hbm, 205, rfl⟩
abbrev main_call5_v0 : Ref sig .tc := ⟨.hbm, 206, rfl⟩
abbrev main_call5_v1 : Ref sig .tc := ⟨.hbm, 207, rfl⟩
abbrev main_v135 : Ref sig .tc := ⟨.hbm, 208, rfl⟩
abbrev main_cst_33 : Ref sig .tc := ⟨.hbm, 209, rfl⟩
abbrev main_v136 : Ref sig .tc := ⟨.hbm, 210, rfl⟩
abbrev main_v137 : Ref sig .tc := ⟨.hbm, 211, rfl⟩
abbrev main_cst_34 : Ref sig .tc := ⟨.hbm, 212, rfl⟩
abbrev main_v138 : Ref sig .tc := ⟨.hbm, 213, rfl⟩

abbrev nD : Nat := 1
abbrev τ : Topo := Topo.v7x

variable {F : FTy → Type} [FloatOps F]

class Facts₀ : Prop where
  slices_S2x196608_S1x196608_0_0 : S2x196608.Slices ![0, 0] S1x196608
  shapeCasts_S1x196608_S196608 : S1x196608.ShapeCasts S196608
  slices_S2x196608_S1x196608_1_0 : S2x196608.Slices ![1, 0] S1x196608
  bcast_S_S196608 : S_.BroadcastsInDim S196608 (![] : Fin 0 → Fin S196608.rank)
  bcast_S196608_S196608x1_0 : S196608.BroadcastsInDim S196608x1 (![0] : Fin 1 → Fin S196608x1.rank)
  bcast_S_S12288x128 : S_.BroadcastsInDim S12288x128 (![] : Fin 0 → Fin S12288x128.rank)
  bcast_S_S12288 : S_.BroadcastsInDim S12288 (![] : Fin 0 → Fin S12288.rank)
  bcast_S12288_S12288x1_0 : S12288.BroadcastsInDim S12288x1 (![0] : Fin 1 → Fin S12288x1.rank)
  bcast_S12288x1_S12288x128_0_1 : S12288x1.BroadcastsInDim S12288x128 (![0, 1] : Fin 2 → Fin S12288x128.rank)
  concatenates_S12288x128_S12288x128_S12288x256_d1 : Shape.Concatenates [S12288x128, S12288x128] S12288x256 1
  bcast_S128_S1x128_1 : S128.BroadcastsInDim S1x128 (![1] : Fin 1 → Fin S1x128.rank)
  bcast_S1x128_S12288x128_0_1 : S1x128.BroadcastsInDim S12288x128 (![0, 1] : Fin 2 → Fin S12288x128.rank)
  reducesTo_S12288x128_S12288_d1 : S12288x128.ReducesTo [1] S12288
  h_S_ : 0 < S_.numel
  bcast_S_S12288x1 : S_.BroadcastsInDim S12288x1 (![] : Fin 0 → Fin S12288x1.rank)
  bcast_S256_S1x256_1 : S256.BroadcastsInDim S1x256 (![1] : Fin 1 → Fin S1x256.rank)
  bcast_S1x256_S12288x256_0_1 : S1x256.BroadcastsInDim S12288x256 (![0, 1] : Fin 2 → Fin S12288x256.rank)
  reducesTo_S12288x256_S12288_d1 : S12288x256.ReducesTo [1] S12288
  bcast_S12288x1_S12288x256_0_1 : S12288x1.BroadcastsInDim S12288x256 (![0, 1] : Fin 2 → Fin S12288x256.rank)
  bcast_S_S256 : S_.BroadcastsInDim S256 (![] : Fin 0 → Fin S256.rank)
  transposes_S12288x256_S256x12288_1_0 : S12288x256.Transposes [1, 0] S256x12288
  bcast_S_S12288x256 : S_.BroadcastsInDim S12288x256 (![] : Fin 0 → Fin S12288x256.rank)
  bcast_S_S12288x12288 : S_.BroadcastsInDim S12288x12288 (![] : Fin 0 → Fin S12288x12288.rank)
  concatenates_S196608x1_S196608x1_S196608x2_d1 : Shape.Concatenates [S196608x1, S196608x1] S196608x2 1
  reducesTo_S12288x12288_S_d0_1 : S12288x12288.ReducesTo [0, 1] S_
  reducesTo_S12288_S_d0 : S12288.ReducesTo [0] S_
  gather_S12288x128_S196608x1_S196608x128_1_0_n_n_0_1_1128_wf : GatherDims.WF S12288x128 S196608x1 S196608x128 [1] [0] [] [0] [] 1 ![1, 128]
  scatter_S12288x128_S196608x1_S196608x128_1_0_0_1_wf : ScatterDims.WF S12288x128 S196608x1 S196608x128 [1] [0] [0] 1
  scatter_S12288_S196608x1_S196608_n_0_0_1_wf : ScatterDims.WF S12288 S196608x1 S196608 [] [0] [0] 1
  dot_S12288x256_S256x128_S12288x128_1_0_0_1_n_n_wf : DotDims.WF S12288x256 S256x128 S12288x128 [1] [0] [0] [1] [] []
  dot_S12288x256_S256x256_S12288x256_1_0_0_1_n_n_wf : DotDims.WF S12288x256 S256x256 S12288x256 [1] [0] [0] [1] [] []
  dot_S256x12288_S12288x128_S256x128_1_0_0_1_n_n_wf : DotDims.WF S256x12288 S12288x128 S256x128 [1] [0] [0] [1] [] []
  gather_S12288x256_S196608x1_S196608x256_1_0_n_n_0_1_1256_wf : GatherDims.WF S12288x256 S196608x1 S196608x256 [1] [0] [] [0] [] 1 ![1, 256]
  scatter_S12288x256_S196608x1_S196608x256_1_0_0_1_wf : ScatterDims.WF S12288x256 S196608x1 S196608x256 [1] [0] [0] 1
  dot_S256x12288_S12288x256_S256x256_1_0_0_1_n_n_wf : DotDims.WF S256x12288 S12288x256 S256x256 [1] [0] [0] [1] [] []
  scatter_S12288x12288_S196608x2_S196608_n_01_01_1_wf : ScatterDims.WF S12288x12288 S196608x2 S196608 [] [0, 1] [0, 1] 1
  dot_S12288x256_S256x12288_S12288x12288_1_0_0_1_n_n_wf : DotDims.WF S12288x256 S256x12288 S12288x12288 [1] [0] [0] [1] [] []

variable [Facts₀]

def gather_S12288x128_S196608x1_S196608x128_1_0_n_n_0_1_1128 : GatherDims S12288x128 S196608x1 S196608x128 where
  offsetDims := [1]
  collapsedSliceDims := [0]
  operandBatchingDims := []
  startIndicesBatchingDims := []
  startIndexMap := [0]
  indexVectorDim := 1
  sliceSizes := ![1, 128]
  wf := gather_S12288x128_S196608x1_S196608x128_1_0_n_n_0_1_1128_wf
def scatter_S12288x128_S196608x1_S196608x128_1_0_0_1 : ScatterDims S12288x128 S196608x1 S196608x128 where
  updateWindowDims := [1]
  insertedWindowDims := [0]
  scatterDimsToOperandDims := [0]
  indexVectorDim := 1
  wf := scatter_S12288x128_S196608x1_S196608x128_1_0_0_1_wf
def scatter_S12288_S196608x1_S196608_n_0_0_1 : ScatterDims S12288 S196608x1 S196608 where
  updateWindowDims := []
  insertedWindowDims := [0]
  scatterDimsToOperandDims := [0]
  indexVectorDim := 1
  wf := scatter_S12288_S196608x1_S196608_n_0_0_1_wf
def dot_S12288x256_S256x128_S12288x128_1_0_0_1_n_n : DotDims S12288x256 S256x128 S12288x128 where
  lhsContracting := [1]
  rhsContracting := [0]
  lhsNonContracting := [0]
  rhsNonContracting := [1]
  lhsBatch := []
  rhsBatch := []
  wf := dot_S12288x256_S256x128_S12288x128_1_0_0_1_n_n_wf
def dot_S12288x256_S256x256_S12288x256_1_0_0_1_n_n : DotDims S12288x256 S256x256 S12288x256 where
  lhsContracting := [1]
  rhsContracting := [0]
  lhsNonContracting := [0]
  rhsNonContracting := [1]
  lhsBatch := []
  rhsBatch := []
  wf := dot_S12288x256_S256x256_S12288x256_1_0_0_1_n_n_wf
def dot_S256x12288_S12288x128_S256x128_1_0_0_1_n_n : DotDims S256x12288 S12288x128 S256x128 where
  lhsContracting := [1]
  rhsContracting := [0]
  lhsNonContracting := [0]
  rhsNonContracting := [1]
  lhsBatch := []
  rhsBatch := []
  wf := dot_S256x12288_S12288x128_S256x128_1_0_0_1_n_n_wf
def gather_S12288x256_S196608x1_S196608x256_1_0_n_n_0_1_1256 : GatherDims S12288x256 S196608x1 S196608x256 where
  offsetDims := [1]
  collapsedSliceDims := [0]
  operandBatchingDims := []
  startIndicesBatchingDims := []
  startIndexMap := [0]
  indexVectorDim := 1
  sliceSizes := ![1, 256]
  wf := gather_S12288x256_S196608x1_S196608x256_1_0_n_n_0_1_1256_wf
def scatter_S12288x256_S196608x1_S196608x256_1_0_0_1 : ScatterDims S12288x256 S196608x1 S196608x256 where
  updateWindowDims := [1]
  insertedWindowDims := [0]
  scatterDimsToOperandDims := [0]
  indexVectorDim := 1
  wf := scatter_S12288x256_S196608x1_S196608x256_1_0_0_1_wf
def dot_S256x12288_S12288x256_S256x256_1_0_0_1_n_n : DotDims S256x12288 S12288x256 S256x256 where
  lhsContracting := [1]
  rhsContracting := [0]
  lhsNonContracting := [0]
  rhsNonContracting := [1]
  lhsBatch := []
  rhsBatch := []
  wf := dot_S256x12288_S12288x256_S256x256_1_0_0_1_n_n_wf
def scatter_S12288x12288_S196608x2_S196608_n_01_01_1 : ScatterDims S12288x12288 S196608x2 S196608 where
  updateWindowDims := []
  insertedWindowDims := [0, 1]
  scatterDimsToOperandDims := [0, 1]
  indexVectorDim := 1
  wf := scatter_S12288x12288_S196608x2_S196608_n_01_01_1_wf
def dot_S12288x256_S256x12288_S12288x12288_1_0_0_1_n_n : DotDims S12288x256 S256x12288 S12288x12288 where
  lhsContracting := [1]
  rhsContracting := [0]
  lhsNonContracting := [0]
  rhsNonContracting := [1]
  lhsBatch := []
  rhsBatch := []
  wf := dot_S12288x256_S256x12288_S12288x12288_1_0_0_1_n_n_wf

class Facts : Prop extends Facts₀ where

variable [Facts]
-- ==== Proof.KIFrame.Runs.lean ====
import proofs.«118921_j70214125355087_2_alg».proof.Proof.Gen.KernelIdeal.Launch
import proofs.«118921_j70214125355087_2_alg».proof.Proof.Gen.KernelIdeal.Skeleton
import proofs.«118921_j70214125355087_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev tailOps : List (List (HloOp τ sig (Elt F))) := [hostOps1, hostOps1_1, hostOps1_2, hostOps1_3, hostOps1_4, hostOps1_5, hostOps1_6, hostOps1_7, hostOps1_8, hostOps1_9]

abbrev V0 (c : Dev nD) : Valuation τ sig (Elt F) := StableHlo.after (List.flatten [hostOps0, hostOps0_1, hostOps0_2, hostOps0_3, hostOps0_4, hostOps0_5, hostOps0_6]) (fun b => m (c, b))

abbrev V (c : Dev nD) (b : Ref sig .tc) : Buf (Elt F) ((c : Thread nD τ).loc b) := V0 m c (Proc.devRef .tc b)

theorem forall_mem_flat {α : Type*} {p : α → Prop} {ls : List (List α)} (h : ls.Forall fun l => l.Forall p) :
    ∀ l ∈ ls, ∀ a ∈ l, p a :=
  fun l hl a ha => List.forall_iff_forall_mem.mp (List.forall_iff_forall_mem.mp h l hl) a ha

theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9]) :=
  Pipeline.hmain_around cfgs 0 defs₀ 𝒱₀ m main [hostOps0, hostOps0_1, hostOps0_2, hostOps0_3, hostOps0_4, hostOps0_5, hostOps0_6] tailOps (by simp only [List.Forall]; exact ⟨hostOps0_sub, hostOps0_1_sub, hostOps0_2_sub, hostOps0_3_sub, hostOps0_4_sub, hostOps0_5_sub, hostOps0_6_sub⟩)
    (by simp only [List.Forall]; repeat' constructor) main_chain

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact fun ops hops op hop => Pipeline.sub_ucRefs op (forall_mem_flat (p := fun op : HloOp τ sig (Elt F) => op.bufs ⊆ StableHlo.tcRefs τ sig)
    (by simp only [List.Forall]; exact ⟨hostOps1_sub, hostOps1_1_sub, hostOps1_2_sub, hostOps1_3_sub, hostOps1_4_sub, hostOps1_5_sub, hostOps1_6_sub, hostOps1_7_sub, hostOps1_8_sub, hostOps1_9_sub⟩) ops hops op hop)

theorem sfx_fresh : ∀ ops ∈ (tailOps : List (List (HloOp τ sig (Elt F)))), ∀ op ∈ ops, op.fresh = ∅ :=
  forall_mem_flat (by simp only [List.Forall]; repeat' constructor)

theorem low_ne {r y : Ref sig .tc} {K : ℕ} (hr : r.idx.val < K) (hy : K ≤ y.idx.val) : r ≠ y :=
  fun e => absurd (e ▸ hr) (Nat.not_lt.mpr hy)

theorem head_high : (List.flatten [hostOps0, hostOps0_1, hostOps0_2, hostOps0_3, hostOps0_4, hostOps0_5, hostOps0_6] : List (HloOp τ sig (Elt F))).Forall fun op =>
    ∀ r : Ref sig .tc, r.idx.val < 7 → Proc.devRef .tc r ∉ op.writes := by
  simp only [hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun r hr => StableHlo.devRef_ne_of_ne (low_ne hr (by decide))

theorem tail_high : (List.flatten tailOps : List (HloOp τ sig (Elt F))).Forall fun op =>
    ∀ r : Ref sig .tc, r.idx.val < 136 → Proc.devRef .tc r ∉ op.writes := by
  simp only [hostOps1, hostOps1_1, hostOps1_2, hostOps1_3, hostOps1_4, hostOps1_5, hostOps1_6, hostOps1_7, hostOps1_8, hostOps1_9, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun r hr => StableHlo.devRef_ne_of_ne (low_ne hr (by decide))

theorem sfx_keeps : ∀ ops ∈ (tailOps : List (List (HloOp τ sig (Elt F)))), ∀ op ∈ ops,
    ∀ w, Proc.devRef .tc (Pipeline.arrRef spec0 w) ∉ op.writes :=
  fun ops hops op hop w => List.forall_iff_forall_mem.mp tail_high op (List.mem_flatten_of_mem hops hop) _
    ((by decide : ∀ w, (Pipeline.arrRef spec0 w).idx.val < 136) w)

theorem V_arg (c : Dev nD) (b : Ref sig .tc) (hb : b.idx.val < 7) : V m c b = m ((c : Thread nD τ).loc b) :=
  StableHlo.after_of_forall_not_mem _ _ fun op hop => List.forall_iff_forall_mem.mp head_high op hop b hb

theorem W_arg (dats : (p : Fin _) → (c : Dev nD) → Dat τ (Elt F) Unit ℕ (UR sig nD τ) ℕ (cfgs p) c) (c : Dev nD) (b : Ref sig .tc) (hb : b.idx.val < 7) :
    Pipeline.afterTail₀ cfgs dats 0 (V0 m) tailOps c b = m ((c : Thread nD τ).loc b) := by
  unfold Pipeline.afterTail₀
  exact ((StableHlo.after_of_forall_not_mem _ _ fun op hop => List.forall_iff_forall_mem.mp tail_high op hop b (by omega)).trans
    (Pipeline.withArrays_of_ne _ c (V0 m c) _ b fun w => (low_ne hb ((by decide : ∀ w, 7 ≤ (Pipeline.arrRef spec0 w).idx.val) w)).symm)).trans (V_arg m c b hb)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 6 = 0 :=
  (by decide +kernel : ∀ t : Fin grid0.N, cond0_0 (grid0.coords t) ↔ t.val % 6 = 0)

abbrev VO0_3 : View sig .tc .vmem S1x256x128 .f32 := (Memref.whole cc0_stg3_0 : Memref sig .tc .vmem S1x256x128 .f32).view
abbrev VO0_4 : View sig .tc .vmem S1x256x256 .f32 := (Memref.whole cc0_stg4_0 : Memref sig .tc .vmem S1x256x256 .f32).view
abbrev VO0_5 : View sig .tc .vmem S1x256x256 .f32 := (Memref.whole cc0_stg5_0 : Memref sig .tc .vmem S1x256x256 .f32).view
abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x256 .f32 := win0_5.stage (cfg0.slots t 5)
abbrev hs0_5 (t : Fin cfg0.N) : (ms0_5 t).IsWhole := hstage0_5 ((cfg0.slots t 5).cast nbuf0_5)

end Cert.KernelIdeal.HandFrame

end
-- ==== Proof.KIFrame.RunA.lean ====
import proofs.«118921_j70214125355087_2_alg».proof.Proof.KIFrame.Runs

set_option maxRecDepth 16384

noncomputable section

namespace Cert.KernelIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in

noncomputable def kernelRun0_A (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1024x256 .bf16) (harg4 : arg4.IsWhole) (arg5 : Memref sig .tc .vmem S1x256x128 .f32) (harg5 : arg5.IsWhole) (arg6 : Memref sig .tc .vmem S1x256x256 .f32) (harg6 : arg6.IsWhole) (arg7 : Memref sig .tc .vmem S1x256x256 .f32) (harg7 : arg7.IsWhole) (hc0 : cond0_0 i)
    (x0 : Vec F S1024x256 .bf16) (x1 : Vec F S1024x128 .bf16) (x2 : Vec F S1024x256 .bf16) :
    Σ' (L3 : List (View.Piece (Elt F) S1x256x128 .f32)), Σ' (L4 : List (View.Piece (Elt F) S1x256x256 .f32)), { L5 : List (View.Piece (Elt F) S1x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.HandFrame

end
-- ==== Proof.KIFrame.RunB.lean ====
import proofs.«118921_j70214125355087_2_alg».proof.Proof.KIFrame.RunA

set_option maxRecDepth 16384

noncomputable section

namespace Cert.KernelIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in

noncomputable def kernelRun0_B (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1024x256 .bf16) (harg4 : arg4.IsWhole) (arg5 : Memref sig .tc .vmem S1x256x128 .f32) (harg5 : arg5.IsWhole) (arg6 : Memref sig .tc .vmem S1x256x256 .f32) (harg6 : arg6.IsWhole) (arg7 : Memref sig .tc .vmem S1x256x256 .f32) (harg7 : arg7.IsWhole) (hc0 : ¬cond0_0 i)
    (x0 : Vec F S1024x256 .bf16) (x1 : Vec F S1024x128 .bf16) (x2 : Vec F S1024x256 .bf16) (xo3 : Vec F S1x256x128 .f32) (xo4 : Vec F S1x256x256 .f32) (xo5 : Vec F S1x256x256 .f32) :
    Σ' (L3 : List (View.Piece (Elt F) S1x256x128 .f32)), Σ' (L4 : List (View.Piece (Elt F) S1x256x256 .f32)), { L5 : List (View.Piece (Elt F) S1x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4 ∗ owns (c : Thread nD τ) arg7 fullShare xo5
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)) -∗ K ⟨⟩))
          ⊢ wp frame (wpE (defs₀ (F := F)) Variants.none c none) E (cc0__pool_kernel i arg2 harg2 arg3 harg3 arg4 harg4 arg5 harg5 arg6 harg6 arg7 harg7) K } := by
  refine ⟨?_, ?_, ?_, fun E K => ?run⟩
  case run =>
    simp only [cc0__pool_kernel_eq_skeleton]; unfold cc0__pool_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    iexists _; iexact H5

end Cert.KernelIdeal.HandFrame

end
-- ==== Proof.KIFrame.lean ====
import proofs.«118921_j70214125355087_2_alg».proof.Proof.KIFrame.RunB

set_option maxRecDepth 16384

noncomputable section

namespace Cert.KernelIdeal.HandFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1024x256 .bf16) (harg4 : arg4.IsWhole) (arg5 : Memref sig .tc .vmem S1x256x128 .f32) (harg5 : arg5.IsWhole) (arg6 : Memref sig .tc .vmem S1x256x256 .f32) (harg6 : arg6.IsWhole) (arg7 : Memref sig .tc .vmem S1x256x256 .f32) (harg7 : arg7.IsWhole)

section
variable (hc0 : cond0_0 i) (x0 : Vec F S1024x256 .bf16) (x1 : Vec F S1024x128 .bf16) (x2 : Vec F S1024x256 .bf16)

theorem cover0_A_3 (y : S1x256x128.Idx) :
    ∃ pc ∈ (kernelRun0_A c i arg2 harg2 arg3 harg3 arg4 harg4 arg5 harg5 arg6 harg6 arg7 harg7 hc0 x0 x1 x2).1, y ∈ pc.1.set :=
  View.cover_of_tiledL (kernelRun0_A c i arg2 harg2 arg3 harg3 arg4 harg4 arg5 harg5 arg6 harg6 arg7 harg7 hc0 x0 x1 x2).1 S1x256x128.size (by sl_kernel_rfl) y

def out0_A_3 : Vec F S1x256x128 .f32 :=
  VO0_3.read (Elt F) (VO0_3.writes (Elt F) VO0_3.junk (kernelRun0_A c i arg2 harg2 arg3 harg3 arg4 harg4 arg5 harg5 arg6 harg6 arg7 harg7 hc0 x0 x1 x2).1)

theorem cover0_A_4 (y : S1x256x256.Idx) :
    ∃ pc ∈ (kernelRun0_A c i arg2 harg2 arg3 harg3 arg4 harg4 arg5 harg5 arg6 harg6 arg7 harg7 hc0 x0 x1 x2).2.1, y ∈ pc.1.set :=
  View.cover_of_tiledL (kernelRun0_A c i arg2 harg2 arg3 harg3 arg4 harg4 arg5 harg5 arg6 harg6 arg7 harg7 hc0 x0 x1 x2).2.1 S1x256x256.size (by sl_kernel_rfl) y

def out0_A_4 : Vec F S1x256x256 .f32 :=
  VO0_4.read (Elt F) (VO0_4.writes (Elt F) VO0_4.junk (kernelRun0_A c i arg2 harg2 arg3 harg3 arg4 harg4 arg5 harg5 arg6 harg6 arg7 harg7 hc0 x0 x1 x2).2.1)

theorem cover0_A_5 (y : S1x256x256.Idx) :
    ∃ pc ∈ (kernelRun0_A c i arg2 harg2 arg3 harg3 arg4 harg4 arg5 harg5 arg6 harg6 arg7 harg7 hc0 x0 x1 x2).2.2.1, y ∈ pc.1.set :=
  View.cover_of_tiledL (kernelRun0_A c i arg2 harg2 arg3 harg3 arg4 harg4 arg5 harg5 arg6 harg6 arg7 harg7 hc0 x0 x1 x2).2.2.1 S1x256x256.size (by sl_kernel_rfl) y

def out0_A_5 : Vec F S1x256x256 .f32 :=
  VO0_5.read (Elt F) (VO0_5.writes (Elt F) VO0_5.junk (kernelRun0_A c i arg2 harg2 arg3 harg3 arg4 harg4 arg5 harg5 arg6 harg6 arg7 harg7 hc0 x0 x1 x2).2.2.1)

end

section
variable (hc0 : ¬cond0_0 i) (x0 : Vec F S1024x256 .bf16) (x1 : Vec F S1024x128 .bf16) (x2 : Vec F S1024x256 .bf16) (xo3 : Vec F S1x256x128 .f32) (xo4 : Vec F S1x256x256 .f32) (xo5 : Vec F S1x256x256 .f32)

theorem cover0_B_3 (y : S1x256x128.Idx) :
    ∃ pc ∈ (kernelRun0_B c i arg2 harg2 arg3 harg3 arg4 harg4 arg5 harg5 arg6 harg6 arg7 harg7 hc0 x0 x1 x2 xo3 xo4 xo5).1, y ∈ pc.1.set :=
  View.cover_of_tiledL (kernelRun0_B c i arg2 harg2 arg3 harg3 arg4 harg4 arg5 harg5 arg6 harg6 arg7 harg7 hc0 x0 x1 x2 xo3 xo4 xo5).1 S1x256x128.size (by sl_kernel_rfl) y

def out0_B_3 : Vec F S1x256x128 .f32 :=
  VO0_3.read (Elt F) (VO0_3.writes (Elt F) VO0_3.junk (kernelRun0_B c i arg2 harg2 arg3 harg3 arg4 harg4 arg5 harg5 arg6 harg6 arg7 harg7 hc0 x0 x1 x2 xo3 xo4 xo5).1)

theorem cover0_B_4 (y : S1x256x256.Idx) :
    ∃ pc ∈ (kernelRun0_B c i arg2 harg2 arg3 harg3 arg4 harg4 arg5 harg5 arg6 harg6 arg7 harg7 hc0 x0 x1 x2 xo3 xo4 xo5).2.1, y ∈ pc.1.set :=
  View.cover_of_tiledL (kernelRun0_B c i arg2 harg2 arg3 harg3 arg4 harg4 arg5 harg5 arg6 harg6 arg7 harg7 hc0 x0 x1 x2 xo3 xo4 xo5).2.1 S1x256x256.size (by sl_kernel_rfl) y

def out0_B_4 : Vec F S1x256x256 .f32 :=
  VO0_4.read (Elt F) (VO0_4.writes (Elt F) VO0_4.junk (kernelRun0_B c i arg2 harg2 arg3 harg3 arg4 harg4 arg5 harg5 arg6 harg6 arg7 harg7 hc0 x0 x1 x2 xo3 xo4 xo5).2.1)

theorem cover0_B_5 (y : S1x256x256.Idx) :
    ∃ pc ∈ (kernelRun0_B c i arg2 harg2 arg3 harg3 arg4 harg4 arg5 harg5 arg6 harg6 arg7 harg7 hc0 x0 x1 x2 xo3 xo4 xo5).2.2.1, y ∈ pc.1.set :=
  View.cover_of_tiledL (kernelRun0_B c i arg2 harg2 arg3 harg3 arg4 harg4 arg5 harg5 arg6 harg6 arg7 harg7 hc0 x0 x1 x2 xo3 xo4 xo5).2.2.1 S1x256x256.size (by sl_kernel_rfl) y

def out0_B_5 : Vec F S1x256x256 .f32 :=
  VO0_5.read (Elt F) (VO0_5.writes (Elt F) VO0_5.junk (kernelRun0_B c i arg2 harg2 arg3 harg3 arg4 harg4 arg5 harg5 arg6 harg6 arg7 harg7 hc0 x0 x1 x2 xo3 xo4 xo5).2.2.1)

end

end

def outsAt0 (c : Dev nD) : (n : ℕ) → n < cfg0.N → Vec F S1x256x128 .f32 × Vec F S1x256x256 .f32 × Vec F S1x256x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
       out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩),
       out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 6 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2,
       out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2)

theorem outsAt0_A (c : Dev nD) (t : Fin cfg0.N) (h0 : t.val % 6 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
       out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t),
       out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk m c 0 t) (iblk m c 1 t) (iblk m c 2 t)) := by
  obtain ⟨n, hn⟩ := t
  cases n with
  | zero => exact rfl
  | succ n => exact (dif_pos h0).trans rfl

theorem outsAt0_B (c : Dev nD) (t : Fin cfg0.N) (h0 : ¬t.val % 6 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2,
       out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem before0_3_B (c : Dev nD) (t : Fin cfg0.N) (h0 : ¬t.val % 6 = 0) (d) :
    (dats m 0 c).before 3 t d = (outsAt0 m c (t.val - 1) (Nat.lt_of_le_of_lt (Nat.sub_le _ _) t.isLt)).1 := by
  have hN : t.val < 12 := lt_of_lt_of_eq t.isLt (show cfg0.N = 12 from N_0)
  rw [Dat.before_out_kept _ 3 rfl t (by omega) (Bool.eq_false_iff.mpr fun h => by have := (flush0_3 _).mp h; dsimp only at this; omega)
    (fun _ => rfl) (fun _ _ => rfl)]
  dsimp only [dats]

theorem before0_4_B (c : Dev nD) (t : Fin cfg0.N) (h0 : ¬t.val % 6 = 0) (d) :
    (dats m 0 c).before 4 t d = (outsAt0 m c (t.val - 1) (Nat.lt_of_le_of_lt (Nat.sub_le _ _) t.isLt)).2.1 := by
  have hN : t.val < 12 := lt_of_lt_of_eq t.isLt (show cfg0.N = 12 from N_0)
  rw [Dat.before_out_kept _ 4 rfl t (by omega) (Bool.eq_false_iff.mpr fun h => by have := (flush0_4 _).mp h; dsimp only at this; omega)
    (fun _ => rfl) (fun _ _ => rfl)]
  dsimp only [dats]

theorem before0_5_B (c : Dev nD) (t : Fin cfg0.N) (h0 : ¬t.val % 6 = 0) (d) :
    (dats m 0 c).before 5 t d = (outsAt0 m c (t.val - 1) (Nat.lt_of_le_of_lt (Nat.sub_le _ _) t.isLt)).2.2 := by
  have hN : t.val < 12 := lt_of_lt_of_eq t.isLt (show cfg0.N = 12 from N_0)
  rw [Dat.before_out_kept _ 5 rfl t (by omega) (Bool.eq_false_iff.mpr fun h => by have := (flush0_5 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  have hN : t.val < 12 := lt_of_lt_of_eq t.isLt (show cfg0.N = 12 from N_0)
  by_cases h0 : t.val % 6 = 0
  · rw [outsAt0_A m c t h0]
    unfold out0_A_3 out0_A_4 out0_A_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ ((hcond0_0 t).mpr h0) (iblk m c 0 t) (iblk m c 1 t) (iblk m c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _)
    isplitl [H4]
    · unfold owns; iexists _; isplitr
      swap; · iexact H4
      ipureintro; exact View.read_writes_of_cover _ _ _ _ _ (cover0_A_4 c _ _ _ _ _ _ _ _ _ _ _ _ _ _ _ _ _)
    unfold owns; iexists _; isplitr
    swap; · iexact H5
    ipureintro; exact View.read_writes_of_cover _ _ _ _ _ (cover0_A_5 c _ _ _ _ _ _ _ _ _ _ _ _ _ _ _ _ _)
  · rw [outsAt0_B m c t h0]
    simp only [before0_3_B m c t h0, before0_4_B m c t h0, before0_5_B m c t h0]
    unfold out0_B_3 out0_B_4 out0_B_5; (try dsimp only)
    iintro ⟨HΦ, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ (fun h => h0 ((hcond0_0 t).mp h)) (iblk m c 0 t) (iblk m c 1 t) (iblk m c 2 t) _ _ _).2.2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _)
    isplitl [H4]
    · unfold owns; iexists _; isplitr
      swap; · iexact H4
      ipureintro; exact View.read_writes_of_cover _ _ _ _ _ (cover0_B_4 c _ _ _ _ _ _ _ _ _ _ _ _ _ _ _ _ _ _ _ _)
    unfold owns; iexists _; isplitr
    swap; · iexact H5
    ipureintro; exact View.read_writes_of_cover _ _ _ _ _ (cover0_B_5 c _ _ _ _ _ _ _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

theorem run_results : θ_run defs (onTc (τ := τ) (main (F := F))) ⟨m, fun _ => 0, ρ⟩ (fun r => ∀ c : Dev nD,
      r.2.mem ((c.tc : Thread nD τ).loc main_v86) = Pipeline.afterTail₀ cfgs (dats m) 0 (V0 m) tailOps c main_v86
      ∧ r.2.mem ((c.tc : Thread nD τ).loc main_v85) = Pipeline.afterTail₀ cfgs (dats m) 0 (V0 m) tailOps c main_v85
      ∧ r.2.mem ((c.tc : Thread nD τ).loc main_v114) = Pipeline.afterTail₀ cfgs (dats m) 0 (V0 m) tailOps c main_v114
      ∧ r.2.mem ((c.tc : Thread nD τ).loc main_v129) = Pipeline.afterTail₀ cfgs (dats m) 0 (V0 m) tailOps c main_v129
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).2 main_v86 (Pipeline.mem_restRefs_of main_v86 (by decide) (by decide)),
    (h c).2 main_v85 (Pipeline.mem_restRefs_of main_v85 (by decide) (by decide)),
    (h c).2 main_v114 (Pipeline.mem_restRefs_of main_v114 (by decide) (by decide)),
    (h c).2 main_v129 (Pipeline.mem_restRefs_of main_v129 (by decide) (by decide)),
    ((h c).2 main_arg0 (Pipeline.mem_restRefs_of main_arg0 (by decide) (by decide))).trans (W_arg m (dats m) c main_arg0 (by decide)),
    ((h c).2 main_arg1 (Pipeline.mem_restRefs_of main_arg1 (by decide) (by decide))).trans (W_arg m (dats m) c main_arg1 (by decide)),
    ((h c).2 main_arg2 (Pipeline.mem_restRefs_of main_arg2 (by decide) (by decide))).trans (W_arg m (dats m) c main_arg2 (by decide)),
    ((h c).2 main_arg3 (Pipeline.mem_restRefs_of main_arg3 (by decide) (by decide))).trans (W_arg m (dats m) c main_arg3 (by decide)),
    ((h c).2 main_arg4 (Pipeline.mem_restRefs_of main_arg4 (by decide) (by decide))).trans (W_arg m (dats m) c main_arg4 (by decide)),
    ((h c).2 main_arg5 (Pipeline.mem_restRefs_of main_arg5 (by decide) (by decide))).trans (W_arg m (dats m) c main_arg5 (by decide)),
    ((h c).2 main_arg6 (Pipeline.mem_restRefs_of main_arg6 (by decide) (by decide))).trans (W_arg m (dats m) c main_arg6 (by decide))⟩) (run_main m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2.2.2.2) (run_results m ρ)

end Cert.KernelIdeal.HandFrame

end
-- ==== Proof.KBClaim.lean ====
import proofs.«118921_j70214125355087_2_alg».proof.Defs
import proofs.«118921_j70214125355087_2_alg».proof.Proof.Gen.Kernel
import proofs.«118921_j70214125355087_2_alg».proof.Proof.Gen.Pre_finite_inputs
import proofs.«118921_j70214125355087_2_alg».proof.Proof.KIFrame

noncomputable section

namespace Cert.KBClaim

open Idealize.ShloMosaic

variable [h : Cert.Kernel.Facts] [h' : Cert.KernelIdeal.Facts] {F : FTy → Type} [FloatOps F]

-- No operation of the program was rewritten for the exact reading, so the two printed programs are one text:
-- the same body at every grid point, hence the same definitions table, and the same host program.
theorem defs₀_eq : Cert.Kernel.defs₀ (F := F) = Cert.KernelIdeal.defs₀ (F := F) := by
  unfold Cert.Kernel.defs₀ Cert.KernelIdeal.defs₀
  congr 1
  funext l x
  rcases l with ⟨_ | n, hl⟩
  · rfl
  · exact absurd hl (by omega)

theorem defs_eq : Cert.Kernel.defs (F := F) = Cert.KernelIdeal.defs (F := F) := by
  unfold Cert.Kernel.defs Cert.KernelIdeal.defs
  rw [defs₀_eq]
  rfl

set_option maxHeartbeats 4000000 in
theorem main_eq : Cert.Kernel.main (F := F) = Cert.KernelIdeal.main (F := F) := rfl

-- The frame was proved for the program at any value type; at machine words it is the frame of the program as printed.
theorem frame_bits : @Cert.frame_Kernel Cert.Kernel.Gen.facts Cert.Pre_finite_inputs.Gen.facts := by
  intro m g _
  rw [defs_eq (h := Cert.Kernel.Gen.facts) (h' := Cert.KernelIdeal.Gen.facts), main_eq (h := Cert.Kernel.Gen.facts) (h' := Cert.KernelIdeal.Gen.facts)]
  exact Cert.KernelIdeal.HandFrame.frame (F := Bits) m g

end Cert.KBClaim

end
-- ==== Proof.KIPts.lean ====
import proofs.«118921_j70214125355087_2_alg».proof.Proof.KIFrame
import Idealize.ShloMosaic.PureOps.Ideal

noncomputable section

namespace Cert.KernelIdeal.HandValue

open Idealize.ShloMosaic Idealize.ShloMosaic.TcCoe
open Idealize.SL Idealize.SL.Sem
open Cert.KernelIdeal.Gen Cert.KernelIdeal.HandFrame

variable (m : (ℓ : Loc nD τ sig) → Buf (Elt Ideal) ℓ)

def pt (h : Fin 2) (k : Fin 6) : Fin cfg0.N :=
  ⟨6 * h.val + k.val, by
    have := h.isLt; have := k.isLt
    rw [show cfg0.N = 12 from N_0]; omega⟩

theorem pt_val (h : Fin 2) (k : Fin 6) : (pt h k).val = 6 * h.val + k.val := rfl

abbrev xS (c : Dev nD) (h : Fin 2) (k : Fin 6) : Vec Ideal S1024x256 .bf16 := iblk m c 0 (pt h k)

abbrev xE (c : Dev nD) (h : Fin 2) (k : Fin 6) : Vec Ideal S1024x128 .bf16 := iblk m c 1 (pt h k)

abbrev xX (c : Dev nD) (h : Fin 2) (k : Fin 6) : Vec Ideal S1024x256 .bf16 := iblk m c 2 (pt h k)

end Cert.KernelIdeal.HandValue

end
-- ==== Proof.Spec.lean ====
import proofs.«118921_j70214125355087_2_alg».proof.KernelIdeal
import proofs.«118921_j70214125355087_2_alg».proof.ReferenceIdeal

noncomputable section

namespace Cert.Spec

open Idealize.ShloMosaic

section Shared
open Cert.KernelIdeal Cert.KernelIdeal.Facts₀ Cert.KernelIdeal.Facts
variable {F : FTy → Type} [FloatOps F] [Cert.KernelIdeal.Facts]

def srcOf (ei : IVec S2x196608 32) : IVec S196608 32 :=
  fun i => shapeCast S196608 (extractStridedSlice S1x196608 ![0, 0] ei slices_S2x196608_S1x196608_0_0) shapeCasts_S1x196608_S196608 i

def dstOf (ei : IVec S2x196608 32) : IVec S196608 32 :=
  fun i => shapeCast S196608 (extractStridedSlice S1x196608 ![1, 0] ei slices_S2x196608_S1x196608_1_0) shapeCasts_S1x196608_S196608 i

def wrapIdx (v : IVec S196608 32) : IVec S196608 32 :=
  select (cmpi .slt v (broadcastInDim S196608 ![] bcast_S_S196608 (constantI S_ 32 0#32)))
    (addi v (broadcastInDim S196608 ![] bcast_S_S196608 (constantI S_ 32 12288#32))) v

def col (v : IVec S196608 32) : IVec S196608x1 32 := broadcastInDim S196608x1 ![0] bcast_S196608_S196608x1_0 v

def aggOf (x : FVec F S12288x128 .f32) (s d : IVec S196608 32) : FVec F S12288x128 .f32 :=
  Host.divf
    (Host.scatterAdd scatter_S12288x128_S196608x1_S196608x128_1_0_0_1
      (broadcastInDim S12288x128 ![] bcast_S_S12288x128 (constant (F := F) S_ .f32 0x00000000#32)) (col d)
      (Host.gather gather_S12288x128_S196608x1_S196608x128_1_0_n_n_0_1_1128 x (col (wrapIdx s))))
    (broadcastInDim S12288x128 ![0, 1] bcast_S12288x1_S12288x128_0_1 (broadcastInDim S12288x1 ![0] bcast_S12288_S12288x1_0
      (maximumf
        (Host.scatterAdd scatter_S12288_S196608x1_S196608_n_0_0_1
          (broadcastInDim S12288 ![] bcast_S_S12288 (constant (F := F) S_ .f32 0x00000000#32)) (col d)
          (broadcastInDim S196608 ![] bcast_S_S196608 (constant (F := F) S_ .f32 0x3F800000#32)))
        (broadcastInDim S12288 ![] bcast_S_S12288 (constant (F := F) S_ .f32 0x3F800000#32)))))

def catOf (x : FVec F S12288x128 .f32) (s d : IVec S196608 32) : FVec F S12288x256 .f32 :=
  concatenate S12288x256 1 [⟨S12288x128, x⟩, ⟨S12288x128, aggOf x s d⟩] concatenates_S12288x128_S12288x128_S12288x256_d1

def rowLen128 (h : FVec F S12288x128 .f32) : FVec F S12288x1 .f32 :=
  Host.sqrt (broadcastInDim S12288x1 ![0] bcast_S12288_S12288x1_0
    (Host.reduceAdd (mulf h h) (constant (F := F) S_ .f32 0x00000000#32) reducesTo_S12288x128_S12288_d1 h_S_))

def rowNorm128 (h : FVec F S12288x128 .f32) : FVec F S12288x128 .f32 :=
  Host.divf h (broadcastInDim S12288x128 ![0, 1] bcast_S12288x1_S12288x128_0_1
    (maximumf (rowLen128 h) (broadcastInDim S12288x1 ![] bcast_S_S12288x1 (constant (F := F) S_ .f32 0x2B8CBCCC#32))))

def rowLen256 (h : FVec F S12288x256 .f32) : FVec F S12288x1 .f32 :=
  Host.sqrt (broadcastInDim S12288x1 ![0] bcast_S12288_S12288x1_0
    (Host.reduceAdd (mulf h h) (constant (F := F) S_ .f32 0x00000000#32) reducesTo_S12288x256_S12288_d1 h_S_))

def rowNorm256 (h : FVec F S12288x256 .f32) : FVec F S12288x256 .f32 :=
  Host.divf h (broadcastInDim S12288x256 ![0, 1] bcast_S12288x1_S12288x256_0_1
    (maximumf (rowLen256 h) (broadcastInDim S12288x1 ![] bcast_S_S12288x1 (constant (F := F) S_ .f32 0x2B8CBCCC#32))))

def colGraph : IVec S256 32 :=
  let n : IVec S256 32 := iotaInDim S256 32 0
  let c : IVec S_ 32 := id (constantI S_ 32 32#32)
  let q : IVec S256 32 := Host.divsi n (broadcastInDim S256 ![] bcast_S_S256 c)
  select
    (andi (cmpi .ne (signi n) (broadcastInDim S256 ![] bcast_S_S256 (signi c)))
      (cmpi .ne (Host.remsi n (broadcastInDim S256 ![] bcast_S_S256 c)) (broadcastInDim S256 ![] bcast_S_S256 (constantI S_ 32 0#32))))
    (subi q (broadcastInDim S256 ![] bcast_S_S256 (constantI S_ 32 1#32))) q

def maskOf (batch : IVec S12288 32) : FVec F S12288x256 .f32 :=
  uitofp .f32 (cmpi .eq
    (broadcastInDim S12288x256 ![0, 1] bcast_S12288x1_S12288x256_0_1 (broadcastInDim S12288x1 ![0] bcast_S12288_S12288x1_0 batch))
    (broadcastInDim S12288x256 ![0, 1] bcast_S1x256_S12288x256_0_1 (broadcastInDim S1x256 ![1] bcast_S256_S1x256_1 colGraph)))

def wide (v : FVec F S12288 .f32) : FVec F S12288x256 .f32 :=
  broadcastInDim S12288x256 ![0, 1] bcast_S12288x1_S12288x256_0_1 (broadcastInDim S12288x1 ![0] bcast_S12288_S12288x1_0 v)

def softMasked (p mask : FVec F S12288x256 .f32) : FVec F S12288x256 .f32 :=
  let z : FVec F S12288x256 .f32 := mulf p mask
  let mx : FVec F S12288 .f32 := maximumf (broadcastInDim S12288 ![] bcast_S_S12288 (constant (F := F) S_ .f32 0xFF800000#32))
    (Host.reduce FloatOps.maximumf z (constant (F := F) S_ .f32 0xFF800000#32) reducesTo_S12288x256_S12288_d1 h_S_)
  let ex : FVec F S12288x256 .f32 := Host.exp (subf z (wide mx))
  mulf (Host.divf ex (wide (Host.reduceAdd ex (constant (F := F) S_ .f32 0x00000000#32) reducesTo_S12288x256_S12288_d1 h_S_))) mask

def assignOf (p mask : FVec F S12288x256 .f32) : FVec F S12288x256 .f32 :=
  let r : FVec F S12288x256 .f32 := softMasked p mask
  Host.divf r (broadcastInDim S12288x256 ![0, 1] bcast_S12288x1_S12288x256_0_1
    (addf (broadcastInDim S12288x1 ![0] bcast_S12288_S12288x1_0
        (Host.reduceAdd r (constant (F := F) S_ .f32 0x00000000#32) reducesTo_S12288x256_S12288_d1 h_S_))
      (broadcastInDim S12288x1 ![] bcast_S_S12288x1 (constant (F := F) S_ .f32 0x29E12E13#32))))

def arOf (S : FVec F S12288x256 .f32) (s d : IVec S196608 32) : FVec F S12288x256 .f32 :=
  Host.scatterAdd scatter_S12288x256_S196608x1_S196608x256_1_0_0_1
    (broadcastInDim S12288x256 ![] bcast_S_S12288x256 (constant (F := F) S_ .f32 0x00000000#32)) (col s)
    (Host.gather gather_S12288x256_S196608x1_S196608x256_1_0_n_n_0_1_1256 S (col (wrapIdx d)))

def splat (c : FVec F S_ .f32) : FVec F S12288x256 .f32 := broadcastInDim S12288x256 ![] bcast_S_S12288x256 c

def entropyOf (mask : FVec F S12288x256 .f32) : FVec F S_ .f32 :=
  let p : FVec F S12288x256 .f32 := Host.divf mask (wide (Host.reduceAdd mask (constant (F := F) S_ .f32 0x00000000#32) reducesTo_S12288x256_S12288_d1 h_S_))
  let pos : IVec S12288x256 1 := cmpf .ogt p (splat (constant (F := F) S_ .f32 0x00000000#32))
  let lg : FVec F S12288x256 .f32 := Host.log (select pos p (splat (id (constant (F := F) S_ .f32 0x3F800000#32))))
  let t : FVec F S12288x256 .f32 := select pos (mulf p lg) (splat (id (constant (F := F) S_ .f32 0x00000000#32)))
  Host.reduceAdd (Host.negf (Host.reduceAdd t (constant (F := F) S_ .f32 0x00000000#32) reducesTo_S12288x256_S12288_d1 h_S_))
    (constant (F := F) S_ .f32 0x00000000#32) reducesTo_S12288_S_d0 h_S_

def fusedOf (cat : FVec F S12288x256 .f32) (W1 : FVec F S256x128 .f32) (b1 : FVec F S128 .f32) (W2 : FVec F S256x256 .f32) (b2 : FVec F S256 .f32) :
    FVec F S12288x384 .f32 :=
  addf
    (Host.dotGeneral dot_S12288x256_S256x384_S12288x384_1_0_0_1_n_n none cat
      (concatenate S256x384 1 [⟨S256x128, W1⟩, ⟨S256x256, W2⟩] concatenates_S256x128_S256x256_S256x384_d1))
    (broadcastInDim S12288x384 ![0, 1] bcast_S1x384_S12288x384_0_1 (broadcastInDim S1x384 ![1] bcast_S384_S1x384_1
      (concatenate S384 0 [⟨S128, b1⟩, ⟨S256, b2⟩] concatenates_S128_S256_S384_d0)))

def fusedLeft (h : FVec F S12288x384 .f32) : FVec F S12288x128 .f32 := extractStridedSlice S12288x128 ![0, 0] h slices_S12288x384_S12288x128_0_0

def fusedRight (h : FVec F S12288x384 .f32) : FVec F S12288x256 .f32 := extractStridedSlice S12288x256 ![0, 128] h slices_S12288x384_S12288x256_0_128

def crossOf (S Ar : FVec F S12288x256 .f32) : FVec F S_ .f32 :=
  Host.reduceAdd (mulf S Ar) (constant (F := F) S_ .f32 0x00000000#32) reducesTo_S12288x256_S_d0_1 h_S_

def halves128 (o : FVec F S2x256x128 .f32) : FVec F S256x128 .f32 :=
  Host.reduceAdd o (constant (F := F) S_ .f32 0x00000000#32) reducesTo_S2x256x128_S256x128_d0 h_S_

def halves256 (o : FVec F S2x256x256 .f32) : FVec F S256x256 .f32 :=
  Host.reduceAdd o (constant (F := F) S_ .f32 0x00000000#32) reducesTo_S2x256x256_S256x256_d0 h_S_

def lossK (a cross : FVec F S_ .f32) (G : FVec F S256x256 .f32) : FVec F S_ .f32 :=
  Host.divf
    (Host.sqrt (maximumf
      (addf (subf a (mulf (constant (F := F) S_ .f32 0x40000000#32) cross))
        (Host.reduceAdd (mulf G G) (constant (F := F) S_ .f32 0x00000000#32) reducesTo_S256x256_S_d0_1 h_S_))
      (constant (F := F) S_ .f32 0x00000000#32)))
    (constant (F := F) S_ .f32 0x4D100000#32)

end Shared

section Reference
open Cert.ReferenceIdeal Cert.ReferenceIdeal.Facts₀ Cert.ReferenceIdeal.Facts
variable {F : FTy → Type} [FloatOps F] [Cert.ReferenceIdeal.Facts]

def proj128 (cat : FVec F S12288x256 .f32) (W : FVec F S256x128 .f32) (b : FVec F S128 .f32) : FVec F S12288x128 .f32 :=
  addf (Host.dotGeneral dot_S12288x256_S256x128_S12288x128_1_0_0_1_n_n none cat W)
    (broadcastInDim S12288x128 ![0, 1] bcast_S1x128_S12288x128_0_1 (broadcastInDim S1x128 ![1] bcast_S128_S1x128_1 b))

def proj256 (cat : FVec F S12288x256 .f32) (W : FVec F S256x256 .f32) (b : FVec F S256 .f32) : FVec F S12288x256 .f32 :=
  addf (Host.dotGeneral dot_S12288x256_S256x256_S12288x256_1_0_0_1_n_n none cat W)
    (broadcastInDim S12288x256 ![0, 1] bcast_S1x256_S12288x256_0_1 (broadcastInDim S1x256 ![1] bcast_S256_S1x256_1 b))

def tr (S : FVec F S12288x256 .f32) : FVec F S256x12288 .f32 := transpose S256x12288 [1, 0] S transposes_S12288x256_S256x12288_1_0

def pool128 (S : FVec F S12288x256 .f32) (E : FVec F S12288x128 .f32) : FVec F S256x128 .f32 :=
  Host.dotGeneral dot_S256x12288_S12288x128_S256x128_1_0_0_1_n_n none (tr S) E

def pool256 (S X : FVec F S12288x256 .f32) : FVec F S256x256 .f32 :=
  Host.dotGeneral dot_S256x12288_S12288x256_S256x256_1_0_0_1_n_n none (tr S) X

def denseOf (sw dw : IVec S196608 32) : FVec F S12288x12288 .f32 :=
  Host.scatterAdd scatter_S12288x12288_S196608x2_S196608_n_01_01_1
    (broadcastInDim S12288x12288 ![] bcast_S_S12288x12288 (constant (F := F) S_ .f32 0x00000000#32))
    (concatenate S196608x2 1 [⟨S196608x1, broadcastInDim S196608x1 ![0] bcast_S196608_S196608x1_0 sw⟩, ⟨S196608x1, broadcastInDim S196608x1 ![0] bcast_S196608_S196608x1_0 dw⟩] concatenates_S196608x1_S196608x1_S196608x2_d1)
    (broadcastInDim S196608 ![] bcast_S_S196608 (constant (F := F) S_ .f32 0x3F800000#32))

def lossR (A : FVec F S12288x12288 .f32) (S : FVec F S12288x256 .f32) : FVec F S_ .f32 :=
  let D : FVec F S12288x12288 .f32 := subf A (Host.dotGeneral dot_S12288x256_S256x12288_S12288x12288_1_0_0_1_n_n none S (tr S))
  Host.divf
    (Host.sqrt (Host.reduceAdd (mulf D D) (constant (F := F) S_ .f32 0x00000000#32) reducesTo_S12288x12288_S_d0_1 h_S_))
    (constant (F := F) S_ .f32 0x4D100000#32)

end Reference

end Cert.Spec

end
-- ==== Proof.PoolSum.lean ====
import proofs.«118921_j70214125355087_2_alg».proof.Proof.Spec
import Idealize.ShloMosaic.PureOps.Ideal.Laws
import Idealize.ShloMosaic.Lib.ValueIdx
import Idealize.ShloMosaic.Lib.ValueLayout
import Idealize.ShloMosaic.Lib.StackMember

noncomputable section

open scoped BigOperators

namespace Cert.PoolSum

open Idealize.ShloMosaic Idealize.ShloMosaic.ValueIdx
open Cert.KernelIdeal

variable [Cert.KernelIdeal.Facts] [Cert.ReferenceIdeal.Facts]

def blockRow (h : Fin 2) (k : Fin 6) (r : Fin 1024) : Fin 12288 :=
  ⟨(h.val * 6 + k.val) * 1024 + r.val, by
    have := h.isLt; have := k.isLt; have := r.isLt; omega⟩

def poolOut128 (S : S12288x256.Idx → EReal) (E : S12288x128.Idx → EReal) : S2x256x128.Idx → EReal :=
  fun j => ∑ k : Fin 6, ∑ r : Fin 1024,
    S (ix2 (blockRow (j 0 : Fin 2) k r) (j 1 : Fin 256)) * E (ix2 (blockRow (j 0 : Fin 2) k r) (j 2 : Fin 128))

def poolOut256 (S X : S12288x256.Idx → EReal) : S2x256x256.Idx → EReal :=
  fun j => ∑ k : Fin 6, ∑ r : Fin 1024,
    S (ix2 (blockRow (j 0 : Fin 2) k r) (j 1 : Fin 256)) * X (ix2 (blockRow (j 0 : Fin 2) k r) (j 2 : Fin 256))

theorem poolOut128_apply (S : S12288x256.Idx → EReal) (E : S12288x128.Idx → EReal) (h : Fin 2) (i : Fin 256) (j : Fin 128) :
    poolOut128 S E (ix3 h i j) = ∑ k : Fin 6, ∑ r : Fin 1024, S (ix2 (blockRow h k r) i) * E (ix2 (blockRow h k r) j) := rfl

theorem poolOut256_apply (S X : S12288x256.Idx → EReal) (h : Fin 2) (i : Fin 256) (j : Fin 256) :
    poolOut256 S X (ix3 h i j) = ∑ k : Fin 6, ∑ r : Fin 1024, S (ix2 (blockRow h k r) i) * X (ix2 (blockRow h k r) j) := rfl

-- (half, block, row) ↦ (6·half + block)·1024 + row is a bijection onto the 12288 rows.
theorem blockRow_bijective :
    Function.Bijective (fun p : Fin 2 × Fin 6 × Fin 1024 => blockRow p.1 p.2.1 p.2.2) := by
  constructor
  · rintro ⟨h, k, r⟩ ⟨h', k', r'⟩ e
    have e' : (h.val * 6 + k.val) * 1024 + r.val = (h'.val * 6 + k'.val) * 1024 + r'.val := congrArg Fin.val e
    have := h.isLt; have := k.isLt; have := r.isLt
    have := h'.isLt; have := k'.isLt; have := r'.isLt
    have h1 : h.val = h'.val := by omega
    have h2 : k.val = k'.val := by omega
    have h3 : r.val = r'.val := by omega
    exact Prod.ext (Fin.ext h1) (Prod.ext (Fin.ext h2) (Fin.ext h3))
  · intro n
    have := n.isLt
    refine ⟨(⟨n.val / 6144, by omega⟩, ⟨n.val / 1024 % 6, by omega⟩, ⟨n.val % 1024, by omega⟩), Fin.ext ?_⟩
    show (n.val / 6144 * 6 + n.val / 1024 % 6) * 1024 + n.val % 1024 = n.val
    omega

theorem sum_blockRow {M : Type*} [AddCommMonoid M] (f : Fin 12288 → M) :
    ∑ h : Fin 2, ∑ k : Fin 6, ∑ r : Fin 1024, f (blockRow h k r) = ∑ n : Fin 12288, f n := by
  rw [← Fintype.sum_bijective _ blockRow_bijective (fun p => f (blockRow p.1 p.2.1 p.2.2)) f (fun _ => rfl),
    Fintype.sum_prod_type]
  refine Finset.sum_congr rfl fun h _ => ?_
  rw [Fintype.sum_prod_type]

theorem halves128_apply (o : S2x256x128.Idx → EReal) (i : Fin 256) (j : Fin 128) :
    Spec.halves128 (F := Ideal) o (ix2 i j) = ∑ h : Fin 2, o (ix3 h i j) := by
  have hR : S2x256x128.Reduces [0] S256x128 := by decide
  unfold Spec.halves128 Host.reduceAdd
  rw [Ideal.hostReduceAdd_def, Ideal.hostReduceAdd_single _ hR, constant_apply, Ideal.ofBits_zero_f32, zero_add]
  refine Finset.sum_congr rfl fun h _ => congrArg o ?_
  funext a
  match a with
  | ⟨0, _⟩ => rfl
  | ⟨1, _⟩ => rfl
  | ⟨2, _⟩ => rfl

theorem halves256_apply (o : S2x256x256.Idx → EReal) (i : Fin 256) (j : Fin 256) :
    Spec.halves256 (F := Ideal) o (ix2 i j) = ∑ h : Fin 2, o (ix3 h i j) := by
  have hR : S2x256x256.Reduces [0] S256x256 := by decide
  unfold Spec.halves256 Host.reduceAdd
  rw [Ideal.hostReduceAdd_def, Ideal.hostReduceAdd_single _ hR, constant_apply, Ideal.ofBits_zero_f32, zero_add]
  refine Finset.sum_congr rfl fun h _ => congrArg o ?_
  funext a
  match a with
  | ⟨0, _⟩ => rfl
  | ⟨1, _⟩ => rfl
  | ⟨2, _⟩ => rfl

theorem pool128_apply (S : S12288x256.Idx → EReal) (E : S12288x128.Idx → EReal) (i : Fin 256) (j : Fin 128) :
    Spec.pool128 (F := Ideal) S E (ix2 i j) = ∑ n : Fin 12288, S (ix2 n i) * E (ix2 n j) := by
  unfold Spec.pool128
  show Host.dotGeneral (DotDims.plain 256 12288 128) none (Spec.tr (F := Ideal) S) E (ix2 i j) = _
  rw [StackMember.dotGeneral_plain_apply]
  refine Finset.sum_congr rfl fun n _ => ?_
  unfold Spec.tr
  rw [transpose_ix2_apply]

theorem pool256_apply (S X : S12288x256.Idx → EReal) (i : Fin 256) (j : Fin 256) :
    Spec.pool256 (F := Ideal) S X (ix2 i j) = ∑ n : Fin 12288, S (ix2 n i) * X (ix2 n j) := by
  unfold Spec.pool256
  show Host.dotGeneral (DotDims.plain 256 12288 256) none (Spec.tr (F := Ideal) S) X (ix2 i j) = _
  rw [StackMember.dotGeneral_plain_apply]
  refine Finset.sum_congr rfl fun n _ => ?_
  unfold Spec.tr
  rw [transpose_ix2_apply]

-- Adding the two halves of the blockwise products is the product over all rows: one sum regrouped along that bijection.
theorem halves128_poolOut (S : S12288x256.Idx → EReal) (E : S12288x128.Idx → EReal) :
    Spec.halves128 (F := Ideal) (poolOut128 S E) = Spec.pool128 (F := Ideal) S E := by
  funext idx
  obtain ⟨i, j, rfl⟩ : ∃ i j, idx = ix2 i j := ⟨_, _, eq_ix2 idx⟩
  rw [halves128_apply, pool128_apply, ← sum_blockRow]
  exact Finset.sum_congr rfl fun h _ => poolOut128_apply S E h i j

theorem halves256_poolOut (S X : S12288x256.Idx → EReal) :
    Spec.halves256 (F := Ideal) (poolOut256 S X) = Spec.pool256 (F := Ideal) S X := by
  funext idx
  obtain ⟨i, j, rfl⟩ : ∃ i j, idx = ix2 i j := ⟨_, _, eq_ix2 idx⟩
  rw [halves256_apply, pool256_apply, ← sum_blockRow]
  exact Finset.sum_congr rfl fun h _ => poolOut256_apply S X h i j

end Cert.PoolSum

end
-- ==== Proof.KIArr.lean ====
import proofs.«118921_j70214125355087_2_alg».proof.Proof.KIPts
import proofs.«118921_j70214125355087_2_alg».proof.Proof.PoolSum
import Idealize.ShloMosaic.Lib.Pipeline.Value

noncomputable section

open scoped BigOperators

namespace Cert.KernelIdeal.HandArr

open Idealize.ShloMosaic Idealize.ShloMosaic.TcCoe Idealize.ShloMosaic.ValueIdx
open Idealize.SL Idealize.SL.Sem
open Idealize.ShloMosaic.Pipeline (Dat)
open Cert.KernelIdeal.Gen Cert.KernelIdeal.HandFrame Cert.KernelIdeal.HandValue
open Cert.PoolSum

variable (m : (ℓ : Loc nD τ sig) → Buf (Elt Ideal) ℓ)

abbrev aS (c : Dev nD) : Vec Ideal S12288x256 .bf16 := V m c main_v81

abbrev aE (c : Dev nD) : Vec Ideal S12288x128 .bf16 := V m c main_v82

abbrev aX (c : Dev nD) : Vec Ideal S12288x256 .bf16 := V m c main_v83

theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem idx_out : ∀ t : Fin cfg0.N, win0_3.index t (0 : Fin 3) = t.val / 6 ∧ win0_3.index t (1 : Fin 3) = 0 ∧ win0_3.index t (2 : Fin 3) = 0
    ∧ win0_4.index t (0 : Fin 3) = t.val / 6 ∧ win0_4.index t (1 : Fin 3) = 0 ∧ win0_4.index t (2 : Fin 3) = 0
    ∧ win0_5.index t (0 : Fin 3) = t.val / 6 ∧ win0_5.index t (1 : Fin 3) = 0 ∧ win0_5.index t (2 : Fin 3) = 0 :=
  (by decide +kernel : ∀ t : Fin grid0.N, _)

theorem xS_apply (c : Dev nD) (h : Fin 2) (k : Fin 6) (r : Fin 1024) (q : Fin 256) :
    xS m c h k (ix2 r q) = aS m c (ix2 (blockRow h k r) q) := by
  show V m c main_v81 (((cfg0.win 0).blk (pt h k)).view.emb (ix2 r q)) = V m c main_v81 (ix2 (blockRow h k r) q)
  refine congrArg _ ?_
  obtain ⟨e0, e1, -⟩ := idx_in (pt h k)
  funext a; apply Fin.ext
  match a with
  | ⟨0, _⟩ =>
    show win0_0.index (pt h k) (0 : Fin 2) * 1024 + 1 * r.val = (h.val * 6 + k.val) * 1024 + r.val
    rw [e0, pt_val]; omega
  | ⟨1, _⟩ =>
    show win0_0.index (pt h k) (1 : Fin 2) * 256 + 1 * q.val = q.val
    rw [e1]; omega

theorem xE_apply (c : Dev nD) (h : Fin 2) (k : Fin 6) (r : Fin 1024) (q : Fin 128) :
    xE m c h k (ix2 r q) = aE m c (ix2 (blockRow h k r) q) := by
  show V m c main_v82 (((cfg0.win 1).blk (pt h k)).view.emb (ix2 r q)) = V m c main_v82 (ix2 (blockRow h k r) q)
  refine congrArg _ ?_
  obtain ⟨-, -, e0, e1, -⟩ := idx_in (pt h k)
  funext a; apply Fin.ext
  match a with
  | ⟨0, _⟩ =>
    show win0_1.index (pt h k) (0 : Fin 2) * 1024 + 1 * r.val = (h.val * 6 + k.val) * 1024 + r.val
    rw [e0, pt_val]; omega
  | ⟨1, _⟩ =>
    show win0_1.index (pt h k) (1 : Fin 2) * 128 + 1 * q.val = q.val
    rw [e1]; omega

theorem xX_apply (c : Dev nD) (h : Fin 2) (k : Fin 6) (r : Fin 1024) (q : Fin 256) :
    xX m c h k (ix2 r q) = aX m c (ix2 (blockRow h k r) q) := by
  show V m c main_v83 (((cfg0.win 2).blk (pt h k)).view.emb (ix2 r q)) = V m c main_v83 (ix2 (blockRow h k r) q)
  refine congrArg _ ?_
  obtain ⟨-, -, -, -, e0, e1⟩ := idx_in (pt h k)
  funext a; apply Fin.ext
  match a with
  | ⟨0, _⟩ =>
    show win0_2.index (pt h k) (0 : Fin 2) * 1024 + 1 * r.val = (h.val * 6 + k.val) * 1024 + r.val
    rw [e0, pt_val]; omega
  | ⟨1, _⟩ =>
    show win0_2.index (pt h k) (1 : Fin 2) * 256 + 1 * q.val = q.val
    rw [e1]; omega

theorem sum_SE (c : Dev nD) (h : Fin 2) (i : Fin 256) (j : Fin 128) :
    ∑ k : Fin 6, ∑ r : Fin 1024, xS m c h k (ix2 r i) * xE m c h k (ix2 r j) = poolOut128 (aS m c) (aE m c) (ix3 h i j) := by
  show _ = ∑ k : Fin 6, ∑ r : Fin 1024, aS m c (ix2 (blockRow h k r) i) * aE m c (ix2 (blockRow h k r) j)
  exact Finset.sum_congr rfl fun k _ => Finset.sum_congr rfl fun r _ =>
    congrArg₂ (· * ·) (xS_apply m c h k r i) (xE_apply m c h k r j)

theorem sum_SX (c : Dev nD) (h : Fin 2) (i : Fin 256) (j : Fin 256) :
    ∑ k : Fin 6, ∑ r : Fin 1024, xS m c h k (ix2 r i) * xX m c h k (ix2 r j) = poolOut256 (aS m c) (aX m c) (ix3 h i j) := by
  show _ = ∑ k : Fin 6, ∑ r : Fin 1024, aS m c (ix2 (blockRow h k r) i) * aX m c (ix2 (blockRow h k r) j)
  exact Finset.sum_congr rfl fun k _ => Finset.sum_congr rfl fun r _ =>
    congrArg₂ (· * ·) (xS_apply m c h k r i) (xX_apply m c h k r j)

theorem sum_SS (c : Dev nD) (h : Fin 2) (i : Fin 256) (j : Fin 256) :
    ∑ k : Fin 6, ∑ r : Fin 1024, xS m c h k (ix2 r i) * xS m c h k (ix2 r j) = poolOut256 (aS m c) (aS m c) (ix3 h i j) := by
  show _ = ∑ k : Fin 6, ∑ r : Fin 1024, aS m c (ix2 (blockRow h k r) i) * aS m c (ix2 (blockRow h k r) j)
  exact Finset.sum_congr rfl fun k _ => Finset.sum_congr rfl fun r _ =>
    congrArg₂ (· * ·) (xS_apply m c h k r i) (xS_apply m c h k r j)

theorem emb3 (h : Fin 2) (k : Fin 6) (a : Fin 1) (i : Fin 256) (j : Fin 128) :
    ((cfg0.win 3).blk (pt h k)).view.emb (ix3 a i j) = ix3 h i j := by
  obtain ⟨e0, e1, e2, -⟩ := idx_out (pt h k)
  have := h.isLt; have := k.isLt; have := a.isLt
  funext ax; apply Fin.ext
  match ax with
  | ⟨0, _⟩ =>
    show win0_3.index (pt h k) (0 : Fin 3) * 1 + 1 * a.val = h.val
    rw [e0, pt_val]; omega
  | ⟨1, _⟩ =>
    show win0_3.index (pt h k) (1 : Fin 3) * 256 + 1 * i.val = i.val
    rw [e1]; omega
  | ⟨2, _⟩ =>
    show win0_3.index (pt h k) (2 : Fin 3) * 128 + 1 * j.val = j.val
    rw [e2]; omega

theorem cover3 (i : S2x256x128.Idx) :
    ∃ t : Fin cfg0.N, (cfg0.win 3).flush t = true ∧ i ∈ ((cfg0.win 3).blk t).view.set := by
  obtain ⟨h, p, q, rfl⟩ : ∃ (h : Fin 2) (p : Fin 256) (q : Fin 128), i = ix3 h p q := ⟨_, _, _, eq_ix3 i⟩
  refine ⟨pt h 5, (flush0_3 _).mpr (by rw [pt_val]; have := h.isLt; omega), ?_⟩
  have hm := ((cfg0.win 3).blk (pt h 5)).view.emb_mem_set (ix3 (0 : Fin 1) p q)
  rw [emb3] at hm
  exact hm

theorem flushed3_eq (c : Dev nD)
    (hl3 : ∀ (h : Fin 2) (i : Fin 256) (j : Fin 128), (outsAt0 m c (pt h 5).val (pt h 5).isLt).1 (ix3 (0 : Fin 1) i j)
      = ∑ k : Fin 6, ∑ r : Fin 1024, xS m c h k (ix2 r i) * xE m c h k (ix2 r j))
    (t : Fin cfg0.N) (hf : (cfg0.win 3).flush t = true) :
    (dats m 0 c).flushed 3 t = ((cfg0.win 3).blk t).view.read (Elt Ideal) (poolOut128 (aS m c) (aE m c)) := by
  have h5 : t.val % 6 = 5 := (flush0_3 t).mp hf
  have hN : t.val < 12 := lt_of_lt_of_eq t.isLt (show cfg0.N = 12 from N_0)
  obtain ⟨h, rfl⟩ : ∃ h : Fin 2, t = pt h 5 := ⟨⟨t.val / 6, by omega⟩, Fin.ext (by rw [pt_val]; show t.val = 6 * (t.val / 6) + 5; omega)⟩
  show (cfg0.win 3).cut (grid0.coords (pt h 5)) ((dats m 0 c).after 3 (pt h 5)) = _
  rw [after0_3]
  funext y
  obtain ⟨a, i, j, rfl⟩ : ∃ (a : Fin 1) (i : Fin 256) (j : Fin 128), y = ix3 a i j := ⟨_, _, _, eq_ix3 y⟩
  obtain rfl : a = 0 := Subsingleton.elim _ _
  rw [View.read_apply, emb3]
  exact (hl3 h i j).trans (sum_SE m c h i j)

theorem final3 (c : Dev nD)
    (hl3 : ∀ (h : Fin 2) (i : Fin 256) (j : Fin 128), (outsAt0 m c (pt h 5).val (pt h 5).isLt).1 (ix3 (0 : Fin 1) i j)
      = ∑ k : Fin 6, ∑ r : Fin 1024, xS m c h k (ix2 r i) * xE m c h k (ix2 r j)) :
    (dats m 0 c).arrAt 3 cfg0.N = poolOut128 (aS m c) (aE m c) :=
  (dats m 0 c).arrAt_eq_of_cover 3 (poolOut128 (aS m c) (aE m c)) (flushed3_eq m c hl3) cover3

theorem emb4 (h : Fin 2) (k : Fin 6) (a : Fin 1) (i : Fin 256) (j : Fin 256) :
    ((cfg0.win 4).blk (pt h k)).view.emb (ix3 a i j) = ix3 h i j := by
  obtain ⟨-, -, -, e0, e1, e2, -⟩ := idx_out (pt h k)
  have := h.isLt; have := k.isLt; have := a.isLt
  funext ax; apply Fin.ext
  match ax with
  | ⟨0, _⟩ =>
    show win0_4.index (pt h k) (0 : Fin 3) * 1 + 1 * a.val = h.val
    rw [e0, pt_val]; omega
  | ⟨1, _⟩ =>
    show win0_4.index (pt h k) (1 : Fin 3) * 256 + 1 * i.val = i.val
    rw [e1]; omega
  | ⟨2, _⟩ =>
    show win0_4.index (pt h k) (2 : Fin 3) * 256 + 1 * j.val = j.val
    rw [e2]; omega

theorem cover4 (i : S2x256x256.Idx) :
    ∃ t : Fin cfg0.N, (cfg0.win 4).flush t = true ∧ i ∈ ((cfg0.win 4).blk t).view.set := by
  obtain ⟨h, p, q, rfl⟩ : ∃ (h : Fin 2) (p : Fin 256) (q : Fin 256), i = ix3 h p q := ⟨_, _, _, eq_ix3 i⟩
  refine ⟨pt h 5, (flush0_4 _).mpr (by rw [pt_val]; have := h.isLt; omega), ?_⟩
  have hm := ((cfg0.win 4).blk (pt h 5)).view.emb_mem_set (ix3 (0 : Fin 1) p q)
  rw [emb4] at hm
  exact hm

theorem flushed4_eq (c : Dev nD)
    (hl4 : ∀ (h : Fin 2) (i : Fin 256) (j : Fin 256), (outsAt0 m c (pt h 5).val (pt h 5).isLt).2.1 (ix3 (0 : Fin 1) i j)
      = ∑ k : Fin 6, ∑ r : Fin 1024, xS m c h k (ix2 r i) * xX m c h k (ix2 r j))
    (t : Fin cfg0.N) (hf : (cfg0.win 4).flush t = true) :
    (dats m 0 c).flushed 4 t = ((cfg0.win 4).blk t).view.read (Elt Ideal) (poolOut256 (aS m c) (aX m c)) := by
  have h5 : t.val % 6 = 5 := (flush0_4 t).mp hf
  have hN : t.val < 12 := lt_of_lt_of_eq t.isLt (show cfg0.N = 12 from N_0)
  obtain ⟨h, rfl⟩ : ∃ h : Fin 2, t = pt h 5 := ⟨⟨t.val / 6, by omega⟩, Fin.ext (by rw [pt_val]; show t.val = 6 * (t.val / 6) + 5; omega)⟩
  show (cfg0.win 4).cut (grid0.coords (pt h 5)) ((dats m 0 c).after 4 (pt h 5)) = _
  rw [after0_4]
  funext y
  obtain ⟨a, i, j, rfl⟩ : ∃ (a : Fin 1) (i : Fin 256) (j : Fin 256), y = ix3 a i j := ⟨_, _, _, eq_ix3 y⟩
  obtain rfl : a = 0 := Subsingleton.elim _ _
  rw [View.read_apply, emb4]
  exact (hl4 h i j).trans (sum_SX m c h i j)

theorem final4 (c : Dev nD)
    (hl4 : ∀ (h : Fin 2) (i : Fin 256) (j : Fin 256), (outsAt0 m c (pt h 5).val (pt h 5).isLt).2.1 (ix3 (0 : Fin 1) i j)
      = ∑ k : Fin 6, ∑ r : Fin 1024, xS m c h k (ix2 r i) * xX m c h k (ix2 r j)) :
    (dats m 0 c).arrAt 4 cfg0.N = poolOut256 (aS m c) (aX m c) :=
  (dats m 0 c).arrAt_eq_of_cover 4 (poolOut256 (aS m c) (aX m c)) (flushed4_eq m c hl4) cover4

theorem emb5 (h : Fin 2) (k : Fin 6) (a : Fin 1) (i : Fin 256) (j : Fin 256) :
    ((cfg0.win 5).blk (pt h k)).view.emb (ix3 a i j) = ix3 h i j := by
  obtain ⟨-, -, -, -, -, -, e0, e1, e2⟩ := idx_out (pt h k)
  have := h.isLt; have := k.isLt; have := a.isLt
  funext ax; apply Fin.ext
  match ax with
  | ⟨0, _⟩ =>
    show win0_5.index (pt h k) (0 : Fin 3) * 1 + 1 * a.val = h.val
    rw [e0, pt_val]; omega
  | ⟨1, _⟩ =>
    show win0_5.index (pt h k) (1 : Fin 3) * 256 + 1 * i.val = i.val
    rw [e1]; omega
  | ⟨2, _⟩ =>
    show win0_5.index (pt h k) (2 : Fin 3) * 256 + 1 * j.val = j.val
    rw [e2]; omega

theorem cover5 (i : S2x256x256.Idx) :
    ∃ t : Fin cfg0.N, (cfg0.win 5).flush t = true ∧ i ∈ ((cfg0.win 5).blk t).view.set := by
  obtain ⟨h, p, q, rfl⟩ : ∃ (h : Fin 2) (p : Fin 256) (q : Fin 256), i = ix3 h p q := ⟨_, _, _, eq_ix3 i⟩
  refine ⟨pt h 5, (flush0_5 _).mpr (by rw [pt_val]; have := h.isLt; omega), ?_⟩
  have hm := ((cfg0.win 5).blk (pt h 5)).view.emb_mem_set (ix3 (0 : Fin 1) p q)
  rw [emb5] at hm
  exact hm

theorem flushed5_eq (c : Dev nD)
    (hl5 : ∀ (h : Fin 2) (i : Fin 256) (j : Fin 256), (outsAt0 m c (pt h 5).val (pt h 5).isLt).2.2 (ix3 (0 : Fin 1) i j)
      = ∑ k : Fin 6, ∑ r : Fin 1024, xS m c h k (ix2 r i) * xS m c h k (ix2 r j))
    (t : Fin cfg0.N) (hf : (cfg0.win 5).flush t = true) :
    (dats m 0 c).flushed 5 t = ((cfg0.win 5).blk t).view.read (Elt Ideal) (poolOut256 (aS m c) (aS m c)) := by
  have h5 : t.val % 6 = 5 := (flush0_5 t).mp hf
  have hN : t.val < 12 := lt_of_lt_of_eq t.isLt (show cfg0.N = 12 from N_0)
  obtain ⟨h, rfl⟩ : ∃ h : Fin 2, t = pt h 5 := ⟨⟨t.val / 6, by omega⟩, Fin.ext (by rw [pt_val]; show t.val = 6 * (t.val / 6) + 5; omega)⟩
  show (cfg0.win 5).cut (grid0.coords (pt h 5)) ((dats m 0 c).after 5 (pt h 5)) = _
  rw [after0_5]
  funext y
  obtain ⟨a, i, j, rfl⟩ : ∃ (a : Fin 1) (i : Fin 256) (j : Fin 256), y = ix3 a i j := ⟨_, _, _, eq_ix3 y⟩
  obtain rfl : a = 0 := Subsingleton.elim _ _
  rw [View.read_apply, emb5]
  exact (hl5 h i j).trans (sum_SS m c h i j)

theorem final5 (c : Dev nD)
    (hl5 : ∀ (h : Fin 2) (i : Fin 256) (j : Fin 256), (outsAt0 m c (pt h 5).val (pt h 5).isLt).2.2 (ix3 (0 : Fin 1) i j)
      = ∑ k : Fin 6, ∑ r : Fin 1024, xS m c h k (ix2 r i) * xS m c h k (ix2 r j)) :
    (dats m 0 c).arrAt 5 cfg0.N = poolOut256 (aS m c) (aS m c) :=
  (dats m 0 c).arrAt_eq_of_cover 5 (poolOut256 (aS m c) (aS m c)) (flushed5_eq m c hl5) cover5

end Cert.KernelIdeal.HandArr

end
-- ==== Proof.KIValue.lean ====
import proofs.«118921_j70214125355087_2_alg».proof.Proof.KIPts
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Tactic

noncomputable section

open scoped BigOperators

namespace Cert.KernelIdeal.HandValue

open Idealize.ShloMosaic Idealize.ShloMosaic.TcCoe Idealize.ShloMosaic.ValueIdx
open Idealize.SL Idealize.SL.Sem
open Cert.KernelIdeal Cert.KernelIdeal.Gen Cert.KernelIdeal.HandFrame

theorem hz3 : (![0, 0, 0] : Fin 3 → Nat) = fun _ => 0 := funext fun a => by fin_cases a <;> rfl
theorem hz2 : (![0, 0] : Fin 2 → Nat) = fun _ => 0 := funext fun a => by fin_cases a <;> rfl

theorem lhsIdx_non {sl sr so : Shape} (d : DotDims sl sr so) (hb : d.lhsBatch = []) (a : Fin sl.rank) (hn : d.lhsNonContracting = [a])
    (j : so.Idx) (k : d.contr.Idx) (h0 : 0 < so.rank) : (d.lhsIdx j k a).val = (j ⟨0, h0⟩).val := by
  have hnb : a ∉ d.lhsBatch := by rw [hb]; exact List.not_mem_nil
  have hmn : a ∈ d.lhsNonContracting := by rw [hn]; exact List.mem_singleton_self a
  unfold DotDims.lhsIdx
  rw [dif_neg hnb, dif_pos hmn]
  have key : ∀ (p q : Nat) (hp : p < so.rank) (hq : q < so.rank), p = q → (j ⟨p, hp⟩).val = (j ⟨q, hq⟩).val :=
    fun p q hp hq h => by subst h; rfl
  exact key _ _ _ _ (by simp [hb, hn])

theorem rhsIdx_non {sl sr so : Shape} (d : DotDims sl sr so) (hlb : d.lhsBatch = []) (hb : d.rhsBatch = []) (al : Fin sl.rank) (hln : d.lhsNonContracting = [al])
    (a : Fin sr.rank) (hn : d.rhsNonContracting = [a])
    (j : so.Idx) (k : d.contr.Idx) (h1 : 1 < so.rank) : (d.rhsIdx j k a).val = (j ⟨1, h1⟩).val := by
  have hnb : a ∉ d.rhsBatch := by rw [hb]; exact List.not_mem_nil
  have hmn : a ∈ d.rhsNonContracting := by rw [hn]; exact List.mem_singleton_self a
  unfold DotDims.rhsIdx
  rw [dif_neg hnb, dif_pos hmn]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

abbrev d128 := dot_S1024x256_S1024x128_S256x128_0_0_1_1_n_n
abbrev d256 := dot_S1024x256_S1024x256_S256x256_0_0_1_1_n_n

theorem d128_rank : d128.contr.rank = 1 := by decide
theorem d128_size : d128.contr.size ⟨0, by rw [d128_rank]; omega⟩ = 1024 := by decide
theorem d256_rank : d256.contr.rank = 1 := by decide
theorem d256_size : d256.contr.size ⟨0, by rw [d256_rank]; omega⟩ = 1024 := by decide

abbrev e128 : d128.contr.Idx ≃ Fin 1024 := contrEquiv1 d128 1024 d128_rank d128_size
abbrev e256 : d256.contr.Idx ≃ Fin 1024 := contrEquiv1 d256 1024 d256_rank d256_size

theorem lhs128 (i : Fin 256) (j : Fin 128) (r : Fin 1024) : d128.lhsIdx (ix2 i j) (e128.symm r) = ix2 r i := by
  funext a
  apply Fin.ext
  match a with
  | ⟨0, _⟩ => exact (d128.lhsIdx_val_of_single (cl := (0 : Fin 2)) rfl _ _).trans (contrEquiv1_symm_val d128 1024 d128_rank d128_size r)
  | ⟨1, _⟩ => exact lhsIdx_non d128 rfl (1 : Fin 2) rfl _ _ (by decide)

theorem rhs128 (i : Fin 256) (j : Fin 128) (r : Fin 1024) : d128.rhsIdx (ix2 i j) (e128.symm r) = ix2 r j := by
  funext a
  apply Fin.ext
  match a with
  | ⟨0, _⟩ => exact (d128.rhsIdx_val_of_single (cr := (0 : Fin 2)) rfl _ _).trans (contrEquiv1_symm_val d128 1024 d128_rank d128_size r)
  | ⟨1, _⟩ => exact rhsIdx_non d128 rfl rfl (1 : Fin 2) rfl (1 : Fin 2) rfl _ _ (by decide)

theorem lhs256 (i : Fin 256) (j : Fin 256) (r : Fin 1024) : d256.lhsIdx (ix2 i j) (e256.symm r) = ix2 r i := by
  funext a
  apply Fin.ext
  match a with
  | ⟨0, _⟩ => exact (d256.lhsIdx_val_of_single (cl := (0 : Fin 2)) rfl _ _).trans (contrEquiv1_symm_val d256 1024 d256_rank d256_size r)
  | ⟨1, _⟩ => exact lhsIdx_non d256 rfl (1 : Fin 2) rfl _ _ (by decide)

theorem rhs256 (i : Fin 256) (j : Fin 256) (r : Fin 1024) : d256.rhsIdx (ix2 i j) (e256.symm r) = ix2 r j := by
  funext a
  apply Fin.ext
  match a with
  | ⟨0, _⟩ => exact (d256.rhsIdx_val_of_single (cr := (0 : Fin 2)) rfl _ _).trans (contrEquiv1_symm_val d256 1024 d256_rank d256_size r)
  | ⟨1, _⟩ => exact rhsIdx_non d256 rfl rfl (1 : Fin 2) rfl (1 : Fin 2) rfl _ _ (by decide)

theorem mm128_zero (a : FVec Ideal S1024x256 .bf16) (b : FVec Ideal S1024x128 .bf16) (i : Fin 256) (j : Fin 128) :
    matmul d128 none a b (constant S256x128 .f32 0x00000000#32) (ix2 i j) = ∑ r : Fin 1024, a (ix2 r i) * b (ix2 r j) := by
  refine (Ideal.matmul_constant_zero_apply d128 none a b (ix2 i j)).trans ?_
  refine (Equiv.sum_comp e128.symm _).symm.trans ?_
  exact Finset.sum_congr rfl fun r _ => by rw [lhs128, rhs128]

theorem mm256_zero (a : FVec Ideal S1024x256 .bf16) (b : FVec Ideal S1024x256 .bf16) (i : Fin 256) (j : Fin 256) :
    matmul d256 none a b (constant S256x256 .f32 0x00000000#32) (ix2 i j) = ∑ r : Fin 1024, a (ix2 r i) * b (ix2 r j) := by
  refine (Ideal.matmul_constant_zero_apply d256 none a b (ix2 i j)).trans ?_
  refine (Equiv.sum_comp e256.symm _).symm.trans ?_
  exact Finset.sum_congr rfl fun r _ => by rw [lhs256, rhs256]

theorem pay6_apply (x3 : Vec Ideal S1024x256 .bf16) (x5 : Vec Ideal S1024x128 .bf16) (p : Vec Ideal S1x256x128 .f32) (i : Fin 256) (j : Fin 128) :
    k0_pay6 (F := Ideal) x3 x5 p (ix3 (0 : Fin 1) i j) = p (ix3 (0 : Fin 1) i j) + ∑ r : Fin 1024, x3 (ix2 r i) * x5 (ix2 r j) := by
  unfold k0_pay6 k0_pay5
  refine (shapeCast_ab_1ab_apply _ _ (0 : Fin 1) i j).trans ?_
  refine congrArg₂ (· + ·) (shapeCast_1ab_ab_apply p _ i j) ?_
  refine (mm128_zero _ _ i j).trans ?_
  exact Finset.sum_congr rfl fun r _ => congrArg₂ (· * ·) (congrFun (shapeCast_self x3 _) _) (congrFun (shapeCast_self x5 _) _)

theorem pay7_apply (x3 : Vec Ideal S1024x256 .bf16) (x7 : Vec Ideal S1024x256 .bf16) (p : Vec Ideal S1x256x256 .f32) (i : Fin 256) (j : Fin 256) :
    k0_pay7 (F := Ideal) x3 x7 p (ix3 (0 : Fin 1) i j) = p (ix3 (0 : Fin 1) i j) + ∑ r : Fin 1024, x3 (ix2 r i) * x7 (ix2 r j) := by
  unfold k0_pay7 k0_pay5
  refine (shapeCast_ab_1ab_apply _ _ (0 : Fin 1) i j).trans ?_
  refine congrArg₂ (· + ·) (shapeCast_1ab_ab_apply p _ i j) ?_
  refine (mm256_zero _ _ i j).trans ?_
  exact Finset.sum_congr rfl fun r _ => congrArg₂ (· * ·) (congrFun (shapeCast_self x3 _) _) (congrFun (shapeCast_self x7 _) _)

theorem pay18_apply (x3 : Vec Ideal S1024x256 .bf16) (p : Vec Ideal S1x256x256 .f32) (i : Fin 256) (j : Fin 256) :
    k0_pay1 (F := Ideal) (k0_pay8 x3 p) (ix3 (0 : Fin 1) i j) = p (ix3 (0 : Fin 1) i j) + ∑ r : Fin 1024, x3 (ix2 r i) * x3 (ix2 r j) := by
  unfold k0_pay1 k0_pay8 k0_pay5
  refine (shapeCast_ab_1ab_apply _ _ (0 : Fin 1) i j).trans ?_
  refine congrArg₂ (· + ·) (shapeCast_1ab_ab_apply p _ i j) ?_
  refine (mm256_zero _ _ i j).trans ?_
  exact Finset.sum_congr rfl fun r _ => congrArg₂ (· * ·) (congrFun (shapeCast_self x3 _) _) (congrFun (shapeCast_self x3 _) _)

theorem pay2_apply (i : Fin 256) (j : Fin 128) : k0_pay2 (F := Ideal) (ix3 (0 : Fin 1) i j) = 0 := by
  unfold k0_pay2
  exact (shapeCast_ab_1ab_apply _ _ (0 : Fin 1) i j).trans Ideal.ofBits_zero_f32
theorem pay3_apply (i : Fin 256) (j : Fin 256) : k0_pay3 (F := Ideal) (ix3 (0 : Fin 1) i j) = 0 := by
  unfold k0_pay3
  exact (shapeCast_ab_1ab_apply _ _ (0 : Fin 1) i j).trans Ideal.ofBits_zero_f32
theorem pay4_apply (i : Fin 256) (j : Fin 256) : k0_pay4 (F := Ideal) (ix3 (0 : Fin 1) i j) = 0 := by
  unfold k0_pay4
  exact (shapeCast_ab_1ab_apply _ _ (0 : Fin 1) i j).trans Ideal.ofBits_zero_f32

section Pieces
open Idealize.ShloMosaic.Tactic
variable {F : FTy → Type} [FloatOps F]

variable (c : Dev nD) (i : grid0.Coords) (arg2 : Memref sig .tc .vmem S1024x256 .bf16) (harg2 : arg2.IsWhole) (arg3 : Memref sig .tc .vmem S1024x128 .bf16) (harg3 : arg3.IsWhole) (arg4 : Memref sig .tc .vmem S1024x256 .bf16) (harg4 : arg4.IsWhole) (arg5 : Memref sig .tc .vmem S1x256x128 .f32) (harg5 : arg5.IsWhole) (arg6 : Memref sig .tc .vmem S1x256x256 .f32) (harg6 : arg6.IsWhole) (arg7 : Memref sig .tc .vmem S1x256x256 .f32) (harg7 : arg7.IsWhole)

section
variable (hc0 : cond0_0 i) (x0 : Vec F S1024x256 .bf16) (x1 : Vec F S1024x128 .bf16) (x2 : Vec F S1024x256 .bf16)

theorem out_A_3 :
    out0_A_3 c i arg2 harg2 arg3 harg3 arg4 harg4 arg5 harg5 arg6 harg6 arg7 harg7 hc0 x0 x1 x2 = k0_pay6 x0 x1 k0_pay2 := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x256x128) hz3, View.readCov_unit_zero (S := S1x256x128) _ hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

theorem out_A_4 :
    out0_A_4 c i arg2 harg2 arg3 harg3 arg4 harg4 arg5 harg5 arg6 harg6 arg7 harg7 hc0 x0 x1 x2 = k0_pay7 x0 x2 k0_pay3 := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

theorem out_A_5 :
    out0_A_5 c i arg2 harg2 arg3 harg3 arg4 harg4 arg5 harg5 arg6 harg6 arg7 harg7 hc0 x0 x1 x2 = k0_pay1 (k0_pay8 x0 k0_pay4) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x256x256) hz3, View.readCov_unit_zero (S := S1x256x256) _ hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

end

section
variable (hc0 : ¬cond0_0 i) (x0 : Vec F S1024x256 .bf16) (x1 : Vec F S1024x128 .bf16) (x2 : Vec F S1024x256 .bf16) (xo3 : Vec F S1x256x128 .f32) (xo4 : Vec F S1x256x256 .f32) (xo5 : Vec F S1x256x256 .f32)

theorem out_B_3 :
    out0_B_3 c i arg2 harg2 arg3 harg3 arg4 harg4 arg5 harg5 arg6 harg6 arg7 harg7 hc0 x0 x1 x2 xo3 xo4 xo5 = k0_pay6 x0 x1 xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

theorem out_B_4 :
    out0_B_4 c i arg2 harg2 arg3 harg3 arg4 harg4 arg5 harg5 arg6 harg6 arg7 harg7 hc0 x0 x1 x2 xo3 xo4 xo5 = k0_pay7 x0 x2 xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

theorem out_B_5 :
    out0_B_5 c i arg2 harg2 arg3 harg3 arg4 harg4 arg5 harg5 arg6 harg6 arg7 harg7 hc0 x0 x1 x2 xo3 xo4 xo5 = k0_pay1 (k0_pay8 x0 xo5) := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread, View.ld_unit_zero (S := S1024x256) hz2, View.ld_unit_zero (S := S1024x128) hz2, View.ld_unit_zero (S := S1x256x128) hz3, View.ld_unit_zero (S := S1x256x256) hz3]

end

end Pieces

variable (m : (ℓ : Loc nD τ sig) → Buf (Elt Ideal) ℓ)

theorem outsAt0_congr (c : Dev nD) (n n' : ℕ) (hn : n < cfg0.N) (hn' : n' < cfg0.N) (e : n = n') :
    outsAt0 m c n hn = outsAt0 m c n' hn' := by subst e; rfl

def acc3 (c : Dev nD) (h : Fin 2) : (k : ℕ) → k < 6 → Fin 256 → Fin 128 → EReal
  | 0, hk => fun i j => 0 + ∑ r : Fin 1024, xS m c h ⟨0, hk⟩ (ix2 r i) * xE m c h ⟨0, hk⟩ (ix2 r j)
  | k + 1, hk => fun i j => acc3 c h k (Nat.lt_of_succ_lt hk) i j
      + ∑ r : Fin 1024, xS m c h ⟨k + 1, hk⟩ (ix2 r i) * xE m c h ⟨k + 1, hk⟩ (ix2 r j)

def acc4 (c : Dev nD) (h : Fin 2) : (k : ℕ) → k < 6 → Fin 256 → Fin 256 → EReal
  | 0, hk => fun i j => 0 + ∑ r : Fin 1024, xS m c h ⟨0, hk⟩ (ix2 r i) * xX m c h ⟨0, hk⟩ (ix2 r j)
  | k + 1, hk => fun i j => acc4 c h k (Nat.lt_of_succ_lt hk) i j
      + ∑ r : Fin 1024, xS m c h ⟨k + 1, hk⟩ (ix2 r i) * xX m c h ⟨k + 1, hk⟩ (ix2 r j)

def acc5 (c : Dev nD) (h : Fin 2) : (k : ℕ) → k < 6 → Fin 256 → Fin 256 → EReal
  | 0, hk => fun i j => 0 + ∑ r : Fin 1024, xS m c h ⟨0, hk⟩ (ix2 r i) * xS m c h ⟨0, hk⟩ (ix2 r j)
  | k + 1, hk => fun i j => acc5 c h k (Nat.lt_of_succ_lt hk) i j
      + ∑ r : Fin 1024, xS m c h ⟨k + 1, hk⟩ (ix2 r i) * xS m c h ⟨k + 1, hk⟩ (ix2 r j)

theorem outs_eq (c : Dev nD) (h : Fin 2) : ∀ (k : ℕ) (hk : k < 6),
    (∀ (i : Fin 256) (j : Fin 128), (outsAt0 m c (pt h ⟨k, hk⟩).val (pt h ⟨k, hk⟩).isLt).1 (ix3 (0 : Fin 1) i j) = acc3 m c h k hk i j)
    ∧ (∀ (i : Fin 256) (j : Fin 256), (outsAt0 m c (pt h ⟨k, hk⟩).val (pt h ⟨k, hk⟩).isLt).2.1 (ix3 (0 : Fin 1) i j) = acc4 m c h k hk i j)
    ∧ (∀ (i : Fin 256) (j : Fin 256), (outsAt0 m c (pt h ⟨k, hk⟩).val (pt h ⟨k, hk⟩).isLt).2.2 (ix3 (0 : Fin 1) i j) = acc5 m c h k hk i j)
  | 0, hk => by
    have h0 : (pt h ⟨0, hk⟩).val % 6 = 0 := by show (6 * h.val + 0) % 6 = 0; omega
    rw [outsAt0_A m c (pt h ⟨0, hk⟩) h0]
    dsimp only
    refine ⟨fun i j => ?_, fun i j => ?_, fun i j => ?_⟩
    · rw [out_A_3]
      refine (pay6_apply _ _ _ i j).trans ?_
      rw [pay2_apply]; rfl
    · rw [out_A_4]
      refine (pay7_apply _ _ _ i j).trans ?_
      rw [pay3_apply]; rfl
    · rw [out_A_5]
      refine (pay18_apply _ _ i j).trans ?_
      rw [pay4_apply]; rfl
  | k + 1, hk => by
    have h0 : ¬(pt h ⟨k + 1, hk⟩).val % 6 = 0 := by show ¬(6 * h.val + (k + 1)) % 6 = 0; omega
    obtain ⟨ih3, ih4, ih5⟩ := outs_eq c h k (Nat.lt_of_succ_lt hk)
    have hp : (pt h ⟨k + 1, hk⟩).val - 1 = (pt h ⟨k, Nat.lt_of_succ_lt hk⟩).val := by
      rw [pt_val, pt_val]; show 6 * h.val + (k + 1) - 1 = 6 * h.val + k; omega
    rw [outsAt0_B m c (pt h ⟨k + 1, hk⟩) h0]
    dsimp only
    rw [outsAt0_congr m c _ _ _ (pt h ⟨k, Nat.lt_of_succ_lt hk⟩).isLt hp]
    refine ⟨fun i j => ?_, fun i j => ?_, fun i j => ?_⟩
    · rw [out_B_3]
      refine (pay6_apply _ _ _ i j).trans ?_
      rw [ih3]; rfl
    · rw [out_B_4]
      refine (pay7_apply _ _ _ i j).trans ?_
      rw [ih4]; rfl
    · rw [out_B_5]
      refine (pay18_apply _ _ i j).trans ?_
      rw [ih5]; rfl

theorem acc3_last (c : Dev nD) (h : Fin 2) (i : Fin 256) (j : Fin 128) :
    acc3 m c h 5 (by omega) i j = ∑ k : Fin 6, ∑ r : Fin 1024, xS m c h k (ix2 r i) * xE m c h k (ix2 r j) := by
  simp only [acc3]
  rw [Fin.sum_univ_six, zero_add]
  rfl
theorem acc4_last (c : Dev nD) (h : Fin 2) (i : Fin 256) (j : Fin 256) :
    acc4 m c h 5 (by omega) i j = ∑ k : Fin 6, ∑ r : Fin 1024, xS m c h k (ix2 r i) * xX m c h k (ix2 r j) := by
  simp only [acc4]
  rw [Fin.sum_univ_six, zero_add]
  rfl
theorem acc5_last (c : Dev nD) (h : Fin 2) (i : Fin 256) (j : Fin 256) :
    acc5 m c h 5 (by omega) i j = ∑ k : Fin 6, ∑ r : Fin 1024, xS m c h k (ix2 r i) * xS m c h k (ix2 r j) := by
  simp only [acc5]
  rw [Fin.sum_univ_six, zero_add]
  rfl

theorem last3 (c : Dev nD) (h : Fin 2) (i : Fin 256) (j : Fin 128) :
    (outsAt0 m c (pt h 5).val (pt h 5).isLt).1 (ix3 (0 : Fin 1) i j)
      = ∑ k : Fin 6, ∑ r : Fin 1024, xS m c h k (ix2 r i) * xE m c h k (ix2 r j) :=
  ((outs_eq m c h 5 (by omega)).1 i j).trans (acc3_last m c h i j)

theorem last4 (c : Dev nD) (h : Fin 2) (i : Fin 256) (j : Fin 256) :
    (outsAt0 m c (pt h 5).val (pt h 5).isLt).2.1 (ix3 (0 : Fin 1) i j)
      = ∑ k : Fin 6, ∑ r : Fin 1024, xS m c h k (ix2 r i) * xX m c h k (ix2 r j) :=
  ((outs_eq m c h 5 (by omega)).2.1 i j).trans (acc4_last m c h i j)

theorem last5 (c : Dev nD) (h : Fin 2) (i : Fin 256) (j : Fin 256) :
    (outsAt0 m c (pt h 5).val (pt h 5).isLt).2.2 (ix3 (0 : Fin 1) i j)
      = ∑ k : Fin 6, ∑ r : Fin 1024, xS m c h k (ix2 r i) * xS m c h k (ix2 r j) :=
  ((outs_eq m c h 5 (by omega)).2.2 i j).trans (acc5_last m c h i j)

end Cert.KernelIdeal.HandValue

end
-- ==== Proof.KVals.lean ====
import proofs.«118921_j70214125355087_2_alg».proof.Proof.Spec
import proofs.«118921_j70214125355087_2_alg».proof.Proof.Gen.KernelIdeal.Launch
import Idealize.ShloMosaic.Lib.StableHlo.Run
import Idealize.ShloMosaic.Lib.Pipeline.Frame

noncomputable section

namespace Cert.KVals

open Cert.KernelIdeal Cert.KernelIdeal.Gen Cert.KernelIdeal.Facts₀ Cert.KernelIdeal.Facts
open Idealize.ShloMosaic Idealize.ShloMosaic.TcCoe Idealize.SL.Sem Idealize.ShloMosaic.StableHlo

variable {F : FTy → Type} [FloatOps F] [Cert.KernelIdeal.Facts]

theorem writes_sub_of {op : HloOp τ sig (Elt F)} {y : Ref sig .tc} {W : List (Ref sig .tc)}
    (h : op.writes = {Proc.devRef .tc y}) (hy : y ∈ W) : op.writes ⊆ (W.map (Proc.devRef (τ := τ) .tc)).toFinset := by
  rw [h, Finset.singleton_subset_iff, List.mem_toFinset]; exact List.mem_map_of_mem hy

abbrev W0 : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_v29, main_v30, main_v31]
set_option maxRecDepth 8192 in
theorem writes0 : (hostOps0 : List (HloOp τ sig (Elt F))).Forall fun op => op.writes ⊆ (W0.map (Proc.devRef (τ := τ) .tc)).toFinset :=
  ⟨writes_sub_of (unary_writes ..) (by decide), writes_sub_of (reshape_writes ..) (by decide), writes_sub_of (unary_writes ..) (by decide), writes_sub_of (reshape_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (unary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (unary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (binary_writes ..) (by decide), writes_sub_of (binary_writes ..) (by decide), writes_sub_of (binary_writes ..) (by decide), writes_sub_of (unary_writes ..) (by decide), writes_sub_of (unary_writes ..) (by decide), writes_sub_of (binary_writes ..) (by decide), writes_sub_of (unary_writes ..) (by decide), writes_sub_of (unary_writes ..) (by decide)⟩

theorem keep0 (V : Valuation τ sig (Elt F)) (r : Ref sig .tc) (h : r ∉ W0) :
    after hostOps0 V (Proc.devRef .tc r) = V (Proc.devRef .tc r) := after_of_writes_sub hostOps0 V writes0 h

abbrev W0_1 : List (Ref sig .tc) := [main_call0_v0, main_call0_cst, main_call0_v1, main_call0_v2, main_v32]
set_option maxRecDepth 8192 in
theorem writes0_1 : (hostOps0_1 : List (HloOp τ sig (Elt F))).Forall fun op => op.writes ⊆ (W0_1.map (Proc.devRef (τ := τ) .tc)).toFinset :=
  ⟨writes_sub_of (binary_writes ..) (by decide), writes_sub_of (nullary_writes ..) (by decide), writes_sub_of (binary_writes ..) (by decide), writes_sub_of (unary_writes ..) (by decide), writes_sub_of (unary_writes ..) (by decide)⟩

theorem keep0_1 (V : Valuation τ sig (Elt F)) (r : Ref sig .tc) (h : r ∉ W0_1) :
    after hostOps0_1 V (Proc.devRef .tc r) = V (Proc.devRef .tc r) := after_of_writes_sub hostOps0_1 V writes0_1 h

abbrev W0_2 : List (Ref sig .tc) := [main_cst_4, main_v33, main_v34, main_v35, main_v36]
set_option maxRecDepth 8192 in
theorem writes0_2 : (hostOps0_2 : List (HloOp τ sig (Elt F))).Forall fun op => op.writes ⊆ (W0_2.map (Proc.devRef (τ := τ) .tc)).toFinset :=
  ⟨writes_sub_of (nullary_writes ..) (by decide), writes_sub_of (unary_writes ..) (by decide), writes_sub_of (binary_writes ..) (by decide), writes_sub_of (unary_writes ..) (by decide), writes_sub_of (binary_writes ..) (by decide)⟩

theorem keep0_2 (V : Valuation τ sig (Elt F)) (r : Ref sig .tc) (h : r ∉ W0_2) :
    after hostOps0_2 V (Proc.devRef .tc r) = V (Proc.devRef .tc r) := after_of_writes_sub hostOps0_2 V writes0_2 h

abbrev W0_3 : List (Ref sig .tc) := [main_call1_v0, main_call1_cst, main_call1_v1, main_call1_v2, main_v37]
set_option maxRecDepth 8192 in
theorem writes0_3 : (hostOps0_3 : List (HloOp τ sig (Elt F))).Forall fun op => op.writes ⊆ (W0_3.map (Proc.devRef (τ := τ) .tc)).toFinset :=
  ⟨writes_sub_of (binary_writes ..) (by decide), writes_sub_of (nullary_writes ..) (by decide), writes_sub_of (binary_writes ..) (by decide), writes_sub_of (unary_writes ..) (by decide), writes_sub_of (unary_writes ..) (by decide)⟩

theorem keep0_3 (V : Valuation τ sig (Elt F)) (r : Ref sig .tc) (h : r ∉ W0_3) :
    after hostOps0_3 V (Proc.devRef .tc r) = V (Proc.devRef .tc r) := after_of_writes_sub hostOps0_3 V writes0_3 h

abbrev W0_4 : List (Ref sig .tc) := [main_cst_5, main_v38, main_v39, main_v40, main_v41, main_v42, main_c_6]
set_option maxRecDepth 8192 in
theorem writes0_4 : (hostOps0_4 : List (HloOp τ sig (Elt F))).Forall fun op => op.writes ⊆ (W0_4.map (Proc.devRef (τ := τ) .tc)).toFinset :=
  ⟨writes_sub_of (nullary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (nullary_writes ..) (by decide)⟩

theorem keep0_4 (V : Valuation τ sig (Elt F)) (r : Ref sig .tc) (h : r ∉ W0_4) :
    after hostOps0_4 V (Proc.devRef .tc r) = V (Proc.devRef .tc r) := after_of_writes_sub hostOps0_4 V writes0_4 h

abbrev W0_5 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v43]
set_option maxRecDepth 8192 in
theorem writes0_5 : (hostOps0_5 : List (HloOp τ sig (Elt F))).Forall fun op => op.writes ⊆ (W0_5.map (Proc.devRef (τ := τ) .tc)).toFinset :=
  ⟨writes_sub_of (unary_writes ..) (by decide), writes_sub_of (unary_writes ..) (by decide), writes_sub_of (binary_writes ..) (by decide), writes_sub_of (unary_writes ..) (by decide), writes_sub_of (unary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (binary_writes ..) (by decide), writes_sub_of (nullary_writes ..) (by decide), writes_sub_of (unary_writes ..) (by decide), writes_sub_of (binary_writes ..) (by decide), writes_sub_of (ternary_writes ..) (by decide)⟩

theorem keep0_5 (V : Valuation τ sig (Elt F)) (r : Ref sig .tc) (h : r ∉ W0_5) :
    after hostOps0_5 V (Proc.devRef .tc r) = V (Proc.devRef .tc r) := after_of_writes_sub hostOps0_5 V writes0_5 h

abbrev W0_6 : List (Ref sig .tc) := [main_v44, main_v45, main_v46, main_v47, main_v48, main_v49, main_v50, main_cst_7, main_v51, main_cst_8, main_v52, main_v53, main_v54, main_v55, main_v56, main_v57, main_cst_9, main_v58, main_v59, main_v60, main_v61, main_v62, main_cst_10, main_v63, main_v64, main_cst_11, main_v65, main_v66, main_v67, main_v68, main_c_12, main_v69, main_v70, main_c_13, main_v71, main_v72, main_v73, main_v74, main_v75, main_cst_14, main_v76, main_v77, main_v78, main_v79, main_cst_15, main_v80, main_v81, main_v82, main_v83]
set_option maxRecDepth 8192 in
theorem writes0_6 : (hostOps0_6 : List (HloOp τ sig (Elt F))).Forall fun op => op.writes ⊆ (W0_6.map (Proc.devRef (τ := τ) .tc)).toFinset :=
  ⟨writes_sub_of (unary_writes ..) (by decide), writes_sub_of (unary_writes ..) (by decide), writes_sub_of (unary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (binary_writes ..) (by decide), writes_sub_of (nullary_writes ..) (by decide), writes_sub_of (unary_writes ..) (by decide), writes_sub_of (binary_writes ..) (by decide), writes_sub_of (unary_writes ..) (by decide), writes_sub_of (unary_writes ..) (by decide), writes_sub_of (binary_writes ..) (by decide), writes_sub_of (unary_writes ..) (by decide), writes_sub_of (nullary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (nullary_writes ..) (by decide), writes_sub_of (binary_writes ..) (by decide), writes_sub_of (unary_writes ..) (by decide), writes_sub_of (nullary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (binary_writes ..) (by decide), writes_sub_of (nullary_writes ..) (by decide), writes_sub_of (binary_writes ..) (by decide), writes_sub_of (unary_writes ..) (by decide), writes_sub_of (unary_writes ..) (by decide), writes_sub_of (unary_writes ..) (by decide)⟩

theorem keep0_6 (V : Valuation τ sig (Elt F)) (r : Ref sig .tc) (h : r ∉ W0_6) :
    after hostOps0_6 V (Proc.devRef .tc r) = V (Proc.devRef .tc r) := after_of_writes_sub hostOps0_6 V writes0_6 h

section Names
variable (x : FVec F S12288x128 .f32) (ei : IVec S2x196608 32) (batch : IVec S12288 32)
  (W1 : FVec F S256x128 .f32) (b1 : FVec F S128 .f32) (W2 : FVec F S256x256 .f32) (b2 : FVec F S256 .f32)

abbrev kFu : FVec F S12288x384 .f32 := Spec.fusedOf (Spec.catOf x (Spec.srcOf ei) (Spec.dstOf ei)) W1 b1 W2 b2

abbrev kE : FVec F S12288x128 .f32 := Spec.rowNorm128 (Spec.fusedLeft (kFu x ei W1 b1 W2 b2))

abbrev kS : FVec F S12288x256 .f32 :=
  Spec.assignOf (Spec.rowNorm256 (Spec.fusedRight (kFu x ei W1 b1 W2 b2))) (Spec.maskOf batch)

abbrev kAr : FVec F S12288x256 .f32 := Spec.arOf (kS x ei batch W1 b1 W2 b2) (Spec.srcOf ei) (Spec.dstOf ei)
end Names

theorem s0_v1 (V : Valuation τ sig (Elt F)) : (after hostOps0 V (Proc.devRef .tc main_v1) : IVec S196608 32) = Spec.srcOf (V (Proc.devRef .tc main_arg1)) := by
  after_results <;> rfl
theorem s0_v3 (V : Valuation τ sig (Elt F)) : (after hostOps0 V (Proc.devRef .tc main_v3) : IVec S196608 32) = Spec.dstOf (V (Proc.devRef .tc main_arg1)) := by
  after_results <;> rfl
set_option maxHeartbeats 4000000 in
theorem s0_v30 (V : Valuation τ sig (Elt F)) : (after hostOps0 V (Proc.devRef .tc main_v30) : FVec F S12288x128 .f32) = Spec.fusedLeft (kFu (V (Proc.devRef .tc main_arg0)) (V (Proc.devRef .tc main_arg1)) (V (Proc.devRef .tc main_arg3)) (V (Proc.devRef .tc main_arg4)) (V (Proc.devRef .tc main_arg5)) (V (Proc.devRef .tc main_arg6))) := by
  after_results <;> rfl
set_option maxHeartbeats 4000000 in
theorem s0_v31 (V : Valuation τ sig (Elt F)) : (after hostOps0 V (Proc.devRef .tc main_v31) : FVec F S12288x256 .f32) = Spec.fusedRight (kFu (V (Proc.devRef .tc main_arg0)) (V (Proc.devRef .tc main_arg1)) (V (Proc.devRef .tc main_arg3)) (V (Proc.devRef .tc main_arg4)) (V (Proc.devRef .tc main_arg5)) (V (Proc.devRef .tc main_arg6))) := by
  after_results <;> rfl

theorem s1_v32 (V : Valuation τ sig (Elt F)) : (after hostOps0_1 V (Proc.devRef .tc main_v32) : FVec F S12288x1 .f32) = Spec.rowLen128 (V (Proc.devRef .tc main_v30)) := by
  after_results <;> rfl

theorem s2_v36 (V : Valuation τ sig (Elt F)) : (after hostOps0_2 V (Proc.devRef .tc main_v36) : FVec F S12288x128 .f32)
    = Host.divf (V (Proc.devRef .tc main_v30) : FVec F S12288x128 .f32) (broadcastInDim S12288x128 ![0, 1] Facts₀.bcast_S12288x1_S12288x128_0_1
        (maximumf (V (Proc.devRef .tc main_v32) : FVec F S12288x1 .f32) (broadcastInDim S12288x1 ![] Facts₀.bcast_S_S12288x1 (constant (F := F) S_ .f32 0x2B8CBCCC#32)))) := by
  after_results <;> rfl

theorem s3_v37 (V : Valuation τ sig (Elt F)) : (after hostOps0_3 V (Proc.devRef .tc main_v37) : FVec F S12288x1 .f32) = Spec.rowLen256 (V (Proc.devRef .tc main_v31)) := by
  after_results <;> rfl

theorem s4_v41 (V : Valuation τ sig (Elt F)) : (after hostOps0_4 V (Proc.devRef .tc main_v41) : FVec F S12288x256 .f32)
    = Host.divf (V (Proc.devRef .tc main_v31) : FVec F S12288x256 .f32) (broadcastInDim S12288x256 ![0, 1] Facts₀.bcast_S12288x1_S12288x256_0_1
        (maximumf (V (Proc.devRef .tc main_v37) : FVec F S12288x1 .f32) (broadcastInDim S12288x1 ![] Facts₀.bcast_S_S12288x1 (constant (F := F) S_ .f32 0x2B8CBCCC#32)))) := by
  after_results <;> rfl

theorem s45_v43 (V : Valuation τ sig (Elt F)) : (after (hostOps0_4 ++ hostOps0_5) V (Proc.devRef .tc main_v43) : IVec S256 32) = Spec.colGraph := by
  simp only [hostOps0_4, hostOps0_5, List.cons_append, List.nil_append]
  after_results_simp <;> rfl

set_option maxHeartbeats 4000000 in
theorem s6_v49 (V : Valuation τ sig (Elt F)) (h43 : (V (Proc.devRef .tc main_v43) : IVec S256 32) = Spec.colGraph) :
    (after hostOps0_6 V (Proc.devRef .tc main_v49) : FVec F S12288x256 .f32) = Spec.maskOf (V (Proc.devRef .tc main_arg2)) := by
  after_results_simp; rw [h43]; rfl
set_option maxHeartbeats 4000000 in
theorem s6_v80 (V : Valuation τ sig (Elt F)) (h43 : (V (Proc.devRef .tc main_v43) : IVec S256 32) = Spec.colGraph) :
    (after hostOps0_6 V (Proc.devRef .tc main_v80) : FVec F S_ .f32) = Spec.crossOf (Spec.assignOf (V (Proc.devRef .tc main_v41) : FVec F S12288x256 .f32) (Spec.maskOf (V (Proc.devRef .tc main_arg2)))) (Spec.arOf (Spec.assignOf (V (Proc.devRef .tc main_v41) : FVec F S12288x256 .f32) (Spec.maskOf (V (Proc.devRef .tc main_arg2)))) (V (Proc.devRef .tc main_v1)) (V (Proc.devRef .tc main_v3))) := by
  after_results_simp; rw [h43]; rfl
set_option maxHeartbeats 4000000 in
theorem s6_v81 (V : Valuation τ sig (Elt F)) (h43 : (V (Proc.devRef .tc main_v43) : IVec S256 32) = Spec.colGraph) :
    (after hostOps0_6 V (Proc.devRef .tc main_v81) : FVec F S12288x256 .bf16) = truncf .bf16 (Spec.assignOf (V (Proc.devRef .tc main_v41) : FVec F S12288x256 .f32) (Spec.maskOf (V (Proc.devRef .tc main_arg2)))) Cert.KernelIdeal.Gen.bitsLt_bf16_f32 := by
  after_results_simp; rw [h43]; rfl
set_option maxHeartbeats 4000000 in
theorem s6_v82 (V : Valuation τ sig (Elt F)) :
    (after hostOps0_6 V (Proc.devRef .tc main_v82) : FVec F S12288x128 .bf16) = truncf .bf16 (V (Proc.devRef .tc main_v36) : FVec F S12288x128 .f32) Cert.KernelIdeal.Gen.bitsLt_bf16_f32 := by
  after_results_simp
set_option maxHeartbeats 4000000 in
theorem s6_v83 (V : Valuation τ sig (Elt F)) (h43 : (V (Proc.devRef .tc main_v43) : IVec S256 32) = Spec.colGraph) :
    (after hostOps0_6 V (Proc.devRef .tc main_v83) : FVec F S12288x256 .bf16) = truncf .bf16 (Spec.arOf (Spec.assignOf (V (Proc.devRef .tc main_v41) : FVec F S12288x256 .f32) (Spec.maskOf (V (Proc.devRef .tc main_arg2)))) (V (Proc.devRef .tc main_v1)) (V (Proc.devRef .tc main_v3))) Cert.KernelIdeal.Gen.bitsLt_bf16_f32 := by
  after_results_simp; rw [h43]; rfl

theorem pre_eq (V : Valuation τ sig (Elt F)) : after (List.flatten [hostOps0, hostOps0_1, hostOps0_2, hostOps0_3, hostOps0_4, hostOps0_5, hostOps0_6]) V = (after hostOps0_6 (after hostOps0_5 (after hostOps0_4 (after hostOps0_3 (after hostOps0_2 (after hostOps0_1 (after hostOps0 V))))))) := by
  simp only [List.flatten_cons, List.flatten_nil, List.append_nil, after_append]

theorem x5_v43 (V : Valuation τ sig (Elt F)) : ((after hostOps0_5 (after hostOps0_4 V)) (Proc.devRef .tc main_v43) : IVec S256 32) = Spec.colGraph := by
  rw [← after_append]; exact s45_v43 V

set_option maxRecDepth 8192 in
theorem x5_v1 (V : Valuation τ sig (Elt F)) : ((after hostOps0_5 (after hostOps0_4 (after hostOps0_3 (after hostOps0_2 (after hostOps0_1 (after hostOps0 V)))))) (Proc.devRef .tc main_v1) : IVec S196608 32) = Spec.srcOf (V (Proc.devRef .tc main_arg1)) := by
  rw [keep0_5 _ main_v1 (by decide), keep0_4 _ main_v1 (by decide), keep0_3 _ main_v1 (by decide), keep0_2 _ main_v1 (by decide), keep0_1 _ main_v1 (by decide), s0_v1]
set_option maxRecDepth 8192 in
theorem x5_v3 (V : Valuation τ sig (Elt F)) : ((after hostOps0_5 (after hostOps0_4 (after hostOps0_3 (after hostOps0_2 (after hostOps0_1 (after hostOps0 V)))))) (Proc.devRef .tc main_v3) : IVec S196608 32) = Spec.dstOf (V (Proc.devRef .tc main_arg1)) := by
  rw [keep0_5 _ main_v3 (by decide), keep0_4 _ main_v3 (by decide), keep0_3 _ main_v3 (by decide), keep0_2 _ main_v3 (by decide), keep0_1 _ main_v3 (by decide), s0_v3]
set_option maxRecDepth 8192 in
theorem x5_arg2 (V : Valuation τ sig (Elt F)) : (after hostOps0_5 (after hostOps0_4 (after hostOps0_3 (after hostOps0_2 (after hostOps0_1 (after hostOps0 V)))))) (Proc.devRef .tc main_arg2) = V (Proc.devRef .tc main_arg2) := by
  rw [keep0_5 _ main_arg2 (by decide), keep0_4 _ main_arg2 (by decide), keep0_3 _ main_arg2 (by decide), keep0_2 _ main_arg2 (by decide), keep0_1 _ main_arg2 (by decide), keep0 _ main_arg2 (by decide)]
set_option maxRecDepth 8192 in
theorem x5_v36 (V : Valuation τ sig (Elt F)) : ((after hostOps0_5 (after hostOps0_4 (after hostOps0_3 (after hostOps0_2 (after hostOps0_1 (after hostOps0 V)))))) (Proc.devRef .tc main_v36) : FVec F S12288x128 .f32) = (kE (V (Proc.devRef .tc main_arg0)) (V (Proc.devRef .tc main_arg1)) (V (Proc.devRef .tc main_arg3)) (V (Proc.devRef .tc main_arg4)) (V (Proc.devRef .tc main_arg5)) (V (Proc.devRef .tc main_arg6))) := by
  rw [keep0_5 _ main_v36 (by decide), keep0_4 _ main_v36 (by decide), keep0_3 _ main_v36 (by decide), s2_v36, s1_v32, keep0_1 _ main_v30 (by decide), s0_v30]; rfl
set_option maxRecDepth 8192 in
theorem x5_v41 (V : Valuation τ sig (Elt F)) : ((after hostOps0_5 (after hostOps0_4 (after hostOps0_3 (after hostOps0_2 (after hostOps0_1 (after hostOps0 V)))))) (Proc.devRef .tc main_v41) : FVec F S12288x256 .f32)
    = Spec.rowNorm256 (Spec.fusedRight (kFu (V (Proc.devRef .tc main_arg0)) (V (Proc.devRef .tc main_arg1)) (V (Proc.devRef .tc main_arg3)) (V (Proc.devRef .tc main_arg4)) (V (Proc.devRef .tc main_arg5)) (V (Proc.devRef .tc main_arg6)))) := by
  rw [keep0_5 _ main_v41 (by decide), s4_v41, s3_v37, keep0_3 _ main_v31 (by decide), keep0_2 _ main_v31 (by decide), keep0_1 _ main_v31 (by decide), s0_v31]; rfl

set_option maxRecDepth 8192 in
theorem pre_v1 (V : Valuation τ sig (Elt F)) : (after (List.flatten [hostOps0, hostOps0_1, hostOps0_2, hostOps0_3, hostOps0_4, hostOps0_5, hostOps0_6]) V (Proc.devRef .tc main_v1) : IVec S196608 32) = Spec.srcOf (V (Proc.devRef .tc main_arg1)) := by
  rw [pre_eq, keep0_6 _ main_v1 (by decide), x5_v1]
set_option maxRecDepth 8192 in
theorem pre_v3 (V : Valuation τ sig (Elt F)) : (after (List.flatten [hostOps0, hostOps0_1, hostOps0_2, hostOps0_3, hostOps0_4, hostOps0_5, hostOps0_6]) V (Proc.devRef .tc main_v3) : IVec S196608 32) = Spec.dstOf (V (Proc.devRef .tc main_arg1)) := by
  rw [pre_eq, keep0_6 _ main_v3 (by decide), x5_v3]
theorem pre_v49 (V : Valuation τ sig (Elt F)) : (after (List.flatten [hostOps0, hostOps0_1, hostOps0_2, hostOps0_3, hostOps0_4, hostOps0_5, hostOps0_6]) V (Proc.devRef .tc main_v49) : FVec F S12288x256 .f32) = Spec.maskOf (V (Proc.devRef .tc main_arg2)) := by
  rw [pre_eq, s6_v49 _ (x5_v43 _), x5_arg2]
theorem pre_v80 (V : Valuation τ sig (Elt F)) : (after (List.flatten [hostOps0, hostOps0_1, hostOps0_2, hostOps0_3, hostOps0_4, hostOps0_5, hostOps0_6]) V (Proc.devRef .tc main_v80) : FVec F S_ .f32) = Spec.crossOf (kS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) (kAr (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) := by
  rw [pre_eq, s6_v80 _ (x5_v43 _), x5_v41, x5_arg2, x5_v1, x5_v3]
theorem pre_v81 (V : Valuation τ sig (Elt F)) : (after (List.flatten [hostOps0, hostOps0_1, hostOps0_2, hostOps0_3, hostOps0_4, hostOps0_5, hostOps0_6]) V (Proc.devRef .tc main_v81) : FVec F S12288x256 .bf16) = truncf .bf16 (kS (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) Cert.KernelIdeal.Gen.bitsLt_bf16_f32 := by
  rw [pre_eq, s6_v81 _ (x5_v43 _), x5_v41, x5_arg2]
theorem pre_v82 (V : Valuation τ sig (Elt F)) : (after (List.flatten [hostOps0, hostOps0_1, hostOps0_2, hostOps0_3, hostOps0_4, hostOps0_5, hostOps0_6]) V (Proc.devRef .tc main_v82) : FVec F S12288x128 .bf16) = truncf .bf16 (kE (V (Proc.devRef .tc main_arg0)) (V (Proc.devRef .tc main_arg1)) (V (Proc.devRef .tc main_arg3)) (V (Proc.devRef .tc main_arg4)) (V (Proc.devRef .tc main_arg5)) (V (Proc.devRef .tc main_arg6))) Cert.KernelIdeal.Gen.bitsLt_bf16_f32 := by
  rw [pre_eq, s6_v82, x5_v36]
theorem pre_v83 (V : Valuation τ sig (Elt F)) : (after (List.flatten [hostOps0, hostOps0_1, hostOps0_2, hostOps0_3, hostOps0_4, hostOps0_5, hostOps0_6]) V (Proc.devRef .tc main_v83) : FVec F S12288x256 .bf16) = truncf .bf16 (kAr (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))) Cert.KernelIdeal.Gen.bitsLt_bf16_f32 := by
  rw [pre_eq, s6_v83 _ (x5_v43 _), x5_v41, x5_arg2, x5_v1, x5_v3]

end Cert.KVals

end
-- ==== Proof.SortSpec.lean ====
import proofs.«118921_j70214125355087_2_alg».proof.KernelIdeal

noncomputable section

namespace Cert.SortCount

open Idealize.ShloMosaic Cert.KernelIdeal
open Cert.KernelIdeal.Facts₀ Cert.KernelIdeal.Facts

section Def
variable {F : FTy → Type} [FloatOps F] [Cert.KernelIdeal.Facts]

def aFrob (v1 v3 : IVec Cert.KernelIdeal.S196608 32) : FVec F Cert.KernelIdeal.S_ .f32 :=
  let c19 : IVec S_ 32 := constantI S_ 32 12288#32
  let v88 : IVec S196608 32 := broadcastInDim S196608 ![] bcast_S_S196608 c19
  let v89 : IVec S196608 32 := muli v1 v88
  let v90 : IVec S196608 32 := addi v89 v3
  let v91 : IVec S196608 32 := Host.sort S196608 0 comparator_i32_d0 v90
  let v92 : IVec S196608 32 := iotaInDim S196608 32 0
  let c20 : IVec S_ 1 := constantI S_ 1 1#1
  let v93 : IVec S1 1 := broadcastInDim S1 ![] bcast_S_S1 c20
  let v94 : IVec S196607 32 := extractStridedSlice S196607 ![1] v91 slices_S196608_S196607_1
  let v95 : IVec S196607 32 := extractStridedSlice S196607 ![0] v91 slices_S196608_S196607_0
  let v96 : IVec S196607 1 := cmpi .ne v94 v95
  let v97 : IVec S196608 1 := concatenate S196608 0 [⟨S1, v93⟩, ⟨S196607, v96⟩] concatenates_S1_S196607_S196608_d0
  let c21 : IVec S_ 32 := constantI S_ 32 4294967295#32
  let w0 : IVec S196608 32 := broadcastInDim S196608 ![] bcast_S_S196608 c21
  let v98 : IVec S196608 32 := select v97 v92 w0
  let cc : IVec S_ 32 := constantI S_ 32 2147483648#32
  let c0 : IVec S_ 32 := broadcastInDim S_ ![] bcast_S_S_ cc
  let v99 : IVec S196608 32 := Host.reduceWindow IntOp.maxsi ![196608] ![1] ![196607] ![0] v98 c0
    reduceWindows_S196608_S196608_w196608s1p196607_0 h_S_
  let v100 : IVec S196608 32 := subi v92 v99
  let c22 : IVec S_ 32 := constantI S_ 32 2#32
  let v101 : IVec S196608 32 := broadcastInDim S196608 ![] bcast_S_S196608 c22
  let v102 : IVec S196608 32 := muli v101 v100
  let c23 : IVec S_ 32 := constantI S_ 32 1#32
  let v103 : IVec S196608 32 := broadcastInDim S196608 ![] bcast_S_S196608 c23
  let v104 : IVec S196608 32 := addi v102 v103
  let v105 : FVec F S196608 .f32 := sitofp .f32 v104
  let cst24 : FVec F S_ .f32 := constant S_ .f32 0x00000000#32
  Host.reduceAdd v105 cst24 reducesTo_S196608_S_d0 h_S_

end Def

end Cert.SortCount
-- ==== Proof.KTail.lean ====
import proofs.«118921_j70214125355087_2_alg».proof.Proof.Gen.KernelIdeal.Launch
import proofs.«118921_j70214125355087_2_alg».proof.Proof.Spec
import proofs.«118921_j70214125355087_2_alg».proof.Proof.SortSpec
import Idealize.ShloMosaic.Lib.StableHlo.Run
import Idealize.ShloMosaic.Lib.Pipeline.Frame

set_option maxRecDepth 4096

noncomputable section

namespace Cert.KTail

open Idealize.ShloMosaic Idealize.ShloMosaic.TcCoe
open Idealize.ShloMosaic.StableHlo
open Cert.KernelIdeal Cert.KernelIdeal.Gen
open Cert.KernelIdeal.Facts₀ Cert.KernelIdeal.Facts

variable {F : FTy → Type} [FloatOps F] [Cert.KernelIdeal.Facts]

theorem tail_v85 (W : Valuation τ sig (Elt F)) :
    StableHlo.after [hostOps1, hostOps1_1, hostOps1_2, hostOps1_3, hostOps1_4, hostOps1_5, hostOps1_6, hostOps1_7, hostOps1_8, hostOps1_9].flatten W
        (Proc.devRef .tc main_v85)
      = Cert.Spec.halves128 (W (Proc.devRef .tc main_v84_0)) := by
  simp only [hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  rfl

theorem tail_v86 (W : Valuation τ sig (Elt F)) :
    StableHlo.after [hostOps1, hostOps1_1, hostOps1_2, hostOps1_3, hostOps1_4, hostOps1_5, hostOps1_6, hostOps1_7, hostOps1_8, hostOps1_9].flatten W
        (Proc.devRef .tc main_v86)
      = Cert.Spec.halves256 (W (Proc.devRef .tc main_v84_1)) := by
  simp only [hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  rfl

set_option maxRecDepth 100000 in
set_option maxHeartbeats 4000000 in

theorem tail_v114 (W : Valuation τ sig (Elt F)) :
    StableHlo.after [hostOps1, hostOps1_1, hostOps1_2, hostOps1_3, hostOps1_4, hostOps1_5, hostOps1_6, hostOps1_7, hostOps1_8, hostOps1_9].flatten W
        (Proc.devRef .tc main_v114)
      = Cert.Spec.lossK (Cert.SortCount.aFrob (W (Proc.devRef .tc main_v1)) (W (Proc.devRef .tc main_v3)))
          (W (Proc.devRef .tc main_v80)) (Cert.Spec.halves256 (W (Proc.devRef .tc main_v84_2))) := by
  simp only [hostOps1, hostOps1_1, hostOps1_2, hostOps1_3, hostOps1_4, hostOps1_5, hostOps1_6, hostOps1_7, hostOps1_8, hostOps1_9,
    List.flatten_cons, List.flatten_nil, List.append_nil, List.cons_append, List.nil_append]
  after_results
  try simp only [TRef.ofBuf, TRef.toBuf, cast_eq]
  rfl

set_option maxRecDepth 100000 in
set_option maxHeartbeats 4000000 in

theorem tail_v129 (W : Valuation τ sig (Elt F)) :
    StableHlo.after [hostOps1, hostOps1_1, hostOps1_2, hostOps1_3, hostOps1_4, hostOps1_5, hostOps1_6, hostOps1_7, hostOps1_8, hostOps1_9].flatten W
        (Proc.devRef .tc main_v129)
      = Cert.Spec.entropyOf (W (Proc.devRef .tc main_v49)) := by
  simp only [hostOps1, hostOps1_1, hostOps1_2, hostOps1_3, hostOps1_4, hostOps1_5, hostOps1_6, hostOps1_7, hostOps1_8, hostOps1_9,
    List.flatten_cons, List.flatten_nil, List.append_nil, List.cons_append, List.nil_append]
  after_results_simp
  try simp only [TRef.ofBuf, TRef.toBuf, cast_eq]
  rfl

end Cert.KTail

end
-- ==== Proof.KRes.lean ====
import proofs.«118921_j70214125355087_2_alg».proof.Proof.KIFrame
import proofs.«118921_j70214125355087_2_alg».proof.Proof.Spec
import proofs.«118921_j70214125355087_2_alg».proof.Proof.SortSpec
import proofs.«118921_j70214125355087_2_alg».proof.Proof.PoolSum

noncomputable section

namespace Cert.KRes

open Idealize.ShloMosaic Idealize.ShloMosaic.TcCoe Idealize.ShloMosaic.StableHlo
open Idealize.SL Idealize.SL.Sem
open Idealize.ShloMosaic.Pipeline (Dat Cfg)
open Cert.KernelIdeal Cert.KernelIdeal.Gen Cert.KernelIdeal.HandFrame

variable (m : (ℓ : Loc nD τ sig) → Buf (Elt Ideal) ℓ)

abbrev preOps : List (HloOp τ sig (Elt Ideal)) := List.flatten [hostOps0, hostOps0_1, hostOps0_2, hostOps0_3, hostOps0_4, hostOps0_5, hostOps0_6]

abbrev tailL : List (HloOp τ sig (Elt Ideal)) := List.flatten [hostOps1, hostOps1_1, hostOps1_2, hostOps1_3, hostOps1_4, hostOps1_5, hostOps1_6, hostOps1_7, hostOps1_8, hostOps1_9]

abbrev SKof (x : FVec Ideal S12288x128 .f32) (ei : IVec S2x196608 32) (batch : IVec S12288 32)
    (W1 : FVec Ideal S256x128 .f32) (b1 : FVec Ideal S128 .f32) (W2 : FVec Ideal S256x256 .f32) (b2 : FVec Ideal S256 .f32) :
    FVec Ideal S12288x256 .f32 :=
  Spec.assignOf (Spec.rowNorm256 (Spec.fusedRight (Spec.fusedOf (Spec.catOf x (Spec.srcOf ei) (Spec.dstOf ei)) W1 b1 W2 b2))) (Spec.maskOf (F := Ideal) batch)

abbrev EKof (x : FVec Ideal S12288x128 .f32) (ei : IVec S2x196608 32)
    (W1 : FVec Ideal S256x128 .f32) (b1 : FVec Ideal S128 .f32) (W2 : FVec Ideal S256x256 .f32) (b2 : FVec Ideal S256 .f32) :
    FVec Ideal S12288x128 .f32 :=
  Spec.rowNorm128 (Spec.fusedLeft (Spec.fusedOf (Spec.catOf x (Spec.srcOf ei) (Spec.dstOf ei)) W1 b1 W2 b2))

abbrev a0 (c : Dev nD) : FVec Ideal S12288x128 .f32 := m ((c.tc : Thread nD τ).loc main_arg0)

abbrev a1 (c : Dev nD) : IVec S2x196608 32 := m ((c.tc : Thread nD τ).loc main_arg1)

abbrev a2 (c : Dev nD) : IVec S12288 32 := m ((c.tc : Thread nD τ).loc main_arg2)

abbrev a3 (c : Dev nD) : FVec Ideal S256x128 .f32 := m ((c.tc : Thread nD τ).loc main_arg3)

abbrev a4 (c : Dev nD) : FVec Ideal S128 .f32 := m ((c.tc : Thread nD τ).loc main_arg4)

abbrev a5 (c : Dev nD) : FVec Ideal S256x256 .f32 := m ((c.tc : Thread nD τ).loc main_arg5)

abbrev a6 (c : Dev nD) : FVec Ideal S256 .f32 := m ((c.tc : Thread nD τ).loc main_arg6)

abbrev src (c : Dev nD) : IVec S196608 32 := Spec.srcOf (a1 m c)

abbrev dst (c : Dev nD) : IVec S196608 32 := Spec.dstOf (a1 m c)

abbrev SK (c : Dev nD) : FVec Ideal S12288x256 .f32 := SKof (a0 m c) (a1 m c) (a2 m c) (a3 m c) (a4 m c) (a5 m c) (a6 m c)

abbrev EK (c : Dev nD) : FVec Ideal S12288x128 .f32 := EKof (a0 m c) (a1 m c) (a3 m c) (a4 m c) (a5 m c) (a6 m c)

abbrev ArK (c : Dev nD) : FVec Ideal S12288x256 .f32 := Spec.arOf (F := Ideal) (SK m c) (src m c) (dst m c)

abbrev M0 (c : Dev nD) : Valuation τ sig (Elt Ideal) := fun b => m (c, b)

abbrev WX (c : Dev nD) : Valuation τ sig (Elt Ideal) :=
  Pipeline.withArrays spec0 c (V0 m c) fun w => (dats m 0 c).arrAt w cfg0.N

theorem WX_arr3 (c : Dev nD) : (WX m c (Proc.devRef .tc main_v84_0) : FVec Ideal S2x256x128 .f32) = (dats m 0 c).arrAt 3 cfg0.N :=
  Pipeline.withArrays_arr spec0 launch0.win.arr_inj c _ _ 3
theorem WX_arr4 (c : Dev nD) : (WX m c (Proc.devRef .tc main_v84_1) : FVec Ideal S2x256x256 .f32) = (dats m 0 c).arrAt 4 cfg0.N :=
  Pipeline.withArrays_arr spec0 launch0.win.arr_inj c _ _ 4
theorem WX_arr5 (c : Dev nD) : (WX m c (Proc.devRef .tc main_v84_2) : FVec Ideal S2x256x256 .f32) = (dats m 0 c).arrAt 5 cfg0.N :=
  Pipeline.withArrays_arr spec0 launch0.win.arr_inj c _ _ 5

theorem WX_v1 (c : Dev nD) : WX m c (Proc.devRef .tc main_v1) = V0 m c (Proc.devRef .tc main_v1) :=
  Pipeline.withArrays_of_ne spec0 c (V0 m c) _ main_v1 (by decide)
theorem WX_v3 (c : Dev nD) : WX m c (Proc.devRef .tc main_v3) = V0 m c (Proc.devRef .tc main_v3) :=
  Pipeline.withArrays_of_ne spec0 c (V0 m c) _ main_v3 (by decide)
theorem WX_v49 (c : Dev nD) : WX m c (Proc.devRef .tc main_v49) = V0 m c (Proc.devRef .tc main_v49) :=
  Pipeline.withArrays_of_ne spec0 c (V0 m c) _ main_v49 (by decide)
theorem WX_v80 (c : Dev nD) : WX m c (Proc.devRef .tc main_v80) = V0 m c (Proc.devRef .tc main_v80) :=
  Pipeline.withArrays_of_ne spec0 c (V0 m c) _ main_v80 (by decide)

section OfLines

variable
  (pre_v1 : ∀ V : Valuation τ sig (Elt Ideal),
    (after preOps V (Proc.devRef .tc main_v1) : IVec S196608 32) = Spec.srcOf (V (Proc.devRef .tc main_arg1)))
  (pre_v3 : ∀ V : Valuation τ sig (Elt Ideal),
    (after preOps V (Proc.devRef .tc main_v3) : IVec S196608 32) = Spec.dstOf (V (Proc.devRef .tc main_arg1)))
  (pre_v49 : ∀ V : Valuation τ sig (Elt Ideal),
    (after preOps V (Proc.devRef .tc main_v49) : FVec Ideal S12288x256 .f32) = Spec.maskOf (F := Ideal) (V (Proc.devRef .tc main_arg2)))
  (pre_v80 : ∀ V : Valuation τ sig (Elt Ideal),
    (after preOps V (Proc.devRef .tc main_v80) : FVec Ideal S_ .f32)
      = Spec.crossOf
          (SKof (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
          (Spec.arOf (F := Ideal) (SKof (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
            (Spec.srcOf (V (Proc.devRef .tc main_arg1))) (Spec.dstOf (V (Proc.devRef .tc main_arg1)))))
  (pre_v81 : ∀ V : Valuation τ sig (Elt Ideal),
    (after preOps V (Proc.devRef .tc main_v81) : FVec Ideal S12288x256 .bf16)
      = truncf .bf16 (SKof (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
          Cert.KernelIdeal.Gen.bitsLt_bf16_f32)
  (pre_v82 : ∀ V : Valuation τ sig (Elt Ideal),
    (after preOps V (Proc.devRef .tc main_v82) : FVec Ideal S12288x128 .bf16)
      = truncf .bf16 (EKof (V (Proc.devRef .tc main_arg0)) (V (Proc.devRef .tc main_arg1)) (V (Proc.devRef .tc main_arg3)) (V (Proc.devRef .tc main_arg4)) (V (Proc.devRef .tc main_arg5)) (V (Proc.devRef .tc main_arg6)))
          Cert.KernelIdeal.Gen.bitsLt_bf16_f32)
  (pre_v83 : ∀ V : Valuation τ sig (Elt Ideal),
    (after preOps V (Proc.devRef .tc main_v83) : FVec Ideal S12288x256 .bf16)
      = truncf .bf16 (Spec.arOf (F := Ideal) (SKof (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)))
            (Spec.srcOf (V (Proc.devRef .tc main_arg1))) (Spec.dstOf (V (Proc.devRef .tc main_arg1))))
          Cert.KernelIdeal.Gen.bitsLt_bf16_f32)
  (tail_v85 : ∀ W : Valuation τ sig (Elt Ideal),
    (after tailL W (Proc.devRef .tc main_v85) : FVec Ideal S256x128 .f32) = Spec.halves128 (F := Ideal) (W (Proc.devRef .tc main_v84_0)))
  (tail_v86 : ∀ W : Valuation τ sig (Elt Ideal),
    (after tailL W (Proc.devRef .tc main_v86) : FVec Ideal S256x256 .f32) = Spec.halves256 (F := Ideal) (W (Proc.devRef .tc main_v84_1)))
  (tail_v114 : ∀ W : Valuation τ sig (Elt Ideal),
    (after tailL W (Proc.devRef .tc main_v114) : FVec Ideal S_ .f32)
      = Spec.lossK (F := Ideal) (Cert.SortCount.aFrob (F := Ideal) (W (Proc.devRef .tc main_v1)) (W (Proc.devRef .tc main_v3))) (W (Proc.devRef .tc main_v80))
          (Spec.halves256 (F := Ideal) (W (Proc.devRef .tc main_v84_2))))
  (tail_v129 : ∀ W : Valuation τ sig (Elt Ideal),
    (after tailL W (Proc.devRef .tc main_v129) : FVec Ideal S_ .f32) = Spec.entropyOf (F := Ideal) (W (Proc.devRef .tc main_v49)))
  (arr3 : ∀ c : Dev nD, ((dats m 0 c).arrAt 3 cfg0.N : FVec Ideal S2x256x128 .f32)
      = Cert.PoolSum.poolOut128 (V m c main_v81) (V m c main_v82))
  (arr4 : ∀ c : Dev nD, ((dats m 0 c).arrAt 4 cfg0.N : FVec Ideal S2x256x256 .f32)
      = Cert.PoolSum.poolOut256 (V m c main_v81) (V m c main_v83))
  (arr5 : ∀ c : Dev nD, ((dats m 0 c).arrAt 5 cfg0.N : FVec Ideal S2x256x256 .f32)
      = Cert.PoolSum.poolOut256 (V m c main_v81) (V m c main_v81))

include pre_v81 in

theorem V81 (c : Dev nD) : (V m c main_v81 : FVec Ideal S12288x256 .bf16) = SK m c := pre_v81 (M0 m c)
include pre_v82 in

theorem V82 (c : Dev nD) : (V m c main_v82 : FVec Ideal S12288x128 .bf16) = EK m c := pre_v82 (M0 m c)
include pre_v83 in

theorem V83 (c : Dev nD) : (V m c main_v83 : FVec Ideal S12288x256 .bf16) = ArK m c := pre_v83 (M0 m c)

include tail_v86 arr4 pre_v81 pre_v83 in

theorem res_v86 (c : Dev nD) :
    (Pipeline.afterTail₀ cfgs (dats m) 0 (V0 m) [hostOps1, hostOps1_1, hostOps1_2, hostOps1_3, hostOps1_4, hostOps1_5, hostOps1_6, hostOps1_7, hostOps1_8, hostOps1_9] c main_v86 : FVec Ideal S256x256 .f32)
      = Spec.halves256 (F := Ideal) (Cert.PoolSum.poolOut256 (SK m c) (ArK m c)) :=
  (tail_v86 (WX m c)).trans (congrArg (Spec.halves256 (F := Ideal)) ((WX_arr4 m c).trans ((arr4 c).trans
    (congrArg₂ Cert.PoolSum.poolOut256 (V81 m pre_v81 c) (V83 m pre_v83 c)))))

include tail_v85 arr3 pre_v81 pre_v82 in

theorem res_v85 (c : Dev nD) :
    (Pipeline.afterTail₀ cfgs (dats m) 0 (V0 m) [hostOps1, hostOps1_1, hostOps1_2, hostOps1_3, hostOps1_4, hostOps1_5, hostOps1_6, hostOps1_7, hostOps1_8, hostOps1_9] c main_v85 : FVec Ideal S256x128 .f32)
      = Spec.halves128 (F := Ideal) (Cert.PoolSum.poolOut128 (SK m c) (EK m c)) :=
  (tail_v85 (WX m c)).trans (congrArg (Spec.halves128 (F := Ideal)) ((WX_arr3 m c).trans ((arr3 c).trans
    (congrArg₂ Cert.PoolSum.poolOut128 (V81 m pre_v81 c) (V82 m pre_v82 c)))))

include tail_v114 arr5 pre_v1 pre_v3 pre_v80 pre_v81 in

theorem res_v114 (c : Dev nD) :
    (Pipeline.afterTail₀ cfgs (dats m) 0 (V0 m) [hostOps1, hostOps1_1, hostOps1_2, hostOps1_3, hostOps1_4, hostOps1_5, hostOps1_6, hostOps1_7, hostOps1_8, hostOps1_9] c main_v114 : FVec Ideal S_ .f32)
      = Spec.lossK (F := Ideal) (Cert.SortCount.aFrob (F := Ideal) (src m c) (dst m c)) (Spec.crossOf (F := Ideal) (SK m c) (ArK m c))
          (Spec.halves256 (F := Ideal) (Cert.PoolSum.poolOut256 (SK m c) (SK m c))) := by
  have h1 : (WX m c (Proc.devRef .tc main_v1) : IVec S196608 32) = src m c := (WX_v1 m c).trans (pre_v1 (M0 m c))
  have h3 : (WX m c (Proc.devRef .tc main_v3) : IVec S196608 32) = dst m c := (WX_v3 m c).trans (pre_v3 (M0 m c))
  have h80 : (WX m c (Proc.devRef .tc main_v80) : FVec Ideal S_ .f32) = Spec.crossOf (F := Ideal) (SK m c) (ArK m c) :=
    (WX_v80 m c).trans (pre_v80 (M0 m c))
  have h5 : (WX m c (Proc.devRef .tc main_v84_2) : FVec Ideal S2x256x256 .f32) = Cert.PoolSum.poolOut256 (SK m c) (SK m c) :=
    (WX_arr5 m c).trans ((arr5 c).trans (congrArg₂ Cert.PoolSum.poolOut256 (V81 m pre_v81 c) (V81 m pre_v81 c)))
  refine (tail_v114 (WX m c)).trans ?_
  rw [h1, h3, h80, h5]

include tail_v129 pre_v49 in

theorem res_v129 (c : Dev nD) :
    (Pipeline.afterTail₀ cfgs (dats m) 0 (V0 m) [hostOps1, hostOps1_1, hostOps1_2, hostOps1_3, hostOps1_4, hostOps1_5, hostOps1_6, hostOps1_7, hostOps1_8, hostOps1_9] c main_v129 : FVec Ideal S_ .f32)
      = Spec.entropyOf (F := Ideal) (Spec.maskOf (F := Ideal) (a2 m c)) :=
  (tail_v129 (WX m c)).trans (congrArg (Spec.entropyOf (F := Ideal)) ((WX_v49 m c).trans (pre_v49 (M0 m c))))

end OfLines

end Cert.KRes

end
-- ==== Proof.RefRun.lean ====
import proofs.«118921_j70214125355087_2_alg».proof.Proof.Gen.ReferenceIdeal
import Idealize.ShloMosaic.Lib.StableHlo.Run
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ StableHlo.unary main_arg1 main_v0 ((extractStridedSlice S1x196608 ![0, 0] · slices_S2x196608_S1x196608_0_0)),
    StableHlo.reshape main_v0 main_v1 rfl shapeCasts_S1x196608_S196608,
    StableHlo.unary main_arg1 main_v2 ((extractStridedSlice S1x196608 ![1, 0] · slices_S2x196608_S1x196608_1_0)),
    StableHlo.reshape main_v2 main_v3 rfl shapeCasts_S1x196608_S196608,
    StableHlo.nullary main_c (constantI S_ 32 0#32),
    StableHlo.unary main_c main_v4 (broadcastInDim S196608 ![] bcast_S_S196608),
    StableHlo.binary main_v1 main_v4 main_v5 (cmpi .slt),
    StableHlo.nullary main_c_0 (constantI S_ 32 12288#32),
    StableHlo.unary main_c_0 main_v6 (broadcastInDim S196608 ![] bcast_S_S196608),
    StableHlo.binary main_v1 main_v6 main_v7 (addi),
    StableHlo.ternary main_v5 main_v7 main_v1 main_v8 (select),
    StableHlo.unary main_v8 main_v9 (broadcastInDim S196608x1 ![0] bcast_S196608_S196608x1_0),
    StableHlo.binary main_arg0 main_v9 main_v10 ((fun x i => Host.gather gather_S12288x128_S196608x1_S196608x128_1_0_n_n_0_1_1128 x i)),
    StableHlo.nullary main_cst (constant S_ .f32 0x00000000#32),
    StableHlo.unary main_cst main_v11 (broadcastInDim S12288x128 ![] bcast_S_S12288x128),
    StableHlo.unary main_v3 main_v12 (broadcastInDim S196608x1 ![0] bcast_S196608_S196608x1_0),
    StableHlo.ternary main_v11 main_v12 main_v10 main_v13 ((fun x i u => Host.scatterAdd scatter_S12288x128_S196608x1_S196608x128_1_0_0_1 x i u)),
    StableHlo.nullary main_cst_1 (constant S_ .f32 0x3F800000#32),
    StableHlo.unary main_cst_1 main_v14 (broadcastInDim S196608 ![] bcast_S_S196608),
    StableHlo.nullary main_cst_2 (constant S_ .f32 0x00000000#32),
    StableHlo.unary main_cst_2 main_v15 (broadcastInDim S12288 ![] bcast_S_S12288),
    StableHlo.unary main_v3 main_v16 (broadcastInDim S196608x1 ![0] bcast_S196608_S196608x1_0),
    StableHlo.ternary main_v15 main_v16 main_v14 main_v17 ((fun x i u => Host.scatterAdd scatter_S12288_S196608x1_S196608_n_0_0_1 x i u)),
    StableHlo.nullary main_cst_3 (constant S_ .f32 0x3F800000#32),
    StableHlo.unary main_cst_3 main_v18 (broadcastInDim S12288 ![] bcast_S_S12288),
    StableHlo.binary main_v17 main_v18 main_v19 (maximumf),
    StableHlo.unary main_v19 main_v20 (broadcastInDim S12288x1 ![0] bcast_S12288_S12288x1_0),
    StableHlo.unary main_v20 main_v21 (broadcastInDim S12288x128 ![0, 1] bcast_S12288x1_S12288x128_0_1),
    StableHlo.binary main_v13 main_v21 main_v22 (Host.divf),
    StableHlo.binary main_arg0 main_v22 main_v23 ((fun a b => concatenate S12288x256 1 [⟨S12288x128, a⟩, ⟨S12288x128, b⟩] concatenates_S12288x128_S12288x128_S12288x256_d1)),
    StableHlo.binary main_v23 main_arg3 main_v24 ((fun l r => Host.dotGeneral dot_S12288x256_S256x128_S12288x128_1_0_0_1_n_n none l r)),
    StableHlo.unary main_arg4 main_v25 (broadcastInDim S1x128 ![1] bcast_S128_S1x128_1),
    StableHlo.unary main_v25 main_v26 (broadcastInDim S12288x128 ![0, 1] bcast_S1x128_S12288x128_0_1),
    StableHlo.binary main_v24 main_v26 main_v27 (addf),
    StableHlo.TRef.binary (.of main_v27) (.of main_v27) (.of main_call0_v0) mulf,
    StableHlo.TRef.nullary (.of main_call0_cst) (constant S_ .f32 0x00000000#32),
    StableHlo.TRef.binary (.of main_call0_v0) (.of main_call0_cst) (.of main_call0_v1) (fun x v => Host.reduceAdd x v reducesTo_S12288x128_S12288_d1 h_S_),
    StableHlo.TRef.unary (.of main_call0_v1 : StableHlo.TRef sig ⟨S12288, .f32⟩) (.of main_call0_v2 : StableHlo.TRef sig ⟨S12288x1, .f32⟩) (broadcastInDim S12288x1 ![0] bcast_S12288_S12288x1_0),
    StableHlo.TRef.unary (.of main_call0_v2) (.of main_v28) Host.sqrt,
    StableHlo.nullary main_cst_4 (constant S_ .f32 0x2B8CBCCC#32),
    StableHlo.unary main_cst_4 main_v29 (broadcastInDim S12288x1 ![] bcast_S_S12288x1),
    StableHlo.binary main_v28 main_v29 main_v30 (maximumf),
    StableHlo.unary main_v30 main_v31 (broadcastInDim S12288x128 ![0, 1] bcast_S12288x1_S12288x128_0_1),
    StableHlo.binary main_v27 main_v31 main_v32 (Host.divf),
    StableHlo.nullary main_c_5 (constantI S_ 32 0#32),
    StableHlo.unary main_c_5 main_v33 (broadcastInDim S196608 ![] bcast_S_S196608),
    StableHlo.binary main_v1 main_v33 main_v34 (cmpi .slt),
    StableHlo.nullary main_c_6 (constantI S_ 32 12288#32),
    StableHlo.unary main_c_6 main_v35 (broadcastInDim S196608 ![] bcast_S_S196608),
    StableHlo.binary main_v1 main_v35 main_v36 (addi),
    StableHlo.ternary main_v34 main_v36 main_v1 main_v37 (select),
    StableHlo.unary main_v37 main_v38 (broadcastInDim S196608x1 ![0] bcast_S196608_S196608x1_0),
    StableHlo.binary main_arg0 main_v38 main_v39 ((fun x i => Host.gather gather_S12288x128_S196608x1_S196608x128_1_0_n_n_0_1_1128 x i)),
    StableHlo.nullary main_cst_7 (constant S_ .f32 0x00000000#32),
    StableHlo.unary main_cst_7 main_v40 (broadcastInDim S12288x128 ![] bcast_S_S12288x128),
    StableHlo.unary main_v3 main_v41 (broadcastInDim S196608x1 ![0] bcast_S196608_S196608x1_0),
    StableHlo.ternary main_v40 main_v41 main_v39 main_v42 ((fun x i u => Host.scatterAdd scatter_S12288x128_S196608x1_S196608x128_1_0_0_1 x i u)),
    StableHlo.nullary main_cst_8 (constant S_ .f32 0x3F800000#32),
    StableHlo.unary main_cst_8 main_v43 (broadcastInDim S196608 ![] bcast_S_S196608),
    StableHlo.nullary main_cst_9 (constant S_ .f32 0x00000000#32),
    StableHlo.unary main_cst_9 main_v44 (broadcastInDim S12288 ![] bcast_S_S12288),
    StableHlo.unary main_v3 main_v45 (broadcastInDim S196608x1 ![0] bcast_S196608_S196608x1_0),
    StableHlo.ternary main_v44 main_v45 main_v43 main_v46 ((fun x i u => Host.scatterAdd scatter_S12288_S196608x1_S196608_n_0_0_1 x i u)),
    StableHlo.nullary main_cst_10 (constant S_ .f32 0x3F800000#32) ]

abbrev ops1 : List (HloOp τ sig (Elt F)) :=
  [ StableHlo.unary main_cst_10 main_v47 (broadcastInDim S12288 ![] bcast_S_S12288),
    StableHlo.binary main_v46 main_v47 main_v48 (maximumf),
    StableHlo.unary main_v48 main_v49 (broadcastInDim S12288x1 ![0] bcast_S12288_S12288x1_0),
    StableHlo.unary main_v49 main_v50 (broadcastInDim S12288x128 ![0, 1] bcast_S12288x1_S12288x128_0_1),
    StableHlo.binary main_v42 main_v50 main_v51 (Host.divf),
    StableHlo.binary main_arg0 main_v51 main_v52 ((fun a b => concatenate S12288x256 1 [⟨S12288x128, a⟩, ⟨S12288x128, b⟩] concatenates_S12288x128_S12288x128_S12288x256_d1)),
    StableHlo.binary main_v52 main_arg5 main_v53 ((fun l r => Host.dotGeneral dot_S12288x256_S256x256_S12288x256_1_0_0_1_n_n none l r)),
    StableHlo.unary main_arg6 main_v54 (broadcastInDim S1x256 ![1] bcast_S256_S1x256_1),
    StableHlo.unary main_v54 main_v55 (broadcastInDim S12288x256 ![0, 1] bcast_S1x256_S12288x256_0_1),
    StableHlo.binary main_v53 main_v55 main_v56 (addf),
    StableHlo.TRef.binary (.of main_v56) (.of main_v56) (.of main_call1_v0) mulf,
    StableHlo.TRef.nullary (.of main_call1_cst) (constant S_ .f32 0x00000000#32),
    StableHlo.TRef.binary (.of main_call1_v0) (.of main_call1_cst) (.of main_call1_v1) (fun x v => Host.reduceAdd x v reducesTo_S12288x256_S12288_d1 h_S_),
    StableHlo.TRef.unary (.of main_call1_v1 : StableHlo.TRef sig ⟨S12288, .f32⟩) (.of main_call1_v2 : StableHlo.TRef sig ⟨S12288x1, .f32⟩) (broadcastInDim S12288x1 ![0] bcast_S12288_S12288x1_0),
    StableHlo.TRef.unary (.of main_call1_v2) (.of main_v57) Host.sqrt,
    StableHlo.nullary main_cst_11 (constant S_ .f32 0x2B8CBCCC#32),
    StableHlo.unary main_cst_11 main_v58 (broadcastInDim S12288x1 ![] bcast_S_S12288x1),
    StableHlo.binary main_v57 main_v58 main_v59 (maximumf),
    StableHlo.unary main_v59 main_v60 (broadcastInDim S12288x256 ![0, 1] bcast_S12288x1_S12288x256_0_1),
    StableHlo.binary main_v56 main_v60 main_v61 (Host.divf),
    StableHlo.nullary main_v62 (iotaInDim S256 32 0),
    StableHlo.nullary main_c_12 (constantI S_ 32 32#32),
    StableHlo.TRef.unary (.of main_c_12) (.of main_call2_v0) id,
    StableHlo.TRef.unary (.of main_call2_v0 : StableHlo.TRef sig ⟨S_, .i32⟩) (.of main_call2_v1 : StableHlo.TRef sig ⟨S256, .i32⟩) (broadcastInDim S256 ![] bcast_S_S256),
    StableHlo.TRef.binary (.of main_v62) (.of main_call2_v1) (.of main_call2_v2) Host.divsi,
    StableHlo.TRef.unary (.of main_v62) (.of main_call2_v3) signi,
    StableHlo.TRef.unary (.of main_call2_v0) (.of main_call2_v4) signi,
    StableHlo.TRef.unary (.of main_call2_v4 : StableHlo.TRef sig ⟨S_, .i32⟩) (.of main_call2_v5 : StableHlo.TRef sig ⟨S256, .i32⟩) (broadcastInDim S256 ![] bcast_S_S256),
    StableHlo.TRef.binary (.of main_call2_v3) (.of main_call2_v5) (.of main_call2_v6) (cmpi .ne),
    StableHlo.TRef.unary (.of main_call2_v0 : StableHlo.TRef sig ⟨S_, .i32⟩) (.of main_call2_v7 : StableHlo.TRef sig ⟨S256, .i32⟩) (broadcastInDim S256 ![] bcast_S_S256),
    StableHlo.TRef.binary (.of main_v62) (.of main_call2_v7) (.of main_call2_v8) Host.remsi,
    StableHlo.TRef.nullary (.of main_call2_c) (constantI S_ 32 0#32),
    StableHlo.TRef.unary (.of main_call2_c : StableHlo.TRef sig ⟨S_, .i32⟩) (.of main_call2_v9 : StableHlo.TRef sig ⟨S256, .i32⟩) (broadcastInDim S256 ![] bcast_S_S256),
    StableHlo.TRef.binary (.of main_call2_v8) (.of main_call2_v9) (.of main_call2_v10) (cmpi .ne),
    StableHlo.TRef.binary (.of main_call2_v6) (.of main_call2_v10) (.of main_call2_v11) andi,
    StableHlo.TRef.nullary (.of main_call2_c_0) (constantI S_ 32 1#32),
    StableHlo.TRef.unary (.of main_call2_c_0 : StableHlo.TRef sig ⟨S_, .i32⟩) (.of main_call2_v12 : StableHlo.TRef sig ⟨S256, .i32⟩) (broadcastInDim S256 ![] bcast_S_S256),
    StableHlo.TRef.binary (.of main_call2_v2) (.of main_call2_v12) (.of main_call2_v13) subi,
    StableHlo.TRef.ternary (.of main_call2_v11) (.of main_call2_v13) (.of main_call2_v2) (.of main_v63) select,
    StableHlo.unary main_arg2 main_v64 (broadcastInDim S12288x1 ![0] bcast_S12288_S12288x1_0),
    StableHlo.unary main_v63 main_v65 (broadcastInDim S1x256 ![1] bcast_S256_S1x256_1),
    StableHlo.unary main_v64 main_v66 (broadcastInDim S12288x256 ![0, 1] bcast_S12288x1_S12288x256_0_1),
    StableHlo.unary main_v65 main_v67 (broadcastInDim S12288x256 ![0, 1] bcast_S1x256_S12288x256_0_1),
    StableHlo.binary main_v66 main_v67 main_v68 (cmpi .eq),
    StableHlo.unary main_v68 main_v69 (uitofp .f32),
    StableHlo.binary main_v61 main_v69 main_v70 (mulf),
    StableHlo.nullary main_cst_13 (constant S_ .f32 0xFF800000#32),
    StableHlo.binary main_v70 main_cst_13 main_v71 ((fun x v => Host.reduce FloatOps.maximumf x v reducesTo_S12288x256_S12288_d1 h_S_)),
    StableHlo.nullary main_cst_14 (constant S_ .f32 0xFF800000#32),
    StableHlo.unary main_cst_14 main_v72 (broadcastInDim S12288 ![] bcast_S_S12288),
    StableHlo.binary main_v72 main_v71 main_v73 (maximumf),
    StableHlo.unary main_v73 main_v74 (broadcastInDim S12288x1 ![0] bcast_S12288_S12288x1_0),
    StableHlo.unary main_v74 main_v75 (broadcastInDim S12288x256 ![0, 1] bcast_S12288x1_S12288x256_0_1),
    StableHlo.binary main_v70 main_v75 main_v76 (subf),
    StableHlo.unary main_v76 main_v77 (Host.exp),
    StableHlo.nullary main_cst_15 (constant S_ .f32 0x00000000#32),
    StableHlo.binary main_v77 main_cst_15 main_v78 ((fun x v => Host.reduceAdd x v reducesTo_S12288x256_S12288_d1 h_S_)),
    StableHlo.unary main_v78 main_v79 (broadcastInDim S12288x1 ![0] bcast_S12288_S12288x1_0),
    StableHlo.unary main_v79 main_v80 (broadcastInDim S12288x256 ![0, 1] bcast_S12288x1_S12288x256_0_1),
    StableHlo.binary main_v77 main_v80 main_v81 (Host.divf),
    StableHlo.binary main_v81 main_v69 main_v82 (mulf),
    StableHlo.nullary main_cst_16 (constant S_ .f32 0x00000000#32),
    StableHlo.binary main_v82 main_cst_16 main_v83 ((fun x v => Host.reduceAdd x v reducesTo_S12288x256_S12288_d1 h_S_)),
    StableHlo.unary main_v83 main_v84 (broadcastInDim S12288x1 ![0] bcast_S12288_S12288x1_0),
    StableHlo.nullary main_cst_17 (constant S_ .f32 0x29E12E13#32),
    StableHlo.unary main_cst_17 main_v85 (broadcastInDim S12288x1 ![] bcast_S_S12288x1),
    StableHlo.binary main_v84 main_v85 main_v86 (addf),
    StableHlo.unary main_v86 main_v87 (broadcastInDim S12288x256 ![0, 1] bcast_S12288x1_S12288x256_0_1),
    StableHlo.binary main_v82 main_v87 main_v88 (Host.divf),
    StableHlo.unary main_v88 main_v89 ((transpose S256x12288 [1, 0] · transposes_S12288x256_S256x12288_1_0)),
    StableHlo.binary main_v89 main_v32 main_v90 ((fun l r => Host.dotGeneral dot_S256x12288_S12288x128_S256x128_1_0_0_1_n_n none l r)),
    StableHlo.nullary main_c_18 (constantI S_ 32 0#32),
    StableHlo.unary main_c_18 main_v91 (broadcastInDim S196608 ![] bcast_S_S196608),
    StableHlo.binary main_v3 main_v91 main_v92 (cmpi .slt),
    StableHlo.nullary main_c_19 (constantI S_ 32 12288#32),
    StableHlo.unary main_c_19 main_v93 (broadcastInDim S196608 ![] bcast_S_S196608),
    StableHlo.binary main_v3 main_v93 main_v94 (addi),
    StableHlo.ternary main_v92 main_v94 main_v3 main_v95 (select),
    StableHlo.unary main_v95 main_v96 (broadcastInDim S196608x1 ![0] bcast_S196608_S196608x1_0),
    StableHlo.binary main_v88 main_v96 main_v97 ((fun x i => Host.gather gather_S12288x256_S196608x1_S196608x256_1_0_n_n_0_1_1256 x i)) ]

abbrev ops2 : List (HloOp τ sig (Elt F)) :=
  [ StableHlo.nullary main_cst_20 (constant S_ .f32 0x00000000#32),
    StableHlo.unary main_cst_20 main_v98 (broadcastInDim S12288x256 ![] bcast_S_S12288x256),
    StableHlo.unary main_v1 main_v99 (broadcastInDim S196608x1 ![0] bcast_S196608_S196608x1_0),
    StableHlo.ternary main_v98 main_v99 main_v97 main_v100 ((fun x i u => Host.scatterAdd scatter_S12288x256_S196608x1_S196608x256_1_0_0_1 x i u)),
    StableHlo.unary main_v88 main_v101 ((transpose S256x12288 [1, 0] · transposes_S12288x256_S256x12288_1_0)),
    StableHlo.binary main_v101 main_v100 main_v102 ((fun l r => Host.dotGeneral dot_S256x12288_S12288x256_S256x256_1_0_0_1_n_n none l r)),
    StableHlo.nullary main_cst_21 (constant S_ .f32 0x00000000#32),
    StableHlo.unary main_cst_21 main_v103 (broadcastInDim S12288x12288 ![] bcast_S_S12288x12288),
    StableHlo.nullary main_c_22 (constantI S_ 32 0#32),
    StableHlo.unary main_c_22 main_v104 (broadcastInDim S196608 ![] bcast_S_S196608),
    StableHlo.binary main_v1 main_v104 main_v105 (cmpi .slt),
    StableHlo.nullary main_c_23 (constantI S_ 32 12288#32),
    StableHlo.unary main_c_23 main_v106 (broadcastInDim S196608 ![] bcast_S_S196608),
    StableHlo.binary main_v1 main_v106 main_v107 (addi),
    StableHlo.ternary main_v105 main_v107 main_v1 main_v108 (select),
    StableHlo.nullary main_c_24 (constantI S_ 32 0#32),
    StableHlo.unary main_c_24 main_v109 (broadcastInDim S196608 ![] bcast_S_S196608),
    StableHlo.binary main_v3 main_v109 main_v110 (cmpi .slt),
    StableHlo.nullary main_c_25 (constantI S_ 32 12288#32),
    StableHlo.unary main_c_25 main_v111 (broadcastInDim S196608 ![] bcast_S_S196608),
    StableHlo.binary main_v3 main_v111 main_v112 (addi),
    StableHlo.ternary main_v110 main_v112 main_v3 main_v113 (select),
    StableHlo.unary main_v108 main_v114 (broadcastInDim S196608x1 ![0] bcast_S196608_S196608x1_0),
    StableHlo.unary main_v113 main_v115 (broadcastInDim S196608x1 ![0] bcast_S196608_S196608x1_0),
    StableHlo.binary main_v114 main_v115 main_v116 ((fun a b => concatenate S196608x2 1 [⟨S196608x1, a⟩, ⟨S196608x1, b⟩] concatenates_S196608x1_S196608x1_S196608x2_d1)),
    StableHlo.nullary main_cst_26 (constant S_ .f32 0x3F800000#32),
    StableHlo.unary main_cst_26 main_v117 (broadcastInDim S196608 ![] bcast_S_S196608),
    StableHlo.ternary main_v103 main_v116 main_v117 main_v118 ((fun x i u => Host.scatterAdd scatter_S12288x12288_S196608x2_S196608_n_01_01_1 x i u)),
    StableHlo.unary main_v88 main_v119 ((transpose S256x12288 [1, 0] · transposes_S12288x256_S256x12288_1_0)),
    StableHlo.binary main_v88 main_v119 main_v120 ((fun l r => Host.dotGeneral dot_S12288x256_S256x12288_S12288x12288_1_0_0_1_n_n none l r)),
    StableHlo.binary main_v118 main_v120 main_v121 (subf),
    StableHlo.TRef.binary (.of main_v121) (.of main_v121) (.of main_call3_v0) mulf,
    StableHlo.TRef.nullary (.of main_call3_cst) (constant S_ .f32 0x00000000#32),
    StableHlo.TRef.binary (.of main_call3_v0) (.of main_call3_cst) (.of main_call3_v1) (fun x v => Host.reduceAdd x v reducesTo_S12288x12288_S_d0_1 h_S_),
    StableHlo.TRef.unary (.of main_call3_v1) (.of main_v122) Host.sqrt,
    StableHlo.nullary main_cst_27 (constant S_ .f32 0x4D100000#32),
    StableHlo.binary main_v122 main_cst_27 main_v123 (Host.divf),
    StableHlo.nullary main_cst_28 (constant S_ .f32 0x00000000#32),
    StableHlo.binary main_v69 main_cst_28 main_v124 ((fun x v => Host.reduceAdd x v reducesTo_S12288x256_S12288_d1 h_S_)),
    StableHlo.unary main_v124 main_v125 (broadcastInDim S12288x1 ![0] bcast_S12288_S12288x1_0),
    StableHlo.unary main_v125 main_v126 (broadcastInDim S12288x256 ![0, 1] bcast_S12288x1_S12288x256_0_1),
    StableHlo.binary main_v69 main_v126 main_v127 (Host.divf),
    StableHlo.nullary main_cst_29 (constant S_ .f32 0x00000000#32),
    StableHlo.unary main_cst_29 main_v128 (broadcastInDim S12288x256 ![] bcast_S_S12288x256),
    StableHlo.binary main_v127 main_v128 main_v129 (cmpf .ogt),
    StableHlo.nullary main_cst_30 (constant S_ .f32 0x00000000#32),
    StableHlo.unary main_cst_30 main_v130 (broadcastInDim S12288x256 ![] bcast_S_S12288x256),
    StableHlo.binary main_v127 main_v130 main_v131 (cmpf .ogt),
    StableHlo.nullary main_cst_31 (constant S_ .f32 0x3F800000#32),
    StableHlo.TRef.unary (.of main_cst_31) (.of main_call4_v0) id,
    StableHlo.TRef.unary (.of main_call4_v0 : StableHlo.TRef sig ⟨S_, .f32⟩) (.of main_call4_v1 : StableHlo.TRef sig ⟨S12288x256, .f32⟩) (broadcastInDim S12288x256 ![] bcast_S_S12288x256),
    StableHlo.TRef.ternary (.of main_v131) (.of main_v127) (.of main_call4_v1) (.of main_v132) select,
    StableHlo.unary main_v132 main_v133 (Host.log),
    StableHlo.binary main_v127 main_v133 main_v134 (mulf),
    StableHlo.nullary main_cst_32 (constant S_ .f32 0x00000000#32),
    StableHlo.TRef.unary (.of main_cst_32) (.of main_call5_v0) id,
    StableHlo.TRef.unary (.of main_call5_v0 : StableHlo.TRef sig ⟨S_, .f32⟩) (.of main_call5_v1 : StableHlo.TRef sig ⟨S12288x256, .f32⟩) (broadcastInDim S12288x256 ![] bcast_S_S12288x256),
    StableHlo.TRef.ternary (.of main_v129) (.of main_v134) (.of main_call5_v1) (.of main_v135) select,
    StableHlo.nullary main_cst_33 (constant S_ .f32 0x00000000#32),
    StableHlo.binary main_v135 main_cst_33 main_v136 ((fun x v => Host.reduceAdd x v reducesTo_S12288x256_S12288_d1 h_S_)),
    StableHlo.unary main_v136 main_v137 (Host.negf),
    StableHlo.nullary main_cst_34 (constant S_ .f32 0x00000000#32),
    StableHlo.binary main_v137 main_cst_34 main_v138 ((fun x v => Host.reduceAdd x v reducesTo_S12288_S_d0 h_S_)) ]

abbrev ops : List (HloOp τ sig (Elt F)) := ops0 ++ (ops1 ++ ops2)

set_option maxRecDepth 8192 in
set_option maxHeartbeats 4000000 in

theorem main_part0_eq (c : Dev nD) : main_part0 (F := F) c = seq ops0 := rfl
set_option maxRecDepth 8192 in
set_option maxHeartbeats 4000000 in

theorem main_part1_eq (c : Dev nD) : main_part1 (F := F) c = seq ops1 := rfl
set_option maxRecDepth 8192 in
set_option maxHeartbeats 4000000 in

theorem main_part2_eq (c : Dev nD) : main_part2 (F := F) c = seq ops2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops2_sub : (ops2 : List (HloOp τ sig (Elt F))).Forall fun op => op.bufs ⊆ tcRefs τ sig :=
  ⟨nullary_bufs_sub .., unary_bufs_sub .., unary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., unary_bufs_sub .., binary_bufs_sub .., binary_bufs_sub .., binary_bufs_sub .., nullary_bufs_sub .., binary_bufs_sub .., unary_bufs_sub .., nullary_bufs_sub .., binary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

set_option maxRecDepth 8192 in

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in

theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_fresh : ∀ op ∈ (ops : List (HloOp τ sig (Elt F))), op.fresh = ∅ :=
  fun op h => by
    simp only [ops, List.mem_append] at h
    rcases h with h | h | h
    exacts [List.forall_iff_forall_mem.mp ops0_fresh op h, List.forall_iff_forall_mem.mp ops1_fresh op h, List.forall_iff_forall_mem.mp ops2_fresh op h]

theorem writes_sub_of {op : HloOp τ sig (Elt F)} {y : Ref sig .tc} {W : List (Ref sig .tc)}
    (h : op.writes = {Proc.devRef .tc y}) (hy : y ∈ W) : op.writes ⊆ (W.map (Proc.devRef (τ := τ) .tc)).toFinset := by
  rw [h, Finset.singleton_subset_iff, List.mem_toFinset]; exact List.mem_map_of_mem hy

abbrev ops0_W : List (Ref sig .tc) := [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_call0_v0, main_call0_cst, main_call0_v1, main_call0_v2, main_v28, main_cst_4, main_v29, main_v30, main_v31, main_v32, main_c_5, main_v33, main_v34, main_c_6, main_v35, main_v36, main_v37, main_v38, main_v39, main_cst_7, main_v40, main_v41, main_v42, main_cst_8, main_v43, main_cst_9, main_v44, main_v45, main_v46, main_cst_10]
set_option maxRecDepth 8192 in
theorem ops0_writes : (ops0 : List (HloOp τ sig (Elt F))).Forall fun op => op.writes ⊆ (ops0_W.map (Proc.devRef (τ := τ) .tc)).toFinset :=
  ⟨writes_sub_of (unary_writes ..) (by decide), writes_sub_of (reshape_writes ..) (by decide), writes_sub_of (unary_writes ..) (by decide), writes_sub_of (reshape_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (unary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (unary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (nullary_writes ..) (by decide), writes_sub_of (binary_writes ..) (by decide), writes_sub_of (unary_writes ..) (by decide), writes_sub_of (unary_writes ..) (by decide), writes_sub_of (nullary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (unary_writes ..) (by decide), writes_sub_of (nullary_writes ..) (by decide), writes_sub_of (unary_writes ..) (by decide), writes_sub_of (unary_writes ..) (by decide), writes_sub_of (ternary_writes ..) (by decide), writes_sub_of (nullary_writes ..) (by decide)⟩

abbrev ops1_W : List (Ref sig .tc) := [main_v47, main_v48, main_v49, main_v50, main_v51, main_v52, main_v53, main_v54, main_v55, main_v56, main_call1_v0, main_call1_cst, main_call1_v1, main_call1_v2, main_v57, main_cst_11, main_v58, main_v59, main_v60, main_v61, main_v62, main_c_12, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v63, main_v64, main_v65, main_v66, main_v67, main_v68, main_v69, main_v70, main_cst_13, main_v71, main_cst_14, main_v72, main_v73, main_v74, main_v75, main_v76, main_v77, main_cst_15, main_v78, main_v79, main_v80, main_v81, main_v82, main_cst_16, main_v83, main_v84, main_cst_17, main_v85, main_v86, main_v87, main_v88, main_v89, main_v90, main_c_18, main_v91, main_v92, main_c_19, main_v93, main_v94, main_v95, main_v96, main_v97]
set_option maxRecDepth 8192 in
theorem ops1_writes : (ops1 : List (HloOp τ sig (Elt F))).Forall fun op => op.writes ⊆ (ops1_W.map (Proc.devRef (τ := τ) .tc)).toFinset :=
  ⟨writes_sub_of (unary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (nullary_writes ..) (by decide), writes_sub_of (binary_writes ..) (by decide), writes_sub_of (unary_writes ..) (by decide), writes_sub_of (unary_writes ..) (by decide), writes_sub_of (nullary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (nullary_writes ..) (by decide), writes_sub_of (unary_writes ..) (by decide), writes_sub_of (unary_writes ..) (by decide), writes_sub_of (binary_writes ..) (by decide), writes_sub_of (unary_writes ..) (by decide), writes_sub_of (unary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (unary_writes ..) (by decide), writes_sub_of (unary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (binary_writes ..) (by decide), writes_sub_of (nullary_writes ..) (by decide), writes_sub_of (unary_writes ..) (by decide), writes_sub_of (binary_writes ..) (by decide), writes_sub_of (unary_writes ..) (by decide), writes_sub_of (unary_writes ..) (by decide), writes_sub_of (binary_writes ..) (by decide), writes_sub_of (unary_writes ..) (by decide), writes_sub_of (nullary_writes ..) (by decide), writes_sub_of (binary_writes ..) (by decide), writes_sub_of (unary_writes ..) (by decide), writes_sub_of (unary_writes ..) (by decide), writes_sub_of (binary_writes ..) (by decide), writes_sub_of (binary_writes ..) (by decide), writes_sub_of (nullary_writes ..) (by decide), writes_sub_of (binary_writes ..) (by decide), writes_sub_of (unary_writes ..) (by decide), writes_sub_of (nullary_writes ..) (by decide), writes_sub_of (unary_writes ..) (by decide), writes_sub_of (binary_writes ..) (by decide), writes_sub_of (unary_writes ..) (by decide), writes_sub_of (binary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (binary_writes ..) (by decide)⟩

abbrev ops2_W : List (Ref sig .tc) := [main_cst_20, main_v98, main_v99, main_v100, main_v101, main_v102, main_cst_21, main_v103, main_c_22, main_v104, main_v105, main_c_23, main_v106, main_v107, main_v108, main_c_24, main_v109, main_v110, main_c_25, main_v111, main_v112, main_v113, main_v114, main_v115, main_v116, main_cst_26, main_v117, main_v118, main_v119, main_v120, main_v121, main_call3_v0, main_call3_cst, main_call3_v1, main_v122, main_cst_27, main_v123, main_cst_28, main_v124, main_v125, main_v126, main_v127, main_cst_29, main_v128, main_v129, main_cst_30, main_v130, main_v131, main_cst_31, main_call4_v0, main_call4_v1, main_v132, main_v133, main_v134, main_cst_32, main_call5_v0, main_call5_v1, main_v135, main_cst_33, main_v136, main_v137, main_cst_34, main_v138]
set_option maxRecDepth 8192 in
theorem ops2_writes : (ops2 : List (HloOp τ sig (Elt F))).Forall fun op => op.writes ⊆ (ops2_W.map (Proc.devRef (τ := τ) .tc)).toFinset :=
  ⟨writes_sub_of (nullary_writes ..) (by decide), writes_sub_of (unary_writes ..) (by decide), writes_sub_of (unary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (ternary_writes ..) (by decide), writes_sub_of (unary_writes ..) (by decide), writes_sub_of (unary_writes ..) (by decide), writes_sub_of (binary_writes ..) (by decide), writes_sub_of (nullary_writes ..) (by decide), writes_sub_of (unary_writes ..) (by decide), writes_sub_of (ternary_writes ..) (by decide), writes_sub_of (unary_writes ..) (by decide), writes_sub_of (binary_writes ..) (by decide), writes_sub_of (binary_writes ..) (by decide), writes_sub_of (binary_writes ..) (by decide), writes_sub_of (nullary_writes ..) (by decide), writes_sub_of (binary_writes ..) (by decide), writes_sub_of (unary_writes ..) (by decide), writes_sub_of (nullary_writes ..) (by decide), writes_sub_of (binary_writes ..) (by decide), writes_sub_of (nullary_writes ..) (by decide), writes_sub_of (binary_writes ..) (by decide), writes_sub_of (unary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (unary_writes ..) (by decide), writes_sub_of (binary_writes ..) (by decide), writes_sub_of (nullary_writes ..) (by decide), writes_sub_of (unary_writes ..) (by decide), writes_sub_of (unary_writes ..) (by decide), writes_sub_of (ternary_writes ..) (by decide), writes_sub_of (nullary_writes ..) (by decide), writes_sub_of (binary_writes ..) (by decide), writes_sub_of (unary_writes ..) (by decide), writes_sub_of (nullary_writes ..) (by decide), writes_sub_of (binary_writes ..) (by decide)⟩

theorem ops_keep (V : Valuation τ sig (Elt F)) (r : Ref sig .tc) (h0 : r ∉ ops0_W) (h1 : r ∉ ops1_W) (h2 : r ∉ ops2_W) :
    after ops V (Proc.devRef .tc r) = V (Proc.devRef .tc r) := by
  rw [show (ops : List (HloOp τ sig (Elt F))) = ops0 ++ (ops1 ++ ops2) from rfl, after_append, after_append,
    after_of_writes_sub ops2 _ ops2_writes h2, after_of_writes_sub ops1 _ ops1_writes h1, after_of_writes_sub ops0 _ ops0_writes h0]

abbrev Vfin (m : (ℓ : Loc nD τ sig) → Buf (Elt F) ℓ) (c : Dev nD) (b : Ref sig .tc) :=
  after (ops (F := F)) (launchContents m c) (Proc.devRef .tc b)

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = Vfin m c b :=
  run_seq scopedRefs_eq scopedSems_eq defs main (fun _ => ops) main_eq (fun _ => ops_sub) m ρ (fun _ => ops_fresh)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v102) = Vfin m c main_v102
      ∧ r.2.mem ((c.tc : Thread nD τ).loc main_v90) = Vfin m c main_v90
      ∧ r.2.mem ((c.tc : Thread nD τ).loc main_v123) = Vfin m c main_v123
      ∧ r.2.mem ((c.tc : Thread nD τ).loc main_v138) = Vfin m c main_v138
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v102, h c main_v90, h c main_v123, h c main_v138,
      (h c main_arg0).trans (ops_keep _ main_arg0 (by decide) (by decide) (by decide)),
      (h c main_arg1).trans (ops_keep _ main_arg1 (by decide) (by decide) (by decide)),
      (h c main_arg2).trans (ops_keep _ main_arg2 (by decide) (by decide) (by decide)),
      (h c main_arg3).trans (ops_keep _ main_arg3 (by decide) (by decide) (by decide)),
      (h c main_arg4).trans (ops_keep _ main_arg4 (by decide) (by decide) (by decide)),
      (h c main_arg5).trans (ops_keep _ main_arg5 (by decide) (by decide) (by decide)),
      (h c main_arg6).trans (ops_keep _ main_arg6 (by decide) (by decide) (by decide))⟩)
    (run_all m ρ)

theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2.2.2.2) (run m ρ)

end Cert.ReferenceIdeal.HandRun

end
-- ==== Proof.RefVals.lean ====
import proofs.«118921_j70214125355087_2_alg».proof.Proof.RefRun
import proofs.«118921_j70214125355087_2_alg».proof.Proof.Spec
import Idealize.ShloMosaic.PureOps.Ideal

noncomputable section

namespace Cert.RefVals

open Cert.ReferenceIdeal Cert.ReferenceIdeal.Gen Cert.ReferenceIdeal.HandRun
open Idealize.ShloMosaic Idealize.ShloMosaic.TcCoe Idealize.SL.Sem Idealize.ShloMosaic.StableHlo

variable {F : FTy → Type} [FloatOps F] [Cert.KernelIdeal.Facts] [Cert.ReferenceIdeal.Facts]

def IsReal {S : Shape} (v : S.Idx → EReal) : Prop := ∀ i, ∃ r : ℝ, v i = (r : EReal)

def numOf (x : FVec F S12288x128 .f32) (s d : IVec S196608 32) : FVec F S12288x128 .f32 :=
  Host.scatterAdd scatter_S12288x128_S196608x1_S196608x128_1_0_0_1
    (broadcastInDim S12288x128 ![] bcast_S_S12288x128 (constant (F := F) S_ .f32 0x00000000#32)) (Cert.Spec.col d)
    (Host.gather gather_S12288x128_S196608x1_S196608x128_1_0_n_n_0_1_1128 x (Cert.Spec.col (Cert.Spec.wrapIdx s)))

def degOf (d : IVec S196608 32) : FVec F S12288 .f32 :=
  Host.scatterAdd scatter_S12288_S196608x1_S196608_n_0_0_1
    (broadcastInDim S12288 ![] bcast_S_S12288 (constant (F := F) S_ .f32 0x00000000#32)) (Cert.Spec.col d)
    (broadcastInDim S196608 ![] bcast_S_S196608 (constant (F := F) S_ .f32 0x3F800000#32))

def catFrom (x num : FVec F S12288x128 .f32) (deg : FVec F S12288 .f32) (one : FVec F S_ .f32) : FVec F S12288x256 .f32 :=
  concatenate S12288x256 1 [⟨S12288x128, x⟩, ⟨S12288x128,
    Host.divf num (broadcastInDim S12288x128 ![0, 1] bcast_S12288x1_S12288x128_0_1 (broadcastInDim S12288x1 ![0] bcast_S12288_S12288x1_0
      (maximumf deg (broadcastInDim S12288 ![] bcast_S_S12288 one))))⟩] concatenates_S12288x128_S12288x128_S12288x256_d1

def arFrom (s : IVec S196608 32) (g : FVec F S196608x256 .f32) : FVec F S12288x256 .f32 :=
  Host.scatterAdd scatter_S12288x256_S196608x1_S196608x256_1_0_0_1
    (broadcastInDim S12288x256 ![] bcast_S_S12288x256 (constant (F := F) S_ .f32 0x00000000#32)) (Cert.Spec.col s) g

def gatherAt (S : FVec F S12288x256 .f32) (d : IVec S196608 32) : FVec F S196608x256 .f32 :=
  Host.gather gather_S12288x256_S196608x1_S196608x256_1_0_n_n_0_1_1256 S (Cert.Spec.col (Cert.Spec.wrapIdx d))

theorem catFrom_eq (x : FVec F S12288x128 .f32) (s d : IVec S196608 32) :
    catFrom x (numOf x s d) (degOf d) (constant (F := F) S_ .f32 0x3F800000#32) = Cert.Spec.catOf x s d := by
  unfold catFrom numOf degOf Cert.Spec.catOf Cert.Spec.aggOf
  rfl

theorem arFrom_eq (S : FVec F S12288x256 .f32) (s d : IVec S196608 32) :
    arFrom s (gatherAt S d) = Cert.Spec.arOf S s d := by
  unfold arFrom gatherAt Cert.Spec.arOf
  rfl

section Window0
variable (V : Valuation τ sig (Elt F))

theorem s0_keep (r : Ref sig .tc) (h : r ∉ ops0_W) :
    after (ops0 (F := F)) V (Proc.devRef .tc r) = V (Proc.devRef .tc r) :=
  after_of_writes_sub ops0 V ops0_writes h

theorem s0_v1 : after (ops0 (F := F)) V (Proc.devRef .tc main_v1) = Cert.Spec.srcOf (V (Proc.devRef .tc main_arg1)) := by
  after_results_simp
  unfold Cert.Spec.srcOf
  rfl

theorem s0_v3 : after (ops0 (F := F)) V (Proc.devRef .tc main_v3) = Cert.Spec.dstOf (V (Proc.devRef .tc main_arg1)) := by
  after_results_simp
  unfold Cert.Spec.dstOf
  rfl

theorem s0_v32 : after (ops0 (F := F)) V (Proc.devRef .tc main_v32)
      = Cert.Spec.rowNorm128 (Cert.Spec.proj128 (Cert.Spec.catOf (V (Proc.devRef .tc main_arg0)) (Cert.Spec.srcOf (V (Proc.devRef .tc main_arg1))) (Cert.Spec.dstOf (V (Proc.devRef .tc main_arg1)))) (V (Proc.devRef .tc main_arg3)) (V (Proc.devRef .tc main_arg4))) := by
  after_results_simp
  unfold Cert.Spec.rowNorm128 Cert.Spec.rowLen128 Cert.Spec.proj128 Cert.Spec.catOf Cert.Spec.aggOf Cert.Spec.col Cert.Spec.wrapIdx Cert.Spec.srcOf Cert.Spec.dstOf
  rfl

theorem s0_v42 : after (ops0 (F := F)) V (Proc.devRef .tc main_v42) = numOf (V (Proc.devRef .tc main_arg0)) (Cert.Spec.srcOf (V (Proc.devRef .tc main_arg1))) (Cert.Spec.dstOf (V (Proc.devRef .tc main_arg1))) := by
  after_results_simp
  unfold numOf Cert.Spec.col Cert.Spec.wrapIdx Cert.Spec.srcOf Cert.Spec.dstOf
  rfl

theorem s0_v46 : after (ops0 (F := F)) V (Proc.devRef .tc main_v46) = degOf (F := F) (Cert.Spec.dstOf (V (Proc.devRef .tc main_arg1))) := by
  after_results_simp
  unfold degOf Cert.Spec.col Cert.Spec.dstOf
  rfl

theorem s0_cst10 : after (ops0 (F := F)) V (Proc.devRef .tc main_cst_10) = constant (F := F) S_ .f32 0x3F800000#32 := by
  after_results_simp

end Window0

section Window1
variable (W : Valuation τ sig (Elt F))

theorem s1_keep (r : Ref sig .tc) (h : r ∉ ops1_W) :
    after (ops1 (F := F)) W (Proc.devRef .tc r) = W (Proc.devRef .tc r) :=
  after_of_writes_sub ops1 W ops1_writes h

theorem s1_v69 : after (ops1 (F := F)) W (Proc.devRef .tc main_v69) = (Cert.Spec.maskOf (F := F) (W (Proc.devRef .tc main_arg2))) := by
  after_results_simp
  unfold Cert.Spec.maskOf Cert.Spec.colGraph
  rfl

theorem s1_v88 : after (ops1 (F := F)) W (Proc.devRef .tc main_v88) = (Cert.Spec.assignOf (Cert.Spec.rowNorm256 (Cert.Spec.proj256 (catFrom (W (Proc.devRef .tc main_arg0)) (W (Proc.devRef .tc main_v42)) (W (Proc.devRef .tc main_v46)) (W (Proc.devRef .tc main_cst_10))) (W (Proc.devRef .tc main_arg5)) (W (Proc.devRef .tc main_arg6)))) (Cert.Spec.maskOf (F := F) (W (Proc.devRef .tc main_arg2)))) := by
  after_results_simp
  unfold Cert.Spec.assignOf Cert.Spec.softMasked Cert.Spec.wide Cert.Spec.rowNorm256 Cert.Spec.rowLen256 Cert.Spec.proj256 catFrom Cert.Spec.maskOf Cert.Spec.colGraph
  rfl

theorem s1_v90 : after (ops1 (F := F)) W (Proc.devRef .tc main_v90) = Cert.Spec.pool128 (Cert.Spec.assignOf (Cert.Spec.rowNorm256 (Cert.Spec.proj256 (catFrom (W (Proc.devRef .tc main_arg0)) (W (Proc.devRef .tc main_v42)) (W (Proc.devRef .tc main_v46)) (W (Proc.devRef .tc main_cst_10))) (W (Proc.devRef .tc main_arg5)) (W (Proc.devRef .tc main_arg6)))) (Cert.Spec.maskOf (F := F) (W (Proc.devRef .tc main_arg2)))) (W (Proc.devRef .tc main_v32)) := by
  after_results_simp
  unfold Cert.Spec.pool128 Cert.Spec.tr Cert.Spec.assignOf Cert.Spec.softMasked Cert.Spec.wide Cert.Spec.rowNorm256 Cert.Spec.rowLen256 Cert.Spec.proj256 catFrom Cert.Spec.maskOf Cert.Spec.colGraph
  rfl

theorem s1_v97 : after (ops1 (F := F)) W (Proc.devRef .tc main_v97) = gatherAt (Cert.Spec.assignOf (Cert.Spec.rowNorm256 (Cert.Spec.proj256 (catFrom (W (Proc.devRef .tc main_arg0)) (W (Proc.devRef .tc main_v42)) (W (Proc.devRef .tc main_v46)) (W (Proc.devRef .tc main_cst_10))) (W (Proc.devRef .tc main_arg5)) (W (Proc.devRef .tc main_arg6)))) (Cert.Spec.maskOf (F := F) (W (Proc.devRef .tc main_arg2)))) (W (Proc.devRef .tc main_v3)) := by
  after_results_simp
  unfold gatherAt Cert.Spec.col Cert.Spec.wrapIdx Cert.Spec.assignOf Cert.Spec.softMasked Cert.Spec.wide Cert.Spec.rowNorm256 Cert.Spec.rowLen256 Cert.Spec.proj256 catFrom Cert.Spec.maskOf Cert.Spec.colGraph
  rfl

end Window1

section Window2
variable (X : Valuation τ sig (Elt F))

theorem s2_keep (r : Ref sig .tc) (h : r ∉ ops2_W) :
    after (ops2 (F := F)) X (Proc.devRef .tc r) = X (Proc.devRef .tc r) :=
  after_of_writes_sub ops2 X ops2_writes h

theorem s2_v102 : after (ops2 (F := F)) X (Proc.devRef .tc main_v102)
      = Cert.Spec.pool256 (X (Proc.devRef .tc main_v88)) (arFrom (X (Proc.devRef .tc main_v1)) (X (Proc.devRef .tc main_v97))) := by
  after_results_simp
  unfold Cert.Spec.pool256 Cert.Spec.tr arFrom Cert.Spec.col
  rfl

theorem s2_v123 : after (ops2 (F := F)) X (Proc.devRef .tc main_v123)
      = Cert.Spec.lossR (Cert.Spec.denseOf (Cert.Spec.wrapIdx (X (Proc.devRef .tc main_v1))) (Cert.Spec.wrapIdx (X (Proc.devRef .tc main_v3)))) (X (Proc.devRef .tc main_v88)) := by
  after_results_simp
  unfold Cert.Spec.lossR Cert.Spec.denseOf Cert.Spec.tr Cert.Spec.wrapIdx
  rfl

theorem s2_v138 : after (ops2 (F := F)) X (Proc.devRef .tc main_v138) = Cert.Spec.entropyOf (X (Proc.devRef .tc main_v69)) := by
  after_results_simp
  unfold Cert.Spec.entropyOf Cert.Spec.splat Cert.Spec.wide
  rfl

end Window2

section Results
variable (V : Valuation τ sig (Elt F))

abbrev srcV : IVec S196608 32 := Cert.Spec.srcOf (V (Proc.devRef .tc main_arg1))

abbrev dstV : IVec S196608 32 := Cert.Spec.dstOf (V (Proc.devRef .tc main_arg1))

abbrev catV : FVec F S12288x256 .f32 := Cert.Spec.catOf (V (Proc.devRef .tc main_arg0)) (srcV V) (dstV V)

abbrev EV : FVec F S12288x128 .f32 := Cert.Spec.rowNorm128 (Cert.Spec.proj128 (catV V) (V (Proc.devRef .tc main_arg3)) (V (Proc.devRef .tc main_arg4)))

abbrev maskV : FVec F S12288x256 .f32 := Cert.Spec.maskOf (V (Proc.devRef .tc main_arg2))

abbrev SV : FVec F S12288x256 .f32 := Cert.Spec.assignOf (Cert.Spec.rowNorm256 (Cert.Spec.proj256 (catV V) (V (Proc.devRef .tc main_arg5)) (V (Proc.devRef .tc main_arg6)))) (maskV V)

theorem v102_eq : after (ops (F := F)) V (Proc.devRef .tc main_v102) = Cert.Spec.pool256 (SV V) (Cert.Spec.arOf (SV V) (srcV V) (dstV V)) := by
  rw [show (ops (F := F)) = ops0 ++ (ops1 ++ ops2) from rfl, after_append, after_append]
  rw [s2_v102, s1_v88, s1_v97, s1_keep _ main_v1 (by decide)]
  rw [s0_v1, s0_v3, s0_v42, s0_v46, s0_cst10, s0_keep _ main_arg0 (by decide), s0_keep _ main_arg2 (by decide), s0_keep _ main_arg5 (by decide), s0_keep _ main_arg6 (by decide)]
  rw [catFrom_eq, arFrom_eq]

theorem v90_eq : after (ops (F := F)) V (Proc.devRef .tc main_v90) = Cert.Spec.pool128 (SV V) (EV V) := by
  rw [show (ops (F := F)) = ops0 ++ (ops1 ++ ops2) from rfl, after_append, after_append]
  rw [s2_keep _ main_v90 (by decide), s1_v90]
  rw [s0_v32, s0_v42, s0_v46, s0_cst10, s0_keep _ main_arg0 (by decide), s0_keep _ main_arg2 (by decide), s0_keep _ main_arg5 (by decide), s0_keep _ main_arg6 (by decide)]
  rw [catFrom_eq]

theorem v123_eq : after (ops (F := F)) V (Proc.devRef .tc main_v123)
      = Cert.Spec.lossR (Cert.Spec.denseOf (Cert.Spec.wrapIdx (srcV V)) (Cert.Spec.wrapIdx (dstV V))) (SV V) := by
  rw [show (ops (F := F)) = ops0 ++ (ops1 ++ ops2) from rfl, after_append, after_append]
  rw [s2_v123, s1_v88, s1_keep _ main_v1 (by decide), s1_keep _ main_v3 (by decide)]
  rw [s0_v1, s0_v3, s0_v42, s0_v46, s0_cst10, s0_keep _ main_arg0 (by decide), s0_keep _ main_arg2 (by decide), s0_keep _ main_arg5 (by decide), s0_keep _ main_arg6 (by decide)]
  rw [catFrom_eq]

theorem v138_eq : after (ops (F := F)) V (Proc.devRef .tc main_v138) = Cert.Spec.entropyOf (maskV V) := by
  rw [show (ops (F := F)) = ops0 ++ (ops1 ++ ops2) from rfl, after_append, after_append]
  rw [s2_v138, s1_v69, s0_keep _ main_arg2 (by decide)]

end Results

theorem results (m : (ℓ : Loc nD τ sig) → Buf (Elt F) ℓ) (c : Dev nD) :
    Vfin m c main_v102 = Cert.Spec.pool256 (SV (launchContents m c)) (Cert.Spec.arOf (SV (launchContents m c)) (srcV (launchContents m c)) (dstV (launchContents m c)))
    ∧ Vfin m c main_v90 = Cert.Spec.pool128 (SV (launchContents m c)) (EV (launchContents m c))
    ∧ Vfin m c main_v123 = Cert.Spec.lossR (Cert.Spec.denseOf (Cert.Spec.wrapIdx (srcV (launchContents m c))) (Cert.Spec.wrapIdx (dstV (launchContents m c)))) (SV (launchContents m c))
    ∧ Vfin m c main_v138 = Cert.Spec.entropyOf (maskV (launchContents m c)) :=
  ⟨v102_eq _, v90_eq _, v123_eq _, v138_eq _⟩

end Cert.RefVals

end
-- ==== Proof.PreFacts.lean ====
import proofs.«118921_j70214125355087_2_alg».proof.Pre_finite_inputs
import Idealize.ShloMosaic.PureOps.Ideal
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

instance : Subsingleton S_.Idx := ⟨fun a b => funext fun d => d.elim0⟩

variable [Cert.Pre_finite_inputs.Facts]

theorem elementwise {F : FTy → Type} [FloatOps F]
    (a0 : FVec F S12288x128 .f32) (a1 : IVec S2x196608 32) (a2 : IVec S12288 32) (a3 : FVec F S256x128 .f32)
    (a4 : FVec F S128 .f32) (a5 : FVec F S256x256 .f32) (a6 : FVec F S256 .f32)
    (h : Cert.Pre_finite_inputs.fn (F := F) a0 a1 a2 a3 a4 a5 a6 = fun _ => 1#1) :
    (∀ i, FloatOps.cmpf .olt (FloatOps.hostAbsf (a0 i)) (FloatOps.ofBits .f32 0x7F800000#32) = 1#1)
    ∧ (∀ i, FloatOps.cmpf .olt (FloatOps.hostAbsf (a3 i)) (FloatOps.ofBits .f32 0x7F800000#32) = 1#1)
    ∧ (∀ i, FloatOps.cmpf .olt (FloatOps.hostAbsf (a4 i)) (FloatOps.ofBits .f32 0x7F800000#32) = 1#1)
    ∧ (∀ i, FloatOps.cmpf .olt (FloatOps.hostAbsf (a5 i)) (FloatOps.ofBits .f32 0x7F800000#32) = 1#1)
    ∧ (∀ i, FloatOps.cmpf .olt (FloatOps.hostAbsf (a6 i)) (FloatOps.ofBits .f32 0x7F800000#32) = 1#1)
    ∧ (∀ i, IntOp.cmpi .sge (a1 i) 0#32 = 1#1 ∧ IntOp.cmpi .slt (a1 i) 12288#32 = 1#1) := by
  have e := congrFun h ValueIdx.ix0
  dsimp only [Cert.Pre_finite_inputs.fn, Cert.Pre_finite_inputs.fn_part1, andi] at e
  simp only [IntOp.andi_eq_one] at e
  obtain ⟨⟨⟨⟨⟨h0, h3⟩, h4⟩, h5⟩, h6⟩, h1⟩ := e
  refine ⟨fun i => ?_, fun i => ?_, fun i => ?_, fun i => ?_, fun i => ?_, fun i => ?_⟩
  · exact Host.reduce_andi_all _ _ _ _ _ h0 i
  · exact Host.reduce_andi_all _ _ _ _ _ h3 i
  · exact Host.reduce_andi_all _ _ _ _ _ h4 i
  · exact Host.reduce_andi_all _ _ _ _ _ h5 i
  · exact Host.reduce_andi_all _ _ _ _ _ h6 i
  · exact IntOp.andi_eq_one.1 (Host.reduce_andi_all _ _ _ _ _ h1 i)

theorem inf_bits : Ideal.ofBits .f32 0x7F800000#32 = (⊤ : EReal) := by
  simp [Ideal.ofBits, Ideal.ieee]

theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  change Ideal.cmp .olt (max x (-x)) (Ideal.ofBits .f32 0x7F800000#32) = 1#1 at h
  rw [inf_bits] at h
  induction x using EReal.rec with
  | bot => simp [Ideal.cmp] at h
  | coe r => exact ⟨r, rfl⟩
  | top => simp [Ideal.cmp] at h

theorem range_of_cmp (w : BitVec 32) (h0 : IntOp.cmpi .sge w 0#32 = 1#1) (h1 : IntOp.cmpi .slt w 12288#32 = 1#1) :
    0 ≤ w.toInt ∧ w.toInt < 12288 := by
  simp only [IntOp.cmpi, StableHlo.Predicate.ofBool_eq_one_iff, BitVec.sle, BitVec.slt, decide_eq_true_eq] at h0 h1
  have e0 : (0#32 : BitVec 32).toInt = 0 := by decide
  have e1 : (12288#32 : BitVec 32).toInt = 12288 := by decide
  rw [e0] at h0; rw [e1] at h1
  exact ⟨h0, h1⟩

section Decoded

variable (a0 : FVec Ideal S12288x128 .f32) (a1 : IVec S2x196608 32) (a2 : IVec S12288 32) (a3 : FVec Ideal S256x128 .f32)
  (a4 : FVec Ideal S128 .f32) (a5 : FVec Ideal S256x256 .f32) (a6 : FVec Ideal S256 .f32)

theorem real_arg0 (h : Cert.Pre_finite_inputs.fn (F := Ideal) a0 a1 a2 a3 a4 a5 a6 = fun _ => 1#1) :
    ∀ i, ∃ r : ℝ, a0 i = (r : EReal) :=
  fun i => real_of_abs_lt _ ((elementwise a0 a1 a2 a3 a4 a5 a6 h).1 i)

theorem real_arg3 (h : Cert.Pre_finite_inputs.fn (F := Ideal) a0 a1 a2 a3 a4 a5 a6 = fun _ => 1#1) :
    ∀ i, ∃ r : ℝ, a3 i = (r : EReal) :=
  fun i => real_of_abs_lt _ ((elementwise a0 a1 a2 a3 a4 a5 a6 h).2.1 i)

theorem real_arg4 (h : Cert.Pre_finite_inputs.fn (F := Ideal) a0 a1 a2 a3 a4 a5 a6 = fun _ => 1#1) :
    ∀ i, ∃ r : ℝ, a4 i = (r : EReal) :=
  fun i => real_of_abs_lt _ ((elementwise a0 a1 a2 a3 a4 a5 a6 h).2.2.1 i)

theorem real_arg5 (h : Cert.Pre_finite_inputs.fn (F := Ideal) a0 a1 a2 a3 a4 a5 a6 = fun _ => 1#1) :
    ∀ i, ∃ r : ℝ, a5 i = (r : EReal) :=
  fun i => real_of_abs_lt _ ((elementwise a0 a1 a2 a3 a4 a5 a6 h).2.2.2.1 i)

theorem real_arg6 (h : Cert.Pre_finite_inputs.fn (F := Ideal) a0 a1 a2 a3 a4 a5 a6 = fun _ => 1#1) :
    ∀ i, ∃ r : ℝ, a6 i = (r : EReal) :=
  fun i => real_of_abs_lt _ ((elementwise a0 a1 a2 a3 a4 a5 a6 h).2.2.2.2.1 i)

end Decoded

theorem edge_range {F : FTy → Type} [FloatOps F]
    (a0 : FVec F S12288x128 .f32) (a1 : IVec S2x196608 32) (a2 : IVec S12288 32) (a3 : FVec F S256x128 .f32)
    (a4 : FVec F S128 .f32) (a5 : FVec F S256x256 .f32) (a6 : FVec F S256 .f32)
    (h : Cert.Pre_finite_inputs.fn (F := F) a0 a1 a2 a3 a4 a5 a6 = fun _ => 1#1) :
    ∀ i, 0 ≤ (a1 i).toInt ∧ (a1 i).toInt < 12288 :=
  fun i => range_of_cmp _ ((elementwise a0 a1 a2 a3 a4 a5 a6 h).2.2.2.2.2 i).1 ((elementwise a0 a1 a2 a3 a4 a5 a6 h).2.2.2.2.2 i).2

theorem of_pre (a0 : FVec Ideal S12288x128 .f32) (a1 : IVec S2x196608 32) (a2 : IVec S12288 32) (a3 : FVec Ideal S256x128 .f32)
    (a4 : FVec Ideal S128 .f32) (a5 : FVec Ideal S256x256 .f32) (a6 : FVec Ideal S256 .f32)
    (h : Cert.Pre_finite_inputs.fn (F := Ideal) a0 a1 a2 a3 a4 a5 a6 = fun _ => 1#1) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal))
    ∧ (∀ i, 0 ≤ (a1 i).toInt ∧ (a1 i).toInt < 12288) :=
  ⟨real_arg0 a0 a1 a2 a3 a4 a5 a6 h, real_arg3 a0 a1 a2 a3 a4 a5 a6 h, real_arg4 a0 a1 a2 a3 a4 a5 a6 h,
   real_arg5 a0 a1 a2 a3 a4 a5 a6 h, real_arg6 a0 a1 a2 a3 a4 a5 a6 h, edge_range a0 a1 a2 a3 a4 a5 a6 h⟩

abbrev S1x196608 : Shape := ⟨2, ![1, 196608]⟩
abbrev S196608 : Shape := ⟨1, ![196608]⟩

end Cert.PreFacts

end
-- ==== Proof.Fused.lean ====
import proofs.«118921_j70214125355087_2_alg».proof.Proof.Spec
import Idealize.ShloMosaic.Lib.StackMember
import Idealize.ShloMosaic.Lib.ValueLayout

noncomputable section

namespace Cert.Fused

open Idealize.ShloMosaic Idealize.ShloMosaic.ValueIdx Idealize.ShloMosaic.StackMember

section Layout
variable {α : Type}

theorem rowOfVec_apply {m n : Nat} (h0 : (⟨1, ![n]⟩ : Shape).BroadcastsInDim ⟨2, ![1, n]⟩ ![1])
    (h1 : (⟨2, ![1, n]⟩ : Shape).BroadcastsInDim ⟨2, ![m, n]⟩ ![0, 1]) (v : (⟨1, ![n]⟩ : Shape).Idx → α)
    (r : Fin m) (t : Fin n) :
    broadcastInDim ⟨2, ![m, n]⟩ ![0, 1] h1 (broadcastInDim ⟨2, ![1, n]⟩ ![1] h0 v) (ix2 r t) = v (ix1 t) := by
  rw [broadcastInDim_oneRow_apply]
  refine broadcastInDim_apply ![1] h0 v (ix2 (0 : Fin 1) t) (ix1 t) ?_
  intro a
  match a with
  | ⟨0, _⟩ =>
    show t.val = if n = 1 then 0 else t.val
    split_ifs with hn
    · have := t.isLt; omega
    · rfl

theorem catVec_left {n₁ n₂ n : Nat} (h : Shape.Concatenates [(⟨1, ![n₁]⟩ : Shape), ⟨1, ![n₂]⟩] ⟨1, ![n]⟩ 0)
    (x₁ : (⟨1, ![n₁]⟩ : Shape).Idx → α) (x₂ : (⟨1, ![n₂]⟩ : Shape).Idx → α) (q : Fin n₁) (k : Fin n)
    (hk : k.val = q.val) :
    concatenate ⟨1, ![n]⟩ 0 [⟨⟨1, ![n₁]⟩, x₁⟩, ⟨⟨1, ![n₂]⟩, x₂⟩] h (ix1 k) = x₁ (ix1 q) := by
  refine concatenate_pair_apply_left 0 x₁ x₂ h (ix1 k) rfl (ix1 q) ?_
  intro b
  match b with
  | ⟨0, _⟩ => exact hk.symm

theorem catVec_right {n₁ n₂ n : Nat} (h : Shape.Concatenates [(⟨1, ![n₁]⟩ : Shape), ⟨1, ![n₂]⟩] ⟨1, ![n]⟩ 0)
    (x₁ : (⟨1, ![n₁]⟩ : Shape).Idx → α) (x₂ : (⟨1, ![n₂]⟩ : Shape).Idx → α) (q : Fin n₂) (k : Fin n)
    (hk : k.val = n₁ + q.val) :
    concatenate ⟨1, ![n]⟩ 0 [⟨⟨1, ![n₁]⟩, x₁⟩, ⟨⟨1, ![n₂]⟩, x₂⟩] h (ix1 k) = x₂ (ix1 q) := by
  refine concatenate_pair_apply_right 0 x₁ x₂ h (ix1 k) rfl rfl (ix1 q) ?_ ?_
  · intro b hb
    match b with
    | ⟨0, _⟩ => exact absurd rfl hb
  · show q.val + n₁ = k.val
    omega

theorem catCols_left {m n₁ n₂ n : Nat}
    (h : Shape.Concatenates [(⟨2, ![m, n₁]⟩ : Shape), ⟨2, ![m, n₂]⟩] ⟨2, ![m, n]⟩ 1)
    (x₁ : (⟨2, ![m, n₁]⟩ : Shape).Idx → α) (x₂ : (⟨2, ![m, n₂]⟩ : Shape).Idx → α) (c : Fin m) (q : Fin n₁)
    (k : Fin n) (hk : k.val = q.val) :
    concatenate ⟨2, ![m, n]⟩ 1 [⟨⟨2, ![m, n₁]⟩, x₁⟩, ⟨⟨2, ![m, n₂]⟩, x₂⟩] h (ix2 c k) = x₁ (ix2 c q) := by
  refine concatenate_pair_apply_left 1 x₁ x₂ h (ix2 c k) rfl (ix2 c q) ?_
  intro b
  match b with
  | ⟨0, _⟩ => rfl
  | ⟨1, _⟩ => exact hk.symm

theorem catCols_right {m n₁ n₂ n : Nat}
    (h : Shape.Concatenates [(⟨2, ![m, n₁]⟩ : Shape), ⟨2, ![m, n₂]⟩] ⟨2, ![m, n]⟩ 1)
    (x₁ : (⟨2, ![m, n₁]⟩ : Shape).Idx → α) (x₂ : (⟨2, ![m, n₂]⟩ : Shape).Idx → α) (c : Fin m) (q : Fin n₂)
    (k : Fin n) (hk : k.val = n₁ + q.val) :
    concatenate ⟨2, ![m, n]⟩ 1 [⟨⟨2, ![m, n₁]⟩, x₁⟩, ⟨⟨2, ![m, n₂]⟩, x₂⟩] h (ix2 c k) = x₂ (ix2 c q) := by
  refine concatenate_pair_apply_right 1 x₁ x₂ h (ix2 c k) rfl rfl (ix2 c q) ?_ ?_
  · intro b hb
    match b with
    | ⟨0, _⟩ => rfl
    | ⟨1, _⟩ => exact absurd rfl hb
  · show q.val + n₁ = k.val
    omega

end Layout

theorem dot_apply {m k n : Nat} (D : DotDims ⟨2, ![m, k]⟩ ⟨2, ![k, n]⟩ ⟨2, ![m, n]⟩) (hD : D = DotDims.plain m k n)
    (A : FVec Ideal ⟨2, ![m, k]⟩ .f32) (B : FVec Ideal ⟨2, ![k, n]⟩ .f32) (a : Fin m) (b : Fin n) :
    Host.dotGeneral D none A B (ix2 a b) = ∑ c : Fin k, A (ix2 a c) * B (ix2 c b) := by
  subst hD
  exact dotGeneral_plain_apply none A B a b

section Cuts
variable [Cert.KernelIdeal.Facts] [Cert.ReferenceIdeal.Facts]

theorem fusedOf_apply (cat : FVec Ideal Cert.KernelIdeal.S12288x256 .f32) (W1 : FVec Ideal Cert.KernelIdeal.S256x128 .f32)
    (b1 : FVec Ideal Cert.KernelIdeal.S128 .f32) (W2 : FVec Ideal Cert.KernelIdeal.S256x256 .f32)
    (b2 : FVec Ideal Cert.KernelIdeal.S256 .f32) (p : Fin 12288) (k : Fin 384) :
    Spec.fusedOf cat W1 b1 W2 b2 (ix2 p k) =
      (∑ c : Fin 256, cat (ix2 p c) *
        concatenate Cert.KernelIdeal.S256x384 1 [⟨Cert.KernelIdeal.S256x128, W1⟩, ⟨Cert.KernelIdeal.S256x256, W2⟩]
          Cert.KernelIdeal.Facts₀.concatenates_S256x128_S256x256_S256x384_d1 (ix2 c k)) +
      concatenate Cert.KernelIdeal.S384 0 [⟨Cert.KernelIdeal.S128, b1⟩, ⟨Cert.KernelIdeal.S256, b2⟩]
        Cert.KernelIdeal.Facts₀.concatenates_S128_S256_S384_d0 (ix1 k) := by
  unfold Spec.fusedOf
  rw [addf_apply, dot_apply Cert.KernelIdeal.dot_S12288x256_S256x384_S12288x384_1_0_0_1_n_n rfl, rowOfVec_apply]

-- The first 128 columns of the product with the weights side by side are the product with the first weights, entry by entry.
theorem left_eq (cat : FVec Ideal Cert.KernelIdeal.S12288x256 .f32) (W1 : FVec Ideal Cert.KernelIdeal.S256x128 .f32)
    (b1 : FVec Ideal Cert.KernelIdeal.S128 .f32) (W2 : FVec Ideal Cert.KernelIdeal.S256x256 .f32)
    (b2 : FVec Ideal Cert.KernelIdeal.S256 .f32) :
    Spec.fusedLeft (Spec.fusedOf cat W1 b1 W2 b2) = Spec.proj128 cat W1 b1 := by
  funext j
  obtain ⟨p, q, rfl⟩ : ∃ (p : Fin 12288) (q : Fin 128), j = ix2 p q := ⟨j 0, j 1, eq_ix2 j⟩
  have hq : q.val < 384 := by have := q.isLt; omega
  unfold Spec.fusedLeft
  rw [slice2_axis1_apply 0 _ _ p q ⟨q.val, hq⟩ (by simp), fusedOf_apply]
  unfold Spec.proj128
  rw [addf_apply, dot_apply Cert.ReferenceIdeal.dot_S12288x256_S256x128_S12288x128_1_0_0_1_n_n rfl, rowOfVec_apply, catVec_left _ b1 b2 q ⟨q.val, hq⟩ rfl]
  congr 1
  refine Finset.sum_congr rfl fun c _ => ?_
  rw [catCols_left _ W1 W2 c q ⟨q.val, hq⟩ rfl]

theorem right_eq (cat : FVec Ideal Cert.KernelIdeal.S12288x256 .f32) (W1 : FVec Ideal Cert.KernelIdeal.S256x128 .f32)
    (b1 : FVec Ideal Cert.KernelIdeal.S128 .f32) (W2 : FVec Ideal Cert.KernelIdeal.S256x256 .f32)
    (b2 : FVec Ideal Cert.KernelIdeal.S256 .f32) :
    Spec.fusedRight (Spec.fusedOf cat W1 b1 W2 b2) = Spec.proj256 cat W2 b2 := by
  funext j
  obtain ⟨p, q, rfl⟩ : ∃ (p : Fin 12288) (q : Fin 256), j = ix2 p q := ⟨j 0, j 1, eq_ix2 j⟩
  have hq : 128 + q.val < 384 := by have := q.isLt; omega
  unfold Spec.fusedRight
  rw [slice2_axis1_apply 128 _ _ p q ⟨128 + q.val, hq⟩ rfl, fusedOf_apply]
  unfold Spec.proj256
  rw [addf_apply, dot_apply Cert.ReferenceIdeal.dot_S12288x256_S256x256_S12288x256_1_0_0_1_n_n rfl, rowOfVec_apply, catVec_right _ b1 b2 q ⟨128 + q.val, hq⟩ rfl]
  congr 1
  refine Finset.sum_congr rfl fun c _ => ?_
  rw [catCols_right _ W1 W2 c q ⟨128 + q.val, hq⟩ rfl]

end Cuts

end Cert.Fused

end
-- ==== Proof.FrobAlg.lean ====
import Mathlib.Data.Real.Basic
import Mathlib.Data.Fintype.BigOperators
import Mathlib.Algebra.BigOperators.Ring.Finset
import Mathlib.Algebra.Order.BigOperators.Ring.Finset
import Mathlib.Algebra.Order.BigOperators.Group.Finset
import Mathlib.Tactic.Ring
import Mathlib.Tactic.Linarith

namespace Cert.FrobAlg

open Finset

variable {E I K : Type} [Fintype E] [Fintype I] [Fintype K]

def G (S : I → K → ℝ) (k l : K) : ℝ := ∑ i, S i k * S i l

theorem sum_comm4 (t : I → I → K → K → ℝ) :
    ∑ i, ∑ j, ∑ k, ∑ l, t i j k l = ∑ k, ∑ l, ∑ i, ∑ j, t i j k l := by
  calc ∑ i, ∑ j, ∑ k, ∑ l, t i j k l
      = ∑ i, ∑ k, ∑ j, ∑ l, t i j k l := Finset.sum_congr rfl fun i _ => Finset.sum_comm
    _ = ∑ k, ∑ i, ∑ j, ∑ l, t i j k l := Finset.sum_comm
    _ = ∑ k, ∑ i, ∑ l, ∑ j, t i j k l :=
        Finset.sum_congr rfl fun k _ => Finset.sum_congr rfl fun i _ => Finset.sum_comm
    _ = ∑ k, ∑ l, ∑ i, ∑ j, t i j k l := Finset.sum_congr rfl fun k _ => Finset.sum_comm

theorem sum_gram_sq (S : I → K → ℝ) :
    ∑ i, ∑ j, (∑ k, S i k * S j k) * (∑ k, S i k * S j k) = ∑ k, ∑ l, G S k l * G S k l := by
  have hL : ∀ i j, (∑ k, S i k * S j k) * (∑ k, S i k * S j k)
      = ∑ k, ∑ l, (S i k * S j k) * (S i l * S j l) := fun i j => Finset.sum_mul_sum _ _ _ _
  have hR : ∀ k l, G S k l * G S k l
      = ∑ i, ∑ j, (S i k * S j k) * (S i l * S j l) := by
    intro k l
    unfold G
    rw [Finset.sum_mul_sum]
    refine Finset.sum_congr rfl fun i _ => Finset.sum_congr rfl fun j _ => ?_
    ring
  calc ∑ i, ∑ j, (∑ k, S i k * S j k) * (∑ k, S i k * S j k)
      = ∑ i, ∑ j, ∑ k, ∑ l, (S i k * S j k) * (S i l * S j l) :=
        Finset.sum_congr rfl fun i _ => Finset.sum_congr rfl fun j _ => hL i j
    _ = ∑ k, ∑ l, ∑ i, ∑ j, (S i k * S j k) * (S i l * S j l) :=
        sum_comm4 (fun i j k l => (S i k * S j k) * (S i l * S j l))
    _ = ∑ k, ∑ l, G S k l * G S k l :=
        Finset.sum_congr rfl fun k _ => Finset.sum_congr rfl fun l _ => (hR k l).symm

variable [DecidableEq I]

def A (s d : E → I) (i j : I) : ℝ :=
  ((Finset.univ.filter fun e => s e = i ∧ d e = j).card : ℝ)

def Ar (s d : E → I) (S : I → K → ℝ) (i : I) (k : K) : ℝ :=
  ∑ e ∈ Finset.univ.filter (fun e => s e = i), S (d e) k

theorem A_eq_sum (s d : E → I) (i j : I) :
    A s d i j = ∑ e, (if s e = i ∧ d e = j then (1 : ℝ) else 0) := by
  unfold A
  rw [Finset.sum_boole]

theorem sum_A_mul (s d : E → I) (F : I → I → ℝ) :
    ∑ i, ∑ j, A s d i j * F i j = ∑ e, F (s e) (d e) := by
  have h1 : ∀ i j, A s d i j * F i j
      = ∑ e, (if d e = j then (if s e = i then F i j else 0) else 0) := by
    intro i j
    rw [A_eq_sum, Finset.sum_mul]
    refine Finset.sum_congr rfl fun e _ => ?_
    by_cases h1 : s e = i <;> by_cases h2 : d e = j <;> simp [h1, h2]
  calc ∑ i, ∑ j, A s d i j * F i j
      = ∑ i, ∑ j, ∑ e, (if d e = j then (if s e = i then F i j else 0) else 0) :=
        Finset.sum_congr rfl fun i _ => Finset.sum_congr rfl fun j _ => h1 i j
    _ = ∑ i, ∑ e, ∑ j, (if d e = j then (if s e = i then F i j else 0) else 0) :=
        Finset.sum_congr rfl fun i _ => Finset.sum_comm
    _ = ∑ e, ∑ i, ∑ j, (if d e = j then (if s e = i then F i j else 0) else 0) :=
        Finset.sum_comm
    _ = ∑ e, F (s e) (d e) := by
        refine Finset.sum_congr rfl fun e _ => ?_
        simp [Finset.sum_ite_eq]

-- Σ A[i,j]² counts the ordered pairs of edges with the same two ends.
theorem sum_A_sq (s d : E → I) :
    ∑ i, ∑ j, A s d i j * A s d i j
      = ((Finset.univ.filter fun p : E × E => s p.1 = s p.2 ∧ d p.1 = d p.2).card : ℝ) := by
  rw [sum_A_mul s d (A s d), ← Finset.sum_boole, Fintype.sum_prod_type]
  refine Finset.sum_congr rfl fun e _ => ?_
  rw [A_eq_sum]
  refine Finset.sum_congr rfl fun f _ => ?_
  have : (s f = s e ∧ d f = d e) ↔ (s e = s f ∧ d e = d f) :=
    ⟨fun h => ⟨h.1.symm, h.2.symm⟩, fun h => ⟨h.1.symm, h.2.symm⟩⟩
  simp only [this]

theorem Ar_eq_sum (s d : E → I) (S : I → K → ℝ) (i : I) (k : K) :
    Ar s d S i k = ∑ e, (if s e = i then S (d e) k else 0) := by
  unfold Ar
  rw [Finset.sum_filter]

theorem sum_A_mul_gram (s d : E → I) (S : I → K → ℝ) :
    ∑ i, ∑ j, A s d i j * (∑ k, S i k * S j k) = ∑ i, ∑ k, S i k * Ar s d S i k := by
  rw [sum_A_mul s d (fun i j => ∑ k, S i k * S j k)]
  have h2 : ∀ i k, S i k * Ar s d S i k
      = ∑ e, (if s e = i then S i k * S (d e) k else 0) := by
    intro i k
    rw [Ar_eq_sum, Finset.mul_sum]
    refine Finset.sum_congr rfl fun e _ => ?_
    by_cases h : s e = i <;> simp [h]
  symm
  calc ∑ i, ∑ k, S i k * Ar s d S i k
      = ∑ i, ∑ k, ∑ e, (if s e = i then S i k * S (d e) k else 0) :=
        Finset.sum_congr rfl fun i _ => Finset.sum_congr rfl fun k _ => h2 i k
    _ = ∑ i, ∑ e, ∑ k, (if s e = i then S i k * S (d e) k else 0) :=
        Finset.sum_congr rfl fun i _ => Finset.sum_comm
    _ = ∑ e, ∑ i, ∑ k, (if s e = i then S i k * S (d e) k else 0) := Finset.sum_comm
    _ = ∑ e, ∑ k, S (s e) k * S (d e) k := by
        refine Finset.sum_congr rfl fun e _ => ?_
        have : ∀ i, (∑ k, (if s e = i then S i k * S (d e) k else 0))
            = if s e = i then ∑ k, S i k * S (d e) k else 0 := by
          intro i
          by_cases h : s e = i <;> simp [h]
        simp only [this]
        simp [Finset.sum_ite_eq]

-- ‖A − S Sᵀ‖² = ‖A‖² − 2⟨S, A S⟩ + ‖Sᵀ S‖²: every term is a finite sum of products, rearranged.
theorem frob_expand_mul (s d : E → I) (S : I → K → ℝ) :
    ∑ i, ∑ j, (A s d i j - ∑ k, S i k * S j k) * (A s d i j - ∑ k, S i k * S j k)
      = ((Finset.univ.filter fun p : E × E => s p.1 = s p.2 ∧ d p.1 = d p.2).card : ℝ)
        - 2 * (∑ i, ∑ k, S i k * Ar s d S i k) + ∑ k, ∑ l, G S k l * G S k l := by
  have hcell : ∀ i j, (A s d i j - ∑ k, S i k * S j k) * (A s d i j - ∑ k, S i k * S j k)
      = A s d i j * A s d i j - 2 * (A s d i j * (∑ k, S i k * S j k))
        + (∑ k, S i k * S j k) * (∑ k, S i k * S j k) := fun i j => by ring
  simp only [hcell, Finset.sum_add_distrib, Finset.sum_sub_distrib, ← Finset.mul_sum]
  rw [sum_A_sq, sum_A_mul_gram, sum_gram_sq]

theorem frob_rhs_nonneg (s d : E → I) (S : I → K → ℝ) :
    0 ≤ ((Finset.univ.filter fun p : E × E => s p.1 = s p.2 ∧ d p.1 = d p.2).card : ℝ)
        - 2 * (∑ i, ∑ k, S i k * Ar s d S i k) + ∑ k, ∑ l, G S k l * G S k l := by
  rw [← frob_expand_mul]
  exact Finset.sum_nonneg fun i _ => Finset.sum_nonneg fun j _ => mul_self_nonneg _

theorem frob_rhs_max (s d : E → I) (S : I → K → ℝ) :
    max (((Finset.univ.filter fun p : E × E => s p.1 = s p.2 ∧ d p.1 = d p.2).card : ℝ)
        - 2 * (∑ i, ∑ k, S i k * Ar s d S i k) + ∑ k, ∑ l, G S k l * G S k l) 0
      = ((Finset.univ.filter fun p : E × E => s p.1 = s p.2 ∧ d p.1 = d p.2).card : ℝ)
        - 2 * (∑ i, ∑ k, S i k * Ar s d S i k) + ∑ k, ∑ l, G S k l * G S k l :=
  max_eq_left (frob_rhs_nonneg s d S)

end Cert.FrobAlg
-- ==== Proof.Decode.lean ====
import proofs.«118921_j70214125355087_2_alg».proof.Proof.Spec
import Idealize.ShloMosaic.Lib.ValueIdx
import Idealize.ShloMosaic.PureOps.Ideal.Laws
import Idealize.ShloMosaic.Lib.Pipeline.Value

noncomputable section

open scoped BigOperators

namespace Cert.Decode

open Idealize.ShloMosaic Idealize.ShloMosaic.ValueIdx

variable [Cert.KernelIdeal.Facts] [Cert.ReferenceIdeal.Facts]

def InRange (v : IVec Cert.KernelIdeal.S196608 32) : Prop := ∀ e, 0 ≤ (v e).toInt ∧ (v e).toInt < 12288

def node (w : BitVec 32) : Fin 12288 := ⟨w.toNat % 12288, Nat.mod_lt _ (by norm_num)⟩

def IsReal {S : Shape} (v : S.Idx → EReal) : Prop := ∀ i, ∃ r : ℝ, v i = (r : EReal)

theorem wrapIdx_eq (v : IVec Cert.KernelIdeal.S196608 32) (hv : InRange v) : Cert.Spec.wrapIdx v = v := by
  funext e
  have h0 := (hv e).1
  have hc : IntOp.cmpi .slt (v e) (0#32) = 0#1 := by
    unfold IntOp.cmpi
    have hf : (v e).slt 0#32 = false := by
      rw [BitVec.slt]
      simp only [BitVec.toInt_zero, decide_eq_false_iff_not, not_lt]
      exact h0
    simp only [hf]
    rfl
  show Scalar.select (IntOp.cmpi .slt (v e) (0#32)) _ (v e) = v e
  rw [hc]
  exact select_zero _ _

theorem toNat_of_inRange (w : BitVec 32) (h0 : 0 ≤ w.toInt) (h1 : w.toInt < 12288) :
    w.toInt = ((node w).val : Int) ∧ w.toInt.toNat = (node w).val := by
  have hlt : w.toNat < 2 ^ 32 := w.isLt
  have hi : w.toInt = (w.toNat : Int) := by
    rw [BitVec.toInt_eq_toNat_cond] at h0 ⊢
    split
    · rfl
    · rename_i h
      rw [if_neg h] at h0
      omega
  have hn : w.toNat < 12288 := by omega
  have hm : w.toNat % 12288 = w.toNat := Nat.mod_eq_of_lt hn
  refine ⟨?_, ?_⟩
  · show w.toInt = ((w.toNat % 12288 : Nat) : Int)
    rw [hm, hi]
  · show w.toInt.toNat = w.toNat % 12288
    rw [hm, hi]; rfl

open Cert.KernelIdeal in

theorem col_apply (v : IVec Cert.KernelIdeal.S196608 32) (q : Cert.KernelIdeal.S196608x1.Idx) :
    Cert.Spec.col v q = v (ix1 (q 0)) := by
  unfold Cert.Spec.col broadcastInDim
  congr 1
  funext a
  match a with
  | ⟨0, h0⟩ =>
    have h1 : ¬ S196608.size ⟨0, h0⟩ = 1 := (show ¬ (196608 : Nat) = 1 by decide)
    rw [dif_neg h1]
    rfl

open Cert.KernelIdeal in

theorem scat256_start0 (s : IVec S196608 32) (j : S196608x256.Idx) :
    scatter_S12288x256_S196608x1_S196608x256_1_0_0_1.start j (Cert.Spec.col s) 0 = (s (ix1 (j 0))).toInt := by
  unfold ScatterDims.start
  rw [dif_pos (show (0 : Fin 2) ∈ scatter_S12288x256_S196608x1_S196608x256_1_0_0_1.scatterDimsToOperandDims from List.mem_singleton.mpr rfl)]
  rw [col_apply]
  congr 2

open Cert.KernelIdeal in

theorem scat256_resultIdx (s : IVec S196608 32) (hs : InRange s) (j : S196608x256.Idx) :
    scatter_S12288x256_S196608x1_S196608x256_1_0_0_1.resultIdx? j (Cert.Spec.col s)
      = some (ix2 (node (s (ix1 (j 0)))) (j 1)) := by
  have hst0 := scat256_start0 s j
  have hst1 : scatter_S12288x256_S196608x1_S196608x256_1_0_0_1.start j (Cert.Spec.col s) 1 = 0 := by
    unfold ScatterDims.start
    have h : (1 : Fin 2) ∉ scatter_S12288x256_S196608x1_S196608x256_1_0_0_1.scatterDimsToOperandDims :=
      (show (1 : Fin 2) ∉ ([0] : List (Fin 2)) by decide)
    rw [dif_neg h]
  have hw0 : scatter_S12288x256_S196608x1_S196608x256_1_0_0_1.window j 0 = 0 := by
    unfold ScatterDims.window
    have h : (0 : Fin 2) ∉ scatter_S12288x256_S196608x1_S196608x256_1_0_0_1.sKept :=
      (show (0 : Fin 2) ∉ ([1] : List (Fin 2)) by decide)
    rw [dif_neg h]
  have hw1 : scatter_S12288x256_S196608x1_S196608x256_1_0_0_1.window j 1 = (j 1).val := by
    unfold ScatterDims.window
    have h : (1 : Fin 2) ∈ scatter_S12288x256_S196608x1_S196608x256_1_0_0_1.sKept :=
      (show (1 : Fin 2) ∈ ([1] : List (Fin 2)) by decide)
    rw [dif_pos h]
    rfl
  obtain ⟨hn, -⟩ := toNat_of_inRange _ (hs (ix1 (j 0))).1 (hs (ix1 (j 0))).2
  have key : ∀ a, scatter_S12288x256_S196608x1_S196608x256_1_0_0_1.start j (Cert.Spec.col s) a
      + scatter_S12288x256_S196608x1_S196608x256_1_0_0_1.window j a
      = (((ix2 (node (s (ix1 (j 0)))) (j 1) : S12288x256.Idx) a).val : Int) := by
    intro a
    match a with
    | ⟨0, _⟩ => rw [show (⟨0, _⟩ : Fin 2) = 0 from rfl, hst0, hw0, hn]; simp
    | ⟨1, _⟩ => rw [show (⟨1, _⟩ : Fin 2) = 1 from rfl, hst1, hw1]; simp
  unfold ScatterDims.resultIdx?
  have hall : ∀ a, 0 ≤ scatter_S12288x256_S196608x1_S196608x256_1_0_0_1.start j (Cert.Spec.col s) a
      + scatter_S12288x256_S196608x1_S196608x256_1_0_0_1.window j a
      ∧ scatter_S12288x256_S196608x1_S196608x256_1_0_0_1.start j (Cert.Spec.col s) a
      + scatter_S12288x256_S196608x1_S196608x256_1_0_0_1.window j a < S12288x256.size a := by
    intro a
    rw [key a]
    exact ⟨Int.natCast_nonneg _, Int.ofNat_lt.mpr (Fin.isLt _)⟩
  rw [dif_pos hall]
  congr 1
  funext a
  apply Fin.ext
  show (scatter_S12288x256_S196608x1_S196608x256_1_0_0_1.start j (Cert.Spec.col s) a
      + scatter_S12288x256_S196608x1_S196608x256_1_0_0_1.window j a).toNat = _
  rw [key a]
  exact Int.toNat_natCast _

open Cert.KernelIdeal in

theorem gath256_operandIdx (d : IVec S196608 32) (hd : InRange d) (j : S196608x256.Idx) :
    gather_S12288x256_S196608x1_S196608x256_1_0_n_n_0_1_1256.operandIdx j (Cert.Spec.col d)
      = ix2 (node (d (ix1 (j 0)))) (j 1) := by
  obtain ⟨-, hn⟩ := toNat_of_inRange _ (hd (ix1 (j 0))).1 (hd (ix1 (j 0))).2
  have hst0 : gather_S12288x256_S196608x1_S196608x256_1_0_n_n_0_1_1256.start j (Cert.Spec.col d) 0
      = min (d (ix1 (j 0))).toInt.toNat 12287 := by
    unfold GatherDims.start
    have h : (0 : Fin 2) ∈ gather_S12288x256_S196608x1_S196608x256_1_0_n_n_0_1_1256.startIndexMap :=
      (show (0 : Fin 2) ∈ ([0] : List (Fin 2)) by decide)
    rw [dif_pos h, col_apply]
    rfl
  have hst1 : gather_S12288x256_S196608x1_S196608x256_1_0_n_n_0_1_1256.start j (Cert.Spec.col d) 1 = 0 := by
    unfold GatherDims.start
    have h : (1 : Fin 2) ∉ gather_S12288x256_S196608x1_S196608x256_1_0_n_n_0_1_1256.startIndexMap :=
      (show (1 : Fin 2) ∉ ([0] : List (Fin 2)) by decide)
    rw [dif_neg h]
  have hb : ∀ a : Fin 2, gather_S12288x256_S196608x1_S196608x256_1_0_n_n_0_1_1256.batchCoord j a = 0 := fun a =>
    GatherDims.batchCoord_eq_zero _ _ _ (show a ∉ ([] : List (Fin 2)) from List.not_mem_nil)
  have ho0 : gather_S12288x256_S196608x1_S196608x256_1_0_n_n_0_1_1256.offCoord j 0 = 0 := by
    unfold GatherDims.offCoord
    have h : (0 : Fin 2) ∉ gather_S12288x256_S196608x1_S196608x256_1_0_n_n_0_1_1256.sKept :=
      (show (0 : Fin 2) ∉ ([1] : List (Fin 2)) by decide)
    rw [dif_neg h]
  have ho1 : gather_S12288x256_S196608x1_S196608x256_1_0_n_n_0_1_1256.offCoord j 1 = (j 1).val := by
    unfold GatherDims.offCoord
    have h : (1 : Fin 2) ∈ gather_S12288x256_S196608x1_S196608x256_1_0_n_n_0_1_1256.sKept :=
      (show (1 : Fin 2) ∈ ([1] : List (Fin 2)) by decide)
    rw [dif_pos h]
    rfl
  funext a
  apply Fin.ext
  show gather_S12288x256_S196608x1_S196608x256_1_0_n_n_0_1_1256.start j (Cert.Spec.col d) a
    + gather_S12288x256_S196608x1_S196608x256_1_0_n_n_0_1_1256.batchCoord j a
    + gather_S12288x256_S196608x1_S196608x256_1_0_n_n_0_1_1256.offCoord j a = _
  rw [hb a]
  match a with
  | ⟨0, _⟩ =>
    rw [show (⟨0, _⟩ : Fin 2) = 0 from rfl, hst0, ho0, hn]
    have := (node (d (ix1 (j 0)))).isLt
    show min (node (d (ix1 (j 0)))).val 12287 + 0 + 0 = (node (d (ix1 (j 0)))).val
    omega
  | ⟨1, _⟩ =>
    rw [show (⟨1, _⟩ : Fin 2) = 1 from rfl, hst1, ho1]
    show 0 + 0 + (j 1).val = (j 1).val
    omega

open Cert.KernelIdeal Cert.KernelIdeal.Facts₀ Cert.KernelIdeal.Facts in

theorem arOf_apply (S : Cert.KernelIdeal.S12288x256.Idx → EReal) (s d : IVec Cert.KernelIdeal.S196608 32)
    (hs : InRange s) (hd : InRange d) (i : Fin 12288) (k : Fin 256) :
    Cert.Spec.arOf (F := Ideal) S s d (ix2 i k)
      = ∑ e ∈ Finset.univ.filter (fun e : Cert.KernelIdeal.S196608.Idx => node (s e) = i), S (ix2 (node (d e)) k) := by
  unfold Cert.Spec.arOf Host.scatterAdd
  rw [wrapIdx_eq d hd, Ideal.hostScatterAdd_def]
  unfold Ideal.hostScatterAdd
  have hz : broadcastInDim S12288x256 ![] bcast_S_S12288x256 (constant (F := Ideal) S_ .f32 0x00000000#32) (ix2 i k) = 0 :=
    Ideal.ofBits_zero_f32
  rw [hz, zero_add]
  have hmem : ∀ j : S196608x256.Idx,
      j ∈ Finset.univ.filter (fun j => scatter_S12288x256_S196608x1_S196608x256_1_0_0_1.resultIdx? j (Cert.Spec.col s) = some (ix2 i k))
        ↔ node (s (ix1 (j 0))) = i ∧ j 1 = k := by
    intro j
    rw [Finset.mem_filter, scat256_resultIdx s hs j]
    constructor
    · rintro ⟨-, h⟩
      have h2 := Option.some.inj h
      exact ⟨congrFun h2 0, congrFun h2 1⟩
    · rintro ⟨h0, h1⟩
      exact ⟨Finset.mem_univ _, congrArg some (by subst h0; subst h1; rfl)⟩
  refine Finset.sum_nbij' (fun j => ix1 (j 0)) (fun e => ix2 (e 0) k) ?_ ?_ ?_ ?_ ?_
  · intro j hj
    exact Finset.mem_filter.mpr ⟨Finset.mem_univ _, ((hmem j).mp hj).1⟩
  · intro e he
    refine (hmem _).mpr ⟨?_, rfl⟩
    have he2 := (Finset.mem_filter.mp he).2
    rw [eq_ix1 e] at he2
    exact he2
  · intro j hj
    have h1 : j 1 = k := ((hmem j).mp hj).2
    rw [← h1]
    exact (eq_ix2 j).symm
  · intro e he
    exact (eq_ix1 e).symm
  · intro j hj
    have h1 : j 1 = k := ((hmem j).mp hj).2
    show S (gather_S12288x256_S196608x1_S196608x256_1_0_n_n_0_1_1256.operandIdx j (Cert.Spec.col d)) = _
    rw [gath256_operandIdx d hd j]
    subst h1
    rfl

theorem sum_one_eq_card {ι : Type} (T : Finset ι) : ∑ _e ∈ T, (1 : EReal) = ((T.card : ℝ) : EReal) := by
  classical
  induction T using Finset.induction_on with
  | empty => simp
  | insert a T ha ih =>
    rw [Finset.sum_insert ha, ih, Finset.card_insert_of_notMem ha, Nat.cast_succ, EReal.coe_add, EReal.coe_one, add_comm]

theorem ofBits_one_f32 : Ideal.ofBits .f32 0x3F800000#32 = 1 := by
  simp [Ideal.ofBits, Ideal.ieee, -EReal.coe_mul]; norm_num

open Cert.ReferenceIdeal Cert.ReferenceIdeal.Facts₀ Cert.ReferenceIdeal.Facts in

def edgeTable (sw dw : IVec S196608 32) : IVec S196608x2 32 :=
  concatenate S196608x2 1 [⟨S196608x1, broadcastInDim S196608x1 ![0] bcast_S196608_S196608x1_0 sw⟩, ⟨S196608x1, broadcastInDim S196608x1 ![0] bcast_S196608_S196608x1_0 dw⟩] concatenates_S196608x1_S196608x1_S196608x2_d1

open Cert.ReferenceIdeal Cert.ReferenceIdeal.Facts₀ Cert.ReferenceIdeal.Facts in

theorem bcol_apply (v : IVec S196608 32) (q : S196608x1.Idx) :
    broadcastInDim S196608x1 ![0] bcast_S196608_S196608x1_0 v q = v (ix1 (q 0)) := by
  unfold broadcastInDim
  congr 1
  funext a
  match a with
  | ⟨0, h0⟩ =>
    have h1 : ¬ S196608.size ⟨0, h0⟩ = 1 := (show ¬ (196608 : Nat) = 1 by decide)
    rw [dif_neg h1]
    rfl

open Cert.ReferenceIdeal Cert.ReferenceIdeal.Facts₀ Cert.ReferenceIdeal.Facts in

theorem edgeTable_left (sw dw : IVec S196608 32) (q : S196608x2.Idx) (hq : (q 1).val = 0) :
    edgeTable sw dw q = sw (ix1 (q 0)) := by
  unfold edgeTable
  have := concatenate_pair_apply_left (t := S196608x2) (s₁ := S196608x1) (s₂ := S196608x1) 1
    (broadcastInDim S196608x1 ![0] bcast_S196608_S196608x1_0 sw) (broadcastInDim S196608x1 ![0] bcast_S196608_S196608x1_0 dw)
    concatenates_S196608x1_S196608x1_S196608x2_d1 q rfl (ix2 (q 0) (0 : Fin 1))
    (by intro b; match b with
      | ⟨0, _⟩ => rfl
      | ⟨1, _⟩ => exact hq.symm)
  rw [this, bcol_apply]

open Cert.ReferenceIdeal Cert.ReferenceIdeal.Facts₀ Cert.ReferenceIdeal.Facts in

theorem edgeTable_right (sw dw : IVec S196608 32) (q : S196608x2.Idx) (hq : (q 1).val = 1) :
    edgeTable sw dw q = dw (ix1 (q 0)) := by
  unfold edgeTable
  have := concatenate_pair_apply_right (t := S196608x2) (s₁ := S196608x1) (s₂ := S196608x1) 1
    (broadcastInDim S196608x1 ![0] bcast_S196608_S196608x1_0 sw) (broadcastInDim S196608x1 ![0] bcast_S196608_S196608x1_0 dw)
    concatenates_S196608x1_S196608x1_S196608x2_d1 q rfl rfl (ix2 (q 0) (0 : Fin 1))
    (by intro b hb; match b, hb with
      | ⟨0, _⟩, _ => rfl
      | ⟨1, _⟩, hb => exact absurd rfl hb)
    (by show 0 + 1 = (q 1).val; omega)
  rw [this, bcol_apply]

open Cert.ReferenceIdeal Cert.ReferenceIdeal.Facts₀ Cert.ReferenceIdeal.Facts in

theorem dense_start0 (sw dw : IVec S196608 32) (e : S196608.Idx) :
    scatter_S12288x12288_S196608x2_S196608_n_01_01_1.start e (edgeTable sw dw) 0 = (sw (ix1 (e 0))).toInt := by
  unfold ScatterDims.start
  have h : (0 : Fin 2) ∈ scatter_S12288x12288_S196608x2_S196608_n_01_01_1.scatterDimsToOperandDims :=
    (show (0 : Fin 2) ∈ ([0, 1] : List (Fin 2)) by decide)
  rw [dif_pos h, edgeTable_left sw dw _ rfl]
  congr 2

open Cert.ReferenceIdeal Cert.ReferenceIdeal.Facts₀ Cert.ReferenceIdeal.Facts in

theorem dense_start1 (sw dw : IVec S196608 32) (e : S196608.Idx) :
    scatter_S12288x12288_S196608x2_S196608_n_01_01_1.start e (edgeTable sw dw) 1 = (dw (ix1 (e 0))).toInt := by
  unfold ScatterDims.start
  have h : (1 : Fin 2) ∈ scatter_S12288x12288_S196608x2_S196608_n_01_01_1.scatterDimsToOperandDims :=
    (show (1 : Fin 2) ∈ ([0, 1] : List (Fin 2)) by decide)
  rw [dif_pos h, edgeTable_right sw dw _ rfl]
  congr 2

open Cert.ReferenceIdeal Cert.ReferenceIdeal.Facts₀ Cert.ReferenceIdeal.Facts in

theorem dense_resultIdx (sw dw : IVec S196608 32) (hs : InRange sw) (hd : InRange dw) (e : S196608.Idx) :
    scatter_S12288x12288_S196608x2_S196608_n_01_01_1.resultIdx? e (edgeTable sw dw)
      = some (ix2 (node (sw (ix1 (e 0)))) (node (dw (ix1 (e 0))))) := by
  have hst0 := dense_start0 sw dw e
  have hst1 := dense_start1 sw dw e
  have hw : ∀ a : Fin 2, scatter_S12288x12288_S196608x2_S196608_n_01_01_1.window e a = 0 := by
    intro a
    unfold ScatterDims.window
    have h : a ∉ scatter_S12288x12288_S196608x2_S196608_n_01_01_1.sKept :=
      (show a ∉ ([] : List (Fin 2)) from List.not_mem_nil)
    rw [dif_neg h]
  obtain ⟨hn0, -⟩ := toNat_of_inRange _ (hs (ix1 (e 0))).1 (hs (ix1 (e 0))).2
  obtain ⟨hn1, -⟩ := toNat_of_inRange _ (hd (ix1 (e 0))).1 (hd (ix1 (e 0))).2
  have key : ∀ a, scatter_S12288x12288_S196608x2_S196608_n_01_01_1.start e (edgeTable sw dw) a
      + scatter_S12288x12288_S196608x2_S196608_n_01_01_1.window e a
      = (((ix2 (node (sw (ix1 (e 0)))) (node (dw (ix1 (e 0)))) : S12288x12288.Idx) a).val : Int) := by
    intro a
    rw [hw a]
    match a with
    | ⟨0, _⟩ => rw [show (⟨0, _⟩ : Fin 2) = 0 from rfl, hst0, hn0]; simp
    | ⟨1, _⟩ => rw [show (⟨1, _⟩ : Fin 2) = 1 from rfl, hst1, hn1]; simp
  unfold ScatterDims.resultIdx?
  have hall : ∀ a, 0 ≤ scatter_S12288x12288_S196608x2_S196608_n_01_01_1.start e (edgeTable sw dw) a
      + scatter_S12288x12288_S196608x2_S196608_n_01_01_1.window e a
      ∧ scatter_S12288x12288_S196608x2_S196608_n_01_01_1.start e (edgeTable sw dw) a
      + scatter_S12288x12288_S196608x2_S196608_n_01_01_1.window e a < S12288x12288.size a := by
    intro a
    rw [key a]
    exact ⟨Int.natCast_nonneg _, Int.ofNat_lt.mpr (Fin.isLt _)⟩
  rw [dif_pos hall]
  congr 1
  funext a
  apply Fin.ext
  show (scatter_S12288x12288_S196608x2_S196608_n_01_01_1.start e (edgeTable sw dw) a
      + scatter_S12288x12288_S196608x2_S196608_n_01_01_1.window e a).toNat = _
  rw [key a]
  exact Int.toNat_natCast _

open Cert.ReferenceIdeal Cert.ReferenceIdeal.Facts₀ Cert.ReferenceIdeal.Facts in

theorem denseOf_apply (sw dw : IVec Cert.KernelIdeal.S196608 32) (hs : InRange sw) (hd : InRange dw) (i j : Fin 12288) :
    Cert.Spec.denseOf (F := Ideal) sw dw (ix2 i j)
      = (((Finset.univ.filter fun e : Cert.KernelIdeal.S196608.Idx => node (sw e) = i ∧ node (dw e) = j).card : ℝ) : EReal) := by
  show Host.scatterAdd scatter_S12288x12288_S196608x2_S196608_n_01_01_1
    (broadcastInDim S12288x12288 ![] bcast_S_S12288x12288 (constant (F := Ideal) S_ .f32 0x00000000#32)) (edgeTable sw dw)
    (broadcastInDim S196608 ![] bcast_S_S196608 (constant (F := Ideal) S_ .f32 0x3F800000#32)) (ix2 i j) = _
  unfold Host.scatterAdd
  rw [Ideal.hostScatterAdd_def]
  unfold Ideal.hostScatterAdd
  have hz : broadcastInDim S12288x12288 ![] bcast_S_S12288x12288 (constant (F := Ideal) S_ .f32 0x00000000#32) (ix2 i j) = 0 :=
    Ideal.ofBits_zero_f32
  have hone : ∀ e : S196608.Idx, broadcastInDim S196608 ![] bcast_S_S196608 (constant (F := Ideal) S_ .f32 0x3F800000#32) e = 1 :=
    fun e => ofBits_one_f32
  rw [hz, zero_add, Finset.sum_congr rfl (fun e _ => hone e), sum_one_eq_card]
  have hset : (Finset.univ.filter fun e : S196608.Idx =>
        scatter_S12288x12288_S196608x2_S196608_n_01_01_1.resultIdx? e (edgeTable sw dw) = some (ix2 i j))
      = Finset.univ.filter fun e : S196608.Idx => node (sw e) = i ∧ node (dw e) = j := by
    apply Finset.filter_congr
    intro e _
    rw [dense_resultIdx sw dw hs hd e]
    constructor
    · intro h
      have h2 := Option.some.inj h
      have e0 : node (sw (ix1 (e 0))) = i := congrFun h2 0
      have e1 : node (dw (ix1 (e 0))) = j := congrFun h2 1
      rw [eq_ix1 e]
      exact ⟨e0, e1⟩
    · rintro ⟨h0, h1⟩
      rw [eq_ix1 e] at h0 h1
      exact congrArg some (by subst h0; subst h1; rfl)
  rw [hset]

end Cert.Decode

end
-- ==== Proof.Loss.lean ====
import proofs.«118921_j70214125355087_2_alg».proof.Proof.Spec
import proofs.«118921_j70214125355087_2_alg».proof.Proof.FrobAlg
import proofs.«118921_j70214125355087_2_alg».proof.Proof.Decode
import Idealize.ShloMosaic.Lib.IdealHost
import Idealize.ShloMosaic.Lib.ValueLayout
import Idealize.ShloMosaic.Lib.StackMember

noncomputable section

open scoped BigOperators

namespace Cert.Loss

open Idealize.ShloMosaic Idealize.ShloMosaic.ValueIdx

open Cert.Decode

variable [Cert.KernelIdeal.Facts] [Cert.ReferenceIdeal.Facts]

theorem coe_sum {ι : Type} (t : Finset ι) (f : ι → ℝ) :
    ((∑ i ∈ t, f i : ℝ) : EReal) = ∑ i ∈ t, (f i : EReal) :=
  map_sum (⟨⟨fun r : ℝ => (r : EReal), EReal.coe_zero⟩, EReal.coe_add⟩ : ℝ →+ EReal) f t

theorem coe_max (a b : ℝ) : ((max a b : ℝ) : EReal) = max (a : EReal) (b : EReal) :=
  EReal.coe_strictMono.monotone.map_max

theorem ofBits_two_f32 : Ideal.ofBits .f32 0x40000000#32 = ((2 : ℝ) : EReal) := by
  simp [Ideal.ofBits, Ideal.ieee, -EReal.coe_mul]; norm_num

theorem node_val {w : BitVec 32} (h : 0 ≤ w.toInt ∧ w.toInt < 12288) : (node w).val = w.toNat := by
  have hc := BitVec.toInt_eq_toNat_cond w
  have hlt := w.isLt
  unfold node
  simp only
  split_ifs at hc <;> omega

theorem node_eq_iff {w w' : BitVec 32} (h : 0 ≤ w.toInt ∧ w.toInt < 12288) (h' : 0 ≤ w'.toInt ∧ w'.toInt < 12288) :
    node w = node w' ↔ w = w' := by
  constructor
  · intro e
    apply BitVec.eq_of_toNat_eq
    rw [← node_val h, ← node_val h', e]
  · intro e; rw [e]

theorem reduceAll2 {n0 n1 : ℕ} {axes : List (Fin (⟨2, ![n0, n1]⟩ : Shape).rank)} {u : Shape}
    (x : FVec Ideal ⟨2, ![n0, n1]⟩ .f32) (init : u.Idx → Ideal .f32)
    (h : (⟨2, ![n0, n1]⟩ : Shape).ReducesTo axes ⟨0, ![]⟩) (hu : 0 < u.numel) (j : (⟨0, ![]⟩ : Shape).Idx) :
    Host.reduceAdd x init h hu j = init (Shape.Idx.first hu) + ∑ a : Fin n0, ∑ b : Fin n1, x (ix2 a b) := by
  rw [hostReduceAdd_apply, Ideal.hostReduceAdd_total h (fun b => b.elim0), sum_idx2]

theorem sst_apply (S : FVec Ideal Cert.ReferenceIdeal.S12288x256 .f32) (i j : Fin 12288) :
    Host.dotGeneral Cert.ReferenceIdeal.dot_S12288x256_S256x12288_S12288x12288_1_0_0_1_n_n none S (Cert.Spec.tr S) (ix2 i j)
      = ∑ c : Fin 256, S (ix2 i c) * S (ix2 j c) := by
  have h : Host.dotGeneral Cert.ReferenceIdeal.dot_S12288x256_S256x12288_S12288x12288_1_0_0_1_n_n none S (Cert.Spec.tr S) (ix2 i j)
      = ∑ c : Fin 256, S (ix2 i c) * Cert.Spec.tr S (ix2 c j) :=
    StackMember.dotGeneral_plain_apply (m := 12288) (n := 12288) (k := 256) none S (Cert.Spec.tr S) i j
  rw [h]
  refine Finset.sum_congr rfl fun c _ => ?_
  unfold Cert.Spec.tr
  rw [transpose_ix2_apply]

theorem pool256_apply (S X : FVec Ideal Cert.ReferenceIdeal.S12288x256 .f32) (k l : Fin 256) :
    Cert.Spec.pool256 S X (ix2 k l) = ∑ n : Fin 12288, S (ix2 n k) * X (ix2 n l) := by
  have h : Cert.Spec.pool256 S X (ix2 k l) = ∑ n : Fin 12288, Cert.Spec.tr S (ix2 k n) * X (ix2 n l) :=
    StackMember.dotGeneral_plain_apply (m := 256) (n := 256) (k := 12288) none (Cert.Spec.tr S) X k l
  rw [h]
  refine Finset.sum_congr rfl fun n _ => ?_
  unfold Cert.Spec.tr
  rw [transpose_ix2_apply]

def mat (Sr : Cert.KernelIdeal.S12288x256.Idx → ℝ) : Fin 12288 → Fin 256 → ℝ := fun i k => Sr (ix2 i k)

def nodes (v : IVec Cert.KernelIdeal.S196608 32) : Cert.KernelIdeal.S196608.Idx → Fin 12288 := fun e => node (v e)

def pairs (s d : IVec Cert.KernelIdeal.S196608 32) : ℕ :=
  (Finset.univ.filter fun p : Cert.KernelIdeal.S196608.Idx × Cert.KernelIdeal.S196608.Idx =>
    s p.1 = s p.2 ∧ d p.1 = d p.2).card

theorem pairs_eq (s d : IVec Cert.KernelIdeal.S196608 32) (hs : InRange s) (hd : InRange d) :
    pairs s d = (Finset.univ.filter fun p : Cert.KernelIdeal.S196608.Idx × Cert.KernelIdeal.S196608.Idx =>
      nodes s p.1 = nodes s p.2 ∧ nodes d p.1 = nodes d p.2).card := by
  unfold pairs nodes
  exact congrArg Finset.card (Finset.filter_congr fun p _ => by
    rw [node_eq_iff (hs p.1) (hs p.2), node_eq_iff (hd p.1) (hd p.2)])

section Ref
open Cert.ReferenceIdeal Cert.ReferenceIdeal.Facts₀ Cert.ReferenceIdeal.Facts

def diffR (A : FVec Ideal S12288x12288 .f32) (S : FVec Ideal S12288x256 .f32) : FVec Ideal S12288x12288 .f32 :=
  subf A (Host.dotGeneral dot_S12288x256_S256x12288_S12288x12288_1_0_0_1_n_n none S (Cert.Spec.tr S))

def radR (A : FVec Ideal S12288x12288 .f32) (S : FVec Ideal S12288x256 .f32) : FVec Ideal S_ .f32 :=
  Host.reduceAdd (mulf (diffR A S) (diffR A S)) (constant (F := Ideal) S_ .f32 0x00000000#32) reducesTo_S12288x12288_S_d0_1 h_S_

theorem lossR_eq (A : FVec Ideal S12288x12288 .f32) (S : FVec Ideal S12288x256 .f32) :
    Cert.Spec.lossR A S = Host.divf (Host.sqrt (radR A S)) (constant (F := Ideal) S_ .f32 0x4D100000#32) := rfl

theorem diffR_apply (Sr : Cert.KernelIdeal.S12288x256.Idx → ℝ) (s d : IVec Cert.KernelIdeal.S196608 32)
    (hs : InRange s) (hd : InRange d) (a b : Fin 12288) :
    diffR (Cert.Spec.denseOf s d) (fun i => (Sr i : EReal)) (ix2 a b)
      = ((FrobAlg.A (nodes s) (nodes d) a b - ∑ c, mat Sr a c * mat Sr b c : ℝ) : EReal) := by
  unfold diffR
  rw [subf_apply, denseOf_apply s d hs hd, sst_apply, EReal.coe_sub, coe_sum]
  simp only [EReal.coe_mul]
  rfl

theorem radR_apply (Sr : Cert.KernelIdeal.S12288x256.Idx → ℝ) (s d : IVec Cert.KernelIdeal.S196608 32)
    (hs : InRange s) (hd : InRange d) (j : S_.Idx) :
    radR (Cert.Spec.denseOf s d) (fun i => (Sr i : EReal)) j
      = ((∑ a, ∑ b, (FrobAlg.A (nodes s) (nodes d) a b - ∑ c, mat Sr a c * mat Sr b c)
            * (FrobAlg.A (nodes s) (nodes d) a b - ∑ c, mat Sr a c * mat Sr b c) : ℝ) : EReal) := by
  unfold radR
  rw [reduceAll2, constant_apply, Ideal.ofBits_zero_f32, zero_add, coe_sum]
  refine Finset.sum_congr rfl fun a _ => ?_
  rw [coe_sum]
  refine Finset.sum_congr rfl fun b _ => ?_
  rw [mulf_apply, diffR_apply Sr s d hs hd, EReal.coe_mul]

end Ref

section Ker
open Cert.KernelIdeal Cert.KernelIdeal.Facts₀ Cert.KernelIdeal.Facts

def radK (a cross : FVec Ideal S_ .f32) (G : FVec Ideal S256x256 .f32) : FVec Ideal S_ .f32 :=
  maximumf
    (addf (subf a (mulf (constant (F := Ideal) S_ .f32 0x40000000#32) cross))
      (Host.reduceAdd (mulf G G) (constant (F := Ideal) S_ .f32 0x00000000#32) reducesTo_S256x256_S_d0_1 h_S_))
    (constant (F := Ideal) S_ .f32 0x00000000#32)

theorem lossK_eq (a cross : FVec Ideal S_ .f32) (G : FVec Ideal S256x256 .f32) :
    Cert.Spec.lossK a cross G = Host.divf (Host.sqrt (radK a cross G)) (constant (F := Ideal) S_ .f32 0x4D100000#32) := rfl

theorem cross_apply (Sr : S12288x256.Idx → ℝ) (s d : IVec S196608 32) (hs : InRange s) (hd : InRange d) (j : S_.Idx) :
    Cert.Spec.crossOf (F := Ideal) (fun i => (Sr i : EReal)) (Cert.Spec.arOf (fun i => (Sr i : EReal)) s d) j
      = ((∑ i, ∑ k, mat Sr i k * FrobAlg.Ar (nodes s) (nodes d) (mat Sr) i k : ℝ) : EReal) := by
  unfold Cert.Spec.crossOf
  rw [reduceAll2, constant_apply, Ideal.ofBits_zero_f32, zero_add, coe_sum]
  refine Finset.sum_congr rfl fun i _ => ?_
  rw [coe_sum]
  refine Finset.sum_congr rfl fun k _ => ?_
  rw [mulf_apply, arOf_apply _ s d hs hd, EReal.coe_mul]
  unfold FrobAlg.Ar
  rw [coe_sum]
  rfl

theorem gram_apply (Sr : S12288x256.Idx → ℝ) (k l : Fin 256) :
    Cert.Spec.pool256 (F := Ideal) (fun i => (Sr i : EReal)) (fun i => (Sr i : EReal)) (ix2 k l)
      = ((FrobAlg.G (mat Sr) k l : ℝ) : EReal) := by
  rw [pool256_apply]
  unfold FrobAlg.G
  rw [coe_sum]
  simp only [EReal.coe_mul]
  rfl

theorem radK_apply (Sr : S12288x256.Idx → ℝ) (s d : IVec S196608 32) (hs : InRange s) (hd : InRange d) (j : S_.Idx) :
    radK (fun _ => ((pairs s d : ℝ) : EReal))
        (Cert.Spec.crossOf (F := Ideal) (fun i => (Sr i : EReal)) (Cert.Spec.arOf (fun i => (Sr i : EReal)) s d))
        (Cert.Spec.pool256 (F := Ideal) (fun i => (Sr i : EReal)) (fun i => (Sr i : EReal))) j
      = ((max (((pairs s d : ℕ) : ℝ)
            - 2 * (∑ i, ∑ k, mat Sr i k * FrobAlg.Ar (nodes s) (nodes d) (mat Sr) i k)
            + ∑ k, ∑ l, FrobAlg.G (mat Sr) k l * FrobAlg.G (mat Sr) k l) 0 : ℝ) : EReal) := by
  have hgg : Host.reduceAdd (mulf (Cert.Spec.pool256 (F := Ideal) (fun i => (Sr i : EReal)) (fun i => (Sr i : EReal)))
        (Cert.Spec.pool256 (F := Ideal) (fun i => (Sr i : EReal)) (fun i => (Sr i : EReal))))
        (constant (F := Ideal) S_ .f32 0x00000000#32) reducesTo_S256x256_S_d0_1 h_S_ j
      = ((∑ k, ∑ l, FrobAlg.G (mat Sr) k l * FrobAlg.G (mat Sr) k l : ℝ) : EReal) := by
    rw [reduceAll2, constant_apply, Ideal.ofBits_zero_f32, zero_add, coe_sum]
    refine Finset.sum_congr rfl fun k _ => ?_
    rw [coe_sum]
    refine Finset.sum_congr rfl fun l _ => ?_
    rw [mulf_apply, gram_apply, EReal.coe_mul]
  unfold radK
  rw [maximumf_apply, addf_apply, subf_apply, mulf_apply, hgg, cross_apply Sr s d hs hd, constant_apply, constant_apply,
    ofBits_two_f32, Ideal.ofBits_zero_f32, ← EReal.coe_mul, ← EReal.coe_sub, ← EReal.coe_add, ← EReal.coe_zero, ← coe_max]

end Ker

-- For real S and in-range edges the radicand a − 2·cross + ‖G‖² is the square's expansion, nonnegative, so the maximum with 0 changes nothing.
theorem loss_eq (Sr : Cert.KernelIdeal.S12288x256.Idx → ℝ) (s d : IVec Cert.KernelIdeal.S196608 32)
    (hs : InRange s) (hd : InRange d) :
    Cert.Spec.lossR (F := Ideal) (Cert.Spec.denseOf (Cert.Spec.wrapIdx s) (Cert.Spec.wrapIdx d)) (fun i => (Sr i : EReal))
      = Cert.Spec.lossK (F := Ideal) (fun _ => ((pairs s d : ℝ) : EReal))
          (Cert.Spec.crossOf (fun i => (Sr i : EReal)) (Cert.Spec.arOf (fun i => (Sr i : EReal)) s d))
          (Cert.Spec.pool256 (fun i => (Sr i : EReal)) (fun i => (Sr i : EReal))) := by
  rw [wrapIdx_eq s hs, wrapIdx_eq d hd, lossR_eq, lossK_eq]
  have hrad : radR (Cert.Spec.denseOf s d) (fun i => (Sr i : EReal))
      = radK (fun _ => ((pairs s d : ℝ) : EReal))
        (Cert.Spec.crossOf (F := Ideal) (fun i => (Sr i : EReal)) (Cert.Spec.arOf (fun i => (Sr i : EReal)) s d))
        (Cert.Spec.pool256 (F := Ideal) (fun i => (Sr i : EReal)) (fun i => (Sr i : EReal))) := by
    funext j
    rw [radR_apply Sr s d hs hd, radK_apply Sr s d hs hd, pairs_eq s d hs hd,
      FrobAlg.frob_rhs_max (nodes s) (nodes d) (mat Sr), FrobAlg.frob_expand_mul (nodes s) (nodes d) (mat Sr)]
  rw [hrad]

end Cert.Loss

end
-- ==== Proof.SortAux.lean ====
import proofs.«118921_j70214125355087_2_alg».proof.KernelIdeal
import Idealize.ShloMosaic.Lib.SortFacts
import Idealize.ShloMosaic.Lib.Pipeline.Value

noncomputable section

namespace Cert.SortAux

open Idealize.ShloMosaic

theorem toNat_of_range (s : BitVec 32) (n : Nat) (hn : n ≤ 2147483648) (hs : 0 ≤ s.toInt ∧ s.toInt < (n : ℤ)) :
    s.toNat < n ∧ s.toInt = (s.toNat : ℤ) := by
  have := BitVec.toInt_eq_toNat_cond s
  have := s.isLt
  constructor <;> split_ifs at * <;> omega

theorem key_toNat (a b : BitVec 32) (ha : a.toNat < 12288) (hb : b.toNat < 12288) :
    (IntOp.addi (IntOp.muli a 12288#32) b).toNat = a.toNat * 12288 + b.toNat := by
  simp only [IntOp.addi, IntOp.muli, BitVec.toNat_add, BitVec.toNat_mul, BitVec.toNat_ofNat]
  omega

theorem key_toInt (a b : BitVec 32) (ha : 0 ≤ a.toInt ∧ a.toInt < 12288) (hb : 0 ≤ b.toInt ∧ b.toInt < 12288) :
    (IntOp.addi (IntOp.muli a 12288#32) b).toInt = a.toInt * 12288 + b.toInt := by
  obtain ⟨ha1, ha2⟩ := toNat_of_range a 12288 (by omega) (by exact_mod_cast ha)
  obtain ⟨hb1, hb2⟩ := toNat_of_range b 12288 (by omega) (by exact_mod_cast hb)
  have hk := key_toNat a b ha1 hb1
  rw [BitVec.toInt_eq_toNat_cond, hk, ha2, hb2]
  split_ifs <;> omega

theorem key_eq_iff (a b a' b' : BitVec 32) (ha : 0 ≤ a.toInt ∧ a.toInt < 12288) (hb : 0 ≤ b.toInt ∧ b.toInt < 12288)
    (ha' : 0 ≤ a'.toInt ∧ a'.toInt < 12288) (hb' : 0 ≤ b'.toInt ∧ b'.toInt < 12288) :
    (IntOp.addi (IntOp.muli a 12288#32) b).toInt = (IntOp.addi (IntOp.muli a' 12288#32) b').toInt ↔ a = a' ∧ b = b' := by
  rw [key_toInt a b ha hb, key_toInt a' b' ha' hb']
  constructor
  · intro h
    have h1 : a.toInt = a'.toInt := by omega
    have h2 : b.toInt = b'.toInt := by omega
    exact ⟨BitVec.eq_of_toInt_eq h1, BitVec.eq_of_toInt_eq h2⟩
  · rintro ⟨rfl, rfl⟩
    rfl

theorem ofNat_toInt (i : ℕ) (h : i < 196608) : (BitVec.ofNat 32 i).toInt = (i : ℤ) := by
  rw [BitVec.toInt_eq_toNat_cond, BitVec.toNat_ofNat]
  split_ifs <;> omega

theorem rank_toInt (a r : BitVec 32) (A B : ℕ) (ha : a.toInt = (A : ℤ)) (hr : r.toInt = (B : ℤ)) (hBA : B ≤ A)
    (hA : A < 196608) : (IntOp.addi (IntOp.muli 2#32 (IntOp.subi a r)) 1#32).toInt = 2 * ((A : ℤ) - (B : ℤ)) + 1 := by
  obtain ⟨ha1, ha2⟩ := toNat_of_range a 196608 (by omega) (by omega)
  obtain ⟨hr1, hr2⟩ := toNat_of_range r 196608 (by omega) (by omega)
  have hAe : a.toNat = A := by omega
  have hBe : r.toNat = B := by omega
  have hk : (IntOp.addi (IntOp.muli 2#32 (IntOp.subi a r)) 1#32).toNat = 2 * (A - B) + 1 := by
    simp only [IntOp.addi, IntOp.muli, IntOp.subi, BitVec.toNat_add, BitVec.toNat_mul, BitVec.toNat_sub, BitVec.toNat_ofNat,
      hAe, hBe]
    omega
  rw [BitVec.toInt_eq_toNat_cond, hk]
  split_ifs <;> omega

theorem intMin_toInt : (2147483648#32 : BitVec 32).toInt = -2147483648 := by decide

theorem cmpi_ne_eq_one (a b : BitVec 32) : IntOp.cmpi .ne a b = 1#1 ↔ a.toInt ≠ b.toInt := by
  have hB : ∀ c : Bool, BitVec.ofBool c = 1#1 ↔ c = true := by decide
  show BitVec.ofBool (a != b) = 1#1 ↔ _
  rw [hB, bne_iff_ne, Ne, Ne, BitVec.toInt_inj]

theorem select_mark_toInt (c : BitVec 1) (i : ℕ) (h : i < 196608) :
    (Scalar.select c (BitVec.ofNat 32 i) 4294967295#32).toInt = if c = 1#1 then (i : ℤ) else -1 := by
  show (if c = 1#1 then BitVec.ofNat 32 i else 4294967295#32).toInt = _
  split_ifs with hc
  · exact ofNat_toInt i h
  · decide

section Prog
open Cert.KernelIdeal Cert.KernelIdeal.Facts₀ Cert.KernelIdeal.Facts
variable [Cert.KernelIdeal.Facts]

theorem cmp_eq (l r : BitVec 32) : (Cert.KernelIdeal.comparator_i32_d0 l r == 1#1) = decide (l.toInt < r.toInt) := by
  have hB : ∀ c : Bool, (BitVec.ofBool c == 1#1) = c := by decide
  show (BitVec.ofBool (l.slt r) == 1#1) = _
  rw [hB]
  rfl

theorem isNew_read (y : IVec S196608 32) (i : Fin 196608) :
    concatenate S196608 0 [⟨S1, (broadcastInDim S1 ![] bcast_S_S1 (constantI S_ 1 1#1) : IVec S1 1)⟩,
      ⟨S196607, (cmpi .ne (extractStridedSlice S196607 ![1] y slices_S196608_S196607_1)
        (extractStridedSlice S196607 ![0] y slices_S196608_S196607_0) : IVec S196607 1)⟩]
      concatenates_S1_S196607_S196608_d0 (Shape.Idx.ofFin i)
    = if h : i.val = 0 then 1#1
      else IntOp.cmpi .ne (y (Shape.Idx.ofFin i)) (y (Shape.Idx.ofFin ⟨i.val - 1, by omega⟩)) := by
  split_ifs with h0
  · refine (concatenate_pair_apply_left _ _ _ concatenates_S1_S196607_S196608_d0 (Shape.Idx.ofFin i) rfl
      (Shape.Idx.ofFin (⟨0, by omega⟩ : Fin 1)) fun b => ?_).trans rfl
    show (0 : ℕ) = i.val
    exact h0.symm
  · refine (concatenate_pair_apply_right _ _ _ concatenates_S1_S196607_S196608_d0 (Shape.Idx.ofFin i) rfl rfl
      (Shape.Idx.ofFin (⟨i.val - 1, by omega⟩ : Fin 196607)) (fun b hb => absurd (Subsingleton.elim _ _) hb) ?_).trans ?_
    · show i.val - 1 + 1 = i.val
      omega
    · show IntOp.cmpi .ne (extractStridedSlice S196607 ![1] y slices_S196608_S196607_1 _)
        (extractStridedSlice S196607 ![0] y slices_S196608_S196607_0 _) = _
      rw [extractStridedSlice_apply ![1] y slices_S196608_S196607_1 _ (Shape.Idx.ofFin i) (fun a => by
          have : a = 0 := Subsingleton.elim _ _
          subst this
          show i.val = 1 + (i.val - 1)
          omega),
        extractStridedSlice_apply ![0] y slices_S196608_S196607_0 _ (Shape.Idx.ofFin ⟨i.val - 1, by omega⟩) (fun a => by
          have : a = 0 := Subsingleton.elim _ _
          subst this
          show i.val - 1 = 0 + (i.val - 1)
          omega)]

end Prog

end Cert.SortAux

end
-- ==== Proof.SortCount.lean ====
import proofs.«118921_j70214125355087_2_alg».proof.KernelIdeal
import proofs.«118921_j70214125355087_2_alg».proof.Proof.SortSpec
import proofs.«118921_j70214125355087_2_alg».proof.Proof.SortAux
import Idealize.ShloMosaic.Lib.SortFacts
import Idealize.ShloMosaic.Lib.IdealHost
import Idealize.ShloMosaic.Lib.Pipeline.Value
import Idealize.ShloMosaic.PureOps.Ideal.Laws

noncomputable section

namespace Cert.SortCount

open Idealize.ShloMosaic Cert.KernelIdeal
open Cert.KernelIdeal.Facts₀ Cert.KernelIdeal.Facts

-- Pairs with equal keys, counted by the later member: each position p contributes 2·#{q < p with the same key} + 1.
theorem card_eqPairs {n : ℕ} {α : Type} [DecidableEq α] (k : Fin n → α) :
    ((Finset.univ.filter fun pq : Fin n × Fin n => k pq.1 = k pq.2).card : ℤ)
      = ∑ p : Fin n, (2 * ((Finset.univ.filter fun q : Fin n => q < p ∧ k q = k p).card : ℤ) + 1) := by
  have hA : ∀ p : Fin n, ((Finset.univ.filter fun q : Fin n => q < p ∧ k q = k p).card : ℤ)
      = ∑ q : Fin n, (if q < p ∧ k q = k p then (1 : ℤ) else 0) := by
    intro p; rw [Finset.card_filter]; push_cast; rfl
  have hT : ((Finset.univ.filter fun pq : Fin n × Fin n => k pq.1 = k pq.2).card : ℤ)
      = ∑ p : Fin n, ∑ q : Fin n, (if k p = k q then (1 : ℤ) else 0) := by
    rw [Finset.card_filter]; push_cast; rw [Fintype.sum_prod_type]
  have hpt : ∀ p q : Fin n, (if k p = k q then (1 : ℤ) else 0)
      = (if q < p ∧ k q = k p then (1 : ℤ) else 0) + (if p < q ∧ k p = k q then (1 : ℤ) else 0)
        + (if p = q then (1 : ℤ) else 0) := by
    intro p q
    rcases lt_trichotomy p q with h | h | h
    · have h1 : ¬ q < p := not_lt_of_gt h
      have h2 : p ≠ q := ne_of_lt h
      simp [h, h1, h2]
    · subst h; simp
    · have h1 : ¬ p < q := not_lt_of_gt h
      have h2 : p ≠ q := ne_of_gt h
      by_cases e : k p = k q
      · simp [h, h1, h2, e]
      · have e' : ¬ k q = k p := fun x => e x.symm
        simp [h, h1, h2, e, e']
  have hB : ∑ p : Fin n, ∑ q : Fin n, (if p < q ∧ k p = k q then (1 : ℤ) else 0)
      = ∑ p : Fin n, ∑ q : Fin n, (if q < p ∧ k q = k p then (1 : ℤ) else 0) := Finset.sum_comm
  have hC : ∑ p : Fin n, ∑ q : Fin n, (if p = q then (1 : ℤ) else 0) = ∑ p : Fin n, (1 : ℤ) := by simp
  rw [hT]
  simp_rw [hA, hpt]
  simp only [Finset.sum_add_distrib]
  rw [hB, hC, ← Finset.mul_sum]
  ring

theorem run_iff (K : ℕ → ℤ) (n : ℕ) (hmono : ∀ i j, i ≤ j → j < n → K i ≤ K j) (p s : ℕ) (hp : p < n) (hsp : s ≤ p)
    (hs : s = 0 ∨ K s ≠ K (s - 1)) (hrun : ∀ i, s < i → i ≤ p → K i = K (i - 1)) (q : ℕ) (hq : q < p) :
    K q = K p ↔ s ≤ q := by
  have hconst : ∀ d, s + d ≤ p → K (s + d) = K s := by
    intro d
    induction d with
    | zero => intro _; rfl
    | succ d ih =>
      intro hd
      have := hrun (s + (d + 1)) (by omega) hd
      rw [this, show s + (d + 1) - 1 = s + d by omega]
      exact ih (by omega)
  have hps : K p = K s := by
    have := hconst (p - s) (by omega)
    rwa [show s + (p - s) = p by omega] at this
  constructor
  · intro e
    by_contra hlt
    have hlt : q < s := by omega
    rcases hs with h0 | hne
    · omega
    · have h1 : K (s - 1) ≤ K s := hmono _ _ (by omega) (by omega)
      have h2 : K q ≤ K (s - 1) := hmono _ _ (by omega) (by omega)
      have h3 : K (s - 1) < K s := lt_of_le_of_ne h1 (fun x => hne x.symm)
      omega
  · intro hsq
    have := hconst (q - s) (by omega)
    rw [show s + (q - s) = q by omega] at this
    rw [this, hps]

theorem run_card (K : ℕ → ℤ) (n : ℕ) (hmono : ∀ i j, i ≤ j → j < n → K i ≤ K j) (p : Fin n) (s : ℕ) (hsp : s ≤ p.val)
    (hs : s = 0 ∨ K s ≠ K (s - 1)) (hrun : ∀ i, s < i → i ≤ p.val → K i = K (i - 1)) :
    (Finset.univ.filter fun q : Fin n => q < p ∧ K q.val = K p.val).card = p.val - s := by
  have : (Finset.univ.filter fun q : Fin n => q < p ∧ K q.val = K p.val).card = (Finset.Ico s p.val).card := by
    refine Finset.card_bij (fun q _ => q.val) ?_ ?_ ?_
    · intro q hq
      rw [Finset.mem_filter] at hq
      have hlt : q.val < p.val := hq.2.1
      rw [Finset.mem_Ico]
      exact ⟨(run_iff K n hmono p.val s p.isLt hsp hs hrun q.val hlt).mp hq.2.2, hlt⟩
    · intro a _ b _ h; exact Fin.ext h
    · intro b hb
      rw [Finset.mem_Ico] at hb
      refine ⟨⟨b, by have := p.isLt; omega⟩, ?_, rfl⟩
      rw [Finset.mem_filter]
      exact ⟨Finset.mem_univ _, hb.2, (run_iff K n hmono p.val s p.isLt hsp hs hrun b hb.2).mpr hb.1⟩
  rw [this, Nat.card_Ico]

theorem maxsi_cases {w : ℕ} (a b : BitVec w) :
    (IntOp.maxsi a b = a ∨ IntOp.maxsi a b = b) ∧ a.toInt ≤ (IntOp.maxsi a b).toInt ∧ b.toInt ≤ (IntOp.maxsi a b).toInt := by
  unfold IntOp.maxsi
  by_cases h : b.slt a
  · rw [if_pos h]
    have := BitVec.slt_iff_toInt_lt.mp h
    exact ⟨Or.inl rfl, le_refl _, by omega⟩
  · rw [if_neg h]
    have : ¬ b.toInt < a.toInt := fun x => h (BitVec.slt_iff_toInt_lt.mpr x)
    exact ⟨Or.inr rfl, by omega, le_refl _⟩

theorem foldl_maxsi_spec {w : ℕ} (l : List (BitVec w)) (v : BitVec w) :
    (v.toInt ≤ (l.foldl IntOp.maxsi v).toInt ∧ ∀ y ∈ l, y.toInt ≤ (l.foldl IntOp.maxsi v).toInt)
      ∧ (l.foldl IntOp.maxsi v = v ∨ l.foldl IntOp.maxsi v ∈ l) := by
  induction l generalizing v with
  | nil => simp
  | cons a l ih =>
    rw [List.foldl_cons]
    obtain ⟨⟨h1, h2⟩, h3⟩ := ih (IntOp.maxsi v a)
    obtain ⟨hc, hv, ha⟩ := maxsi_cases v a
    refine ⟨⟨le_trans hv h1, ?_⟩, ?_⟩
    · intro y hy
      rcases List.mem_cons.mp hy with rfl | hy
      · exact le_trans ha h1
      · exact h2 y hy
    · rcases h3 with h3 | h3
      · rcases hc with hc | hc
        · left; rw [h3, hc]
        · right; rw [h3, hc]; exact List.mem_cons_self ..
      · right; exact List.mem_cons_of_mem _ h3

theorem rowMajorPi_one_val (d : Fin 1 → ℕ) (y : (a : Fin 1) → Fin (d a)) :
    (Shape.rowMajorPi d y).val = (y 0).val := by
  rw [Shape.rowMajorPi_succ_val, Shape.rowMajorPi_zero]; simp

theorem rowMajor_symm_rank1 {n : ℕ} (m : Fin (⟨1, ![n]⟩ : Shape).numel) :
    (((⟨1, ![n]⟩ : Shape).rowMajor.symm m) 0).val = m.val := by
  have h := congrArg Fin.val ((⟨1, ![n]⟩ : Shape).rowMajor.apply_symm_apply m)
  have h2 := rowMajorPi_one_val (⟨1, ![n]⟩ : Shape).size ((⟨1, ![n]⟩ : Shape).rowMajor.symm m)
  exact h2.symm.trans h

theorem rowMajor_rank1_surj {n : ℕ} (t : Fin n) :
    ∃ m : Fin (⟨1, ![n]⟩ : Shape).numel, m.val = t.val := by
  refine ⟨(⟨1, ![n]⟩ : Shape).rowMajor (Shape.Idx.ofFin t), ?_⟩
  have := rowMajor_symm_rank1 ((⟨1, ![n]⟩ : Shape).rowMajor (Shape.Idx.ofFin t))
  rw [Equiv.symm_apply_apply] at this
  rw [← this]; rfl

theorem reduceWindow_cummax {n c : ℕ} (hc : c + 1 = n) (x : IVec ⟨1, ![n]⟩ 32) (init : IVec ⟨0, ![]⟩ 32)
    (h : (⟨1, ![n]⟩ : Shape).ReduceWindows ![n] ![1] ![c] ![0] ⟨1, ![n]⟩) (hu : 0 < (⟨0, ![]⟩ : Shape).numel) (j : Fin n) :
    (((init (Shape.Idx.first hu)).toInt
          ≤ (Host.reduceWindow IntOp.maxsi ![n] ![1] ![c] ![0] x init h hu (Shape.Idx.ofFin j)).toInt
        ∧ ∀ i : Fin n, i ≤ j → (x (Shape.Idx.ofFin i)).toInt
          ≤ (Host.reduceWindow IntOp.maxsi ![n] ![1] ![c] ![0] x init h hu (Shape.Idx.ofFin j)).toInt)
      ∧ (Host.reduceWindow IntOp.maxsi ![n] ![1] ![c] ![0] x init h hu (Shape.Idx.ofFin j) = init (Shape.Idx.first hu)
          ∨ ∃ i : Fin n, i ≤ j ∧
            Host.reduceWindow IntOp.maxsi ![n] ![1] ![c] ![0] x init h hu (Shape.Idx.ofFin j) = x (Shape.Idx.ofFin i))) := by
  let W : Shape := ⟨1, ![n]⟩
  let v := init (Shape.Idx.first hu)
  obtain ⟨g, hfold0, hgdef⟩ : ∃ g : Fin W.numel → BitVec 32,
      Host.reduceWindow IntOp.maxsi ![n] ![1] ![c] ![0] x init h hu (Shape.Idx.ofFin j)
        = (List.finRange W.numel).foldl (fun r m => IntOp.maxsi r (g m)) v
      ∧ ∀ m : Fin W.numel, g m = if hin' : c ≤ j.val + m.val ∧ j.val + m.val - c < n
          then x (Shape.Idx.ofFin ⟨j.val + m.val - c, hin'.2⟩) else v := by
    refine ⟨_, rfl, ?_⟩
    intro m
    have e1 : (W.rowMajor.symm m 0).val = m.val := rowMajor_symm_rank1 m
    beta_reduce
    split
    · rename_i hin
      have h0 : c ≤ j.val * 1 + (W.rowMajor.symm m 0).val ∧ j.val * 1 + (W.rowMajor.symm m 0).val - c < n := hin 0
      rw [e1] at h0
      have hin' : c ≤ j.val + m.val ∧ j.val + m.val - c < n := by omega
      rw [dif_pos hin']
      refine congrArg x (funext fun a => Fin.ext ?_)
      have : a = 0 := Subsingleton.elim _ _
      subst this
      show j.val * 1 + (W.rowMajor.symm m 0).val - c = j.val + m.val - c
      rw [e1]; omega
    · rename_i hin
      have hin' : ¬ (c ≤ j.val + m.val ∧ j.val + m.val - c < n) := by
        intro hh
        apply hin
        intro a
        have : a = 0 := Subsingleton.elim _ _
        subst this
        show c ≤ j.val * 1 + (W.rowMajor.symm m 0).val ∧ j.val * 1 + (W.rowMajor.symm m 0).val - c < n
        rw [e1]; omega
      rw [dif_neg hin']
  have hfold : Host.reduceWindow IntOp.maxsi ![n] ![1] ![c] ![0] x init h hu (Shape.Idx.ofFin j)
      = ((List.finRange W.numel).map g).foldl IntOp.maxsi v := by
    rw [hfold0, List.foldl_map]
  have hg : ∀ m : Fin W.numel, g m = v ∨ ∃ i : Fin n, i ≤ j ∧ g m = x (Shape.Idx.ofFin i) := by
    intro m
    rw [hgdef m]
    split
    · rename_i hh
      right
      have hml := m.isLt
      have hnumel : W.numel = n := by simp [Shape.numel, W]
      have hh1 := hh.1
      exact ⟨⟨j.val + m.val - c, hh.2⟩, by rw [Fin.le_def]; simp only; omega, rfl⟩
    · left; rfl
  have hg' : ∀ i : Fin n, i ≤ j → ∃ m : Fin W.numel, g m = x (Shape.Idx.ofFin i) := by
    intro i hij
    have hij' : i.val ≤ j.val := hij
    have hj := j.isLt
    obtain ⟨m, hm⟩ := rowMajor_rank1_surj (n := n) ⟨c - j.val + i.val, by omega⟩
    simp only at hm
    refine ⟨m, ?_⟩
    rw [hgdef m, dif_pos ⟨by omega, by omega⟩]
    refine congrArg x (congrArg Shape.Idx.ofFin (Fin.ext ?_))
    simp only
    omega
  obtain ⟨⟨s1, s2⟩, s3⟩ := foldl_maxsi_spec ((List.finRange W.numel).map g) v
  rw [hfold]
  refine ⟨⟨s1, ?_⟩, ?_⟩
  · intro i hij
    obtain ⟨m, hm⟩ := hg' i hij
    rw [← hm]
    exact s2 _ (List.mem_map.mpr ⟨m, List.mem_finRange m, rfl⟩)
  · rcases s3 with s3 | s3
    · left; exact s3
    · obtain ⟨m, _, hm⟩ := List.mem_map.mp s3
      rcases hg m with e | ⟨i, hi, e⟩
      · left; rw [← hm, e]
      · right; exact ⟨i, hi, by rw [← hm, e]⟩

theorem coe_sum_ereal {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

def finEquiv (n : ℕ) : Fin n ≃ (⟨1, ![n]⟩ : Shape).Idx where
  toFun := Shape.Idx.ofFin
  invFun j := j 0
  left_inv k := Shape.Idx.ofFin_zero k
  right_inv j := (Shape.Idx.eq_ofFin j).symm

section Main
variable [Cert.KernelIdeal.Facts]

def keyVec (v1 v3 : IVec S196608 32) : IVec S196608 32 :=
  addi (muli v1 (broadcastInDim S196608 ![] bcast_S_S196608 (constantI S_ 32 12288#32))) v3

def isNewVec (y : IVec S196608 32) : IVec S196608 1 :=
  concatenate S196608 0 [⟨S1, (broadcastInDim S1 ![] bcast_S_S1 (constantI S_ 1 1#1) : IVec S1 1)⟩,
    ⟨S196607, (cmpi .ne (extractStridedSlice S196607 ![1] y slices_S196608_S196607_1)
      (extractStridedSlice S196607 ![0] y slices_S196608_S196607_0) : IVec S196607 1)⟩] concatenates_S1_S196607_S196608_d0

def markVec (y : IVec S196608 32) : IVec S196608 32 :=
  select (isNewVec y) (iotaInDim S196608 32 0) (broadcastInDim S196608 ![] bcast_S_S196608 (constantI S_ 32 4294967295#32))

def startVec (y : IVec S196608 32) : IVec S196608 32 :=
  Host.reduceWindow IntOp.maxsi ![196608] ![1] ![196607] ![0] (markVec y)
    (broadcastInDim S_ ![] bcast_S_S_ (constantI S_ 32 2147483648#32))
    reduceWindows_S196608_S196608_w196608s1p196607_0 h_S_

def rankVec (y : IVec S196608 32) : IVec S196608 32 :=
  addi (muli (broadcastInDim S196608 ![] bcast_S_S196608 (constantI S_ 32 2#32)) (subi (iotaInDim S196608 32 0) (startVec y)))
    (broadcastInDim S196608 ![] bcast_S_S196608 (constantI S_ 32 1#32))

theorem aFrob_unfold {F : FTy → Type} [FloatOps F] (v1 v3 : IVec S196608 32) :
    aFrob (F := F) v1 v3
      = Host.reduceAdd (sitofp .f32 (rankVec (Host.sort S196608 0 comparator_i32_d0 (keyVec v1 v3))) : FVec F S196608 .f32)
          (constant S_ .f32 0x00000000#32 : FVec F S_ .f32) reducesTo_S196608_S_d0 h_S_ := rfl

theorem rankVec_toInt (y : IVec S196608 32)
    (hmono : ∀ a b : Fin 196608, a ≤ b → (y (Shape.Idx.ofFin a)).toInt ≤ (y (Shape.Idx.ofFin b)).toInt) (i : Fin 196608) :
    (rankVec y (Shape.Idx.ofFin i)).toInt
      = 2 * ((Finset.univ.filter fun q : Fin 196608 =>
          q < i ∧ (y (Shape.Idx.ofFin q)).toInt = (y (Shape.Idx.ofFin i)).toInt).card : ℤ) + 1 := by
  let K : ℕ → ℤ := fun t => if h : t < 196608 then (y (Shape.Idx.ofFin ⟨t, h⟩)).toInt else 0
  have hK : ∀ q : Fin 196608, K q.val = (y (Shape.Idx.ofFin q)).toInt := by
    intro q
    show (if h : q.val < 196608 then _ else _) = _
    rw [dif_pos q.isLt]
  have hKmono : ∀ a b, a ≤ b → b < 196608 → K a ≤ K b := by
    intro a b hab hb
    have := hmono ⟨a, by omega⟩ ⟨b, hb⟩ hab
    rw [← hK, ← hK] at this
    exact this
  have hnew : ∀ t : Fin 196608, isNewVec y (Shape.Idx.ofFin t) = 1#1 ↔ (t.val = 0 ∨ K t.val ≠ K (t.val - 1)) := by
    intro t
    unfold isNewVec
    rw [SortAux.isNew_read y t]
    by_cases h0 : t.val = 0
    · rw [dif_pos h0]; simp [h0]
    · rw [dif_neg h0, SortAux.cmpi_ne_eq_one]
      have e1 := hK t
      have e2 := hK ⟨t.val - 1, by have := t.isLt; omega⟩
      simp only at e2
      rw [← e1, ← e2]
      constructor
      · intro h; exact Or.inr h
      · rintro (h | h)
        · exact absurd h h0
        · exact h
  have hmark : ∀ t : Fin 196608, (markVec y (Shape.Idx.ofFin t)).toInt
      = if (t.val = 0 ∨ K t.val ≠ K (t.val - 1)) then (t.val : ℤ) else -1 := by
    intro t
    have : markVec y (Shape.Idx.ofFin t)
        = Scalar.select (isNewVec y (Shape.Idx.ofFin t)) (BitVec.ofNat 32 t.val) 4294967295#32 := rfl
    rw [this, SortAux.select_mark_toInt _ _ t.isLt]
    by_cases hn : isNewVec y (Shape.Idx.ofFin t) = 1#1
    · rw [if_pos hn, if_pos ((hnew t).mp hn)]
    · rw [if_neg hn, if_neg (fun h => hn ((hnew t).mpr h))]
  obtain ⟨⟨w1, w2⟩, w3⟩ := reduceWindow_cummax (n := 196608) (c := 196607) rfl (markVec y)
    (broadcastInDim S_ ![] bcast_S_S_ (constantI S_ 32 2147483648#32))
    reduceWindows_S196608_S196608_w196608s1p196607_0 h_S_ i
  set r := startVec y (Shape.Idx.ofFin i) with hr
  have w2' : ∀ t : Fin 196608, t ≤ i → (markVec y (Shape.Idx.ofFin t)).toInt ≤ r.toInt := w2
  have w3' : r = 2147483648#32 ∨ ∃ t : Fin 196608, t ≤ i ∧ r = markVec y (Shape.Idx.ofFin t) := w3
  have h0le : (0 : ℤ) ≤ r.toInt := by
    have := w2' ⟨0, by norm_num⟩ (by rw [Fin.le_def]; exact Nat.zero_le _)
    rw [hmark, if_pos (Or.inl rfl)] at this
    simpa using this
  obtain ⟨s, hsi, hrs⟩ : ∃ t : Fin 196608, t ≤ i ∧ r = markVec y (Shape.Idx.ofFin t) := by
    rcases w3' with e | e
    · exfalso; rw [e, SortAux.intMin_toInt] at h0le; omega
    · exact e
  have hsnew : s.val = 0 ∨ K s.val ≠ K (s.val - 1) := by
    by_contra hn
    have := hmark s
    rw [if_neg hn, ← hrs] at this
    omega
  have hrI : r.toInt = (s.val : ℤ) := by
    rw [hrs, hmark, if_pos hsnew]
  have hsi' : s.val ≤ i.val := hsi
  have hrun : ∀ t, s.val < t → t ≤ i.val → K t = K (t - 1) := by
    intro t hst hti
    by_contra hne
    have ht : t < 196608 := by have := i.isLt; omega
    have := w2' ⟨t, ht⟩ (by rw [Fin.le_def]; exact hti)
    rw [hmark, if_pos (Or.inr hne), hrI] at this
    simp only at this
    omega
  have hcard := run_card K 196608 hKmono i s.val hsi' hsnew hrun
  have hrank : (rankVec y (Shape.Idx.ofFin i)).toInt = 2 * ((i.val : ℤ) - (s.val : ℤ)) + 1 := by
    have : rankVec y (Shape.Idx.ofFin i)
        = IntOp.addi (IntOp.muli 2#32 (IntOp.subi (BitVec.ofNat 32 i.val) r)) 1#32 := rfl
    rw [this]
    exact SortAux.rank_toInt _ _ i.val s.val (SortAux.ofNat_toInt _ i.isLt) hrI hsi' i.isLt
  rw [hrank]
  have hfilter : (Finset.univ.filter fun q : Fin 196608 =>
        q < i ∧ (y (Shape.Idx.ofFin q)).toInt = (y (Shape.Idx.ofFin i)).toInt)
      = (Finset.univ.filter fun q : Fin 196608 => q < i ∧ K q.val = K i.val) := by
    refine Finset.filter_congr (fun q _ => ?_)
    rw [hK, hK]
  rw [hfilter, hcard]
  omega

-- In sorted order the earlier equal keys of position p are exactly its run's, so Σ (2·rank + 1) is the number of ordered pairs of parallel edges.
theorem aFrob_eq (v1 v3 : IVec Cert.KernelIdeal.S196608 32)
    (h1 : ∀ e, 0 ≤ (v1 e).toInt ∧ (v1 e).toInt < 12288) (h3 : ∀ e, 0 ≤ (v3 e).toInt ∧ (v3 e).toInt < 12288) :
    aFrob (F := Ideal) v1 v3 = fun _ => (((Finset.univ.filter fun p : Cert.KernelIdeal.S196608.Idx × Cert.KernelIdeal.S196608.Idx =>
      v1 p.1 = v1 p.2 ∧ v3 p.1 = v3 p.2).card : ℝ) : EReal) := by
  rw [aFrob_unfold]
  funext j0
  set x := keyVec v1 v3 with hx
  let R : Fin 196608 → Fin 196608 → Bool :=
    fun k k' => comparator_i32_d0 (x (Shape.Idx.ofFin k)) (x (Shape.Idx.ofFin k')) == 1#1
  have hR : ∀ a b, R a b = decide ((x (Shape.Idx.ofFin a)).toInt < (x (Shape.Idx.ofFin b)).toInt) :=
    fun a b => SortAux.cmp_eq _ _
  set y := Host.sort S196608 0 comparator_i32_d0 x with hy
  have hy' : ∀ p : Fin 196608, y (Shape.Idx.ofFin p) = x (Shape.Idx.ofFin (sortedFrom R p)) := by
    intro p
    have := Host.sort_rank1 comparator_i32_d0 x (Shape.Idx.ofFin p)
    rw [Shape.Idx.ofFin_zero] at this
    exact this
  have hmono : ∀ a b : Fin 196608, a ≤ b → (y (Shape.Idx.ofFin a)).toInt ≤ (y (Shape.Idx.ofFin b)).toInt := by
    intro a b hab
    rcases eq_or_lt_of_le hab with e | hlt
    · rw [e]
    · have hRB : ∀ a b, R a b = true → R b a = false := by
        intro a b h; rw [hR] at h ⊢; simp at h ⊢; omega
      have hB : ∀ a b c, R a b = false → R b c = false → R a c = false := by
        intro a b c hab hbc; rw [hR] at hab hbc ⊢; simp at hab hbc ⊢; omega
      have := sortedFrom_noInversion R R hRB (fun _ _ h => h) hB a b hlt
      rw [hR, decide_eq_false_iff_not] at this
      rw [hy', hy']; omega
  rw [ValueIdx.hostReduceAdd_apply, Ideal.hostReduceAdd_total _ (fun b => b.elim0)]
  have hterm : ∀ i : Fin 196608, (sitofp .f32 (rankVec y) : FVec Ideal S196608 .f32) (Shape.Idx.ofFin i)
      = (((2 * ((Finset.univ.filter fun q : Fin 196608 =>
          q < i ∧ (y (Shape.Idx.ofFin q)).toInt = (y (Shape.Idx.ofFin i)).toInt).card : ℤ) + 1 : ℤ) : ℝ) : EReal) := by
    intro i
    rw [← rankVec_toInt y hmono i]
    rfl
  rw [← Equiv.sum_comp (finEquiv 196608)]
  have hsum : ∑ i : Fin 196608, (sitofp .f32 (rankVec y) : FVec Ideal S196608 .f32) ((finEquiv 196608) i)
      = ∑ i : Fin 196608, (((2 * ((Finset.univ.filter fun q : Fin 196608 =>
          q < i ∧ (y (Shape.Idx.ofFin q)).toInt = (y (Shape.Idx.ofFin i)).toInt).card : ℤ) + 1 : ℤ) : ℝ) : EReal) :=
    Finset.sum_congr rfl (fun i _ => hterm i)
  rw [hsum, ← coe_sum_ereal, ← Int.cast_sum, ← card_eqPairs (fun q : Fin 196608 => (y (Shape.Idx.ofFin q)).toInt)]
  have hzero : (constant S_ .f32 0x00000000#32 : FVec Ideal S_ .f32) (Shape.Idx.first h_S_) = 0 := by
    rw [ValueIdx.constant_apply]; exact Ideal.ofBits_zero_f32
  rw [hzero, zero_add, Int.cast_natCast]
  refine congrArg (fun k : ℕ => ((k : ℝ) : EReal)) ?_
  let τ : Fin 196608 ≃ S196608.Idx :=
    (Equiv.ofBijective (sortedFrom R) ⟨sortedFrom_injective R, sortedFrom_surjective R⟩).trans (finEquiv 196608)
  refine Finset.card_equiv (Equiv.prodCongr τ τ) (fun pq => ?_)
  simp only [Finset.mem_filter, Finset.mem_univ, true_and]
  show (y (Shape.Idx.ofFin pq.1)).toInt = (y (Shape.Idx.ofFin pq.2)).toInt
    ↔ v1 (Shape.Idx.ofFin (sortedFrom R pq.1)) = v1 (Shape.Idx.ofFin (sortedFrom R pq.2))
      ∧ v3 (Shape.Idx.ofFin (sortedFrom R pq.1)) = v3 (Shape.Idx.ofFin (sortedFrom R pq.2))
  rw [hy', hy']
  exact SortAux.key_eq_iff _ _ _ _ (h1 _) (h3 _) (h1 _) (h3 _)

end Main

end Cert.SortCount
-- ==== Proof.RealUp.lean ====
import proofs.«118921_j70214125355087_2_alg».proof.Proof.Spec
import Idealize.ShloMosaic.PureOps.Ideal.Laws

noncomputable section

namespace Cert.RealUp

open Idealize.ShloMosaic

def IsReal {S : Shape} (v : S.Idx → EReal) : Prop := ∀ i, ∃ r : ℝ, v i = (r : EReal)

def IsNonneg {S : Shape} (v : S.Idx → EReal) : Prop := ∀ i, ∃ r : ℝ, 0 ≤ r ∧ v i = (r : EReal)

def IsPos {S : Shape} (v : S.Idx → EReal) : Prop := ∀ i, ∃ r : ℝ, 0 < r ∧ v i = (r : EReal)

theorem IsNonneg.isReal {S : Shape} {v : S.Idx → EReal} (h : IsNonneg v) : IsReal v :=
  fun i => let ⟨r, _, hr⟩ := h i; ⟨r, hr⟩

theorem IsPos.isReal {S : Shape} {v : S.Idx → EReal} (h : IsPos v) : IsReal v :=
  fun i => let ⟨r, _, hr⟩ := h i; ⟨r, hr⟩

theorem IsPos.isNonneg {S : Shape} {v : S.Idx → EReal} (h : IsPos v) : IsNonneg v :=
  fun i => let ⟨r, h0, hr⟩ := h i; ⟨r, h0.le, hr⟩

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem coe_max (a b : ℝ) : max (a : EReal) (b : EReal) = ((max a b : ℝ) : EReal) :=
  (EReal.coe_strictMono.monotone.map_max).symm

theorem pos_max {x y : EReal} (hx : ∃ r : ℝ, x = (r : EReal)) (hy : ∃ r : ℝ, 0 < r ∧ y = (r : EReal)) :
    ∃ r : ℝ, 0 < r ∧ max x y = (r : EReal) := by
  obtain ⟨a, rfl⟩ := hx
  obtain ⟨b, hb, rfl⟩ := hy
  exact ⟨max a b, lt_max_of_lt_right hb, coe_max a b⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

theorem nonneg_sum {ι : Type*} (s : Finset ι) (f : ι → EReal) (h : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by rw [Finset.sum_empty, EReal.coe_zero]⟩
  | insert a s ha ih =>
    rw [Finset.sum_insert ha]
    obtain ⟨p, hp, e1⟩ := h a (Finset.mem_insert_self a s)
    obtain ⟨q, hq, e2⟩ := ih fun i hi => h i (Finset.mem_insert_of_mem hi)
    exact ⟨p + q, add_nonneg hp hq, by rw [e1, e2, EReal.coe_add]⟩

theorem nonneg_mul_self {x : EReal} (hx : ∃ r : ℝ, x = (r : EReal)) : ∃ r : ℝ, 0 ≤ r ∧ x * x = (r : EReal) := by
  obtain ⟨a, rfl⟩ := hx
  exact ⟨a * a, mul_self_nonneg a, (EReal.coe_mul a a).symm⟩

theorem real_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a * (1 / b), by rw [Ideal.div_coe hb, EReal.coe_mul]⟩

theorem nonneg_sqrt {x : EReal} (hx : ∃ r : ℝ, 0 ≤ r ∧ x = (r : EReal)) :
    ∃ r : ℝ, 0 ≤ r ∧ Ideal.sqrt x = (r : EReal) := by
  obtain ⟨a, ha, rfl⟩ := hx
  exact ⟨Real.sqrt a, Real.sqrt_nonneg a, by rw [Ideal.sqrt_coe, if_neg (not_lt.mpr ha)]⟩

theorem isReal_broadcastInDim {s t : Shape} (dims : Fin s.rank → Fin t.rank) (h : s.BroadcastsInDim t dims)
    {x : s.Idx → EReal} (hx : IsReal x) : IsReal (broadcastInDim t dims h x) := fun j => hx _

theorem isNonneg_broadcastInDim {s t : Shape} (dims : Fin s.rank → Fin t.rank) (h : s.BroadcastsInDim t dims)
    {x : s.Idx → EReal} (hx : IsNonneg x) : IsNonneg (broadcastInDim t dims h x) := fun j => hx _

theorem isPos_broadcastInDim {s t : Shape} (dims : Fin s.rank → Fin t.rank) (h : s.BroadcastsInDim t dims)
    {x : s.Idx → EReal} (hx : IsPos x) : IsPos (broadcastInDim t dims h x) := fun j => hx _

theorem isReal_gather {s si t : Shape} {w : Nat} (d : GatherDims s si t) (idx : IVec si w) {x : s.Idx → EReal}
    (hx : IsReal x) : IsReal (Host.gather d x idx) := fun j => hx _

theorem isReal_concatenate {t : Shape} (a : Fin t.rank) (xs : List ((s : Shape) × (s.Idx → EReal)))
    (h : Shape.Concatenates (xs.map (·.1)) t a) (hx : ∀ p ∈ xs, IsReal p.2) : IsReal (concatenate t a xs h) := by
  intro j
  unfold concatenate
  exact hx _ (List.getElem_mem _) _

theorem isReal_addf {s : Shape} {x y : FVec Ideal s .f32} (hx : IsReal x) (hy : IsReal y) : IsReal (addf x y) :=
  fun i => real_add (hx i) (hy i)

theorem isNonneg_mulf_self {s : Shape} {x : FVec Ideal s .f32} (hx : IsReal x) : IsNonneg (mulf x x) :=
  fun i => nonneg_mul_self (hx i)

theorem isPos_maximumf {s : Shape} {x y : FVec Ideal s .f32} (hx : IsReal x) (hy : IsPos y) :
    IsPos (maximumf x y) := fun i => pos_max (hx i) (hy i)

theorem isReal_hostDivf {s : Shape} {x y : FVec Ideal s .f32} (hx : IsReal x) (hy : IsPos y) :
    IsReal (Host.divf x y) :=
  fun i => real_div (hx i) (let ⟨r, h0, hr⟩ := hy i; ⟨r, h0.ne', hr⟩)

theorem isNonneg_hostSqrt {s : Shape} {x : FVec Ideal s .f32} (hx : IsNonneg x) : IsNonneg (Host.sqrt x) :=
  fun i => nonneg_sqrt (hx i)

theorem isNonneg_reduceAdd {s t u : Shape} {axes : List (Fin s.rank)} (x : FVec Ideal s .f32) (init : u.Idx → Ideal .f32)
    (h : s.ReducesTo axes t) (hu : 0 < u.numel) (hx : IsNonneg x) (hi : IsNonneg init) :
    IsNonneg (Host.reduceAdd x init h hu) := by
  intro j
  show ∃ r : ℝ, 0 ≤ r ∧ Ideal.hostReduceAdd h x (init (Shape.Idx.first hu)) j = (r : EReal)
  unfold Ideal.hostReduceAdd
  obtain ⟨p, hp, e1⟩ := hi (Shape.Idx.first hu)
  obtain ⟨q, hq, e2⟩ := nonneg_sum (Finset.univ.filter fun i => h.drop i = j) x fun i _ => hx i
  exact ⟨p + q, add_nonneg hp hq, by rw [e1, e2, EReal.coe_add]⟩

theorem isReal_scatterAdd {s si u : Shape} {w : Nat} (d : ScatterDims s si u) (x : FVec Ideal s .f32) (idx : IVec si w)
    (upd : FVec Ideal u .f32) (hx : IsReal x) (hu : IsReal upd) : IsReal (Host.scatterAdd d x idx upd) := by
  intro i
  show ∃ r : ℝ, Ideal.hostScatterAdd d x idx upd i = (r : EReal)
  unfold Ideal.hostScatterAdd
  exact real_add (hx i) (real_sum _ _ fun j _ => hu j)

theorem isReal_dotGeneral {sl sr so : Shape} (d : DotDims sl sr so) (prec : Option ContractPrecision)
    (l : FVec Ideal sl .f32) (r : FVec Ideal sr .f32) (hl : IsReal l) (hr : IsReal r) :
    IsReal (Host.dotGeneral d prec l r) := by
  intro j
  obtain ⟨v, hv⟩ := real_sum Finset.univ (fun k : d.contr.Idx => l (d.lhsIdx j k) * r (d.rhsIdx j k))
    fun k _ => real_mul (hl _) (hr _)
  exact ⟨v, (Ideal.dotGeneral_apply d prec .single l r j).trans hv⟩

theorem ofBits_zero : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]
  norm_num

theorem ofBits_floor_pos : ∃ r : ℝ, 0 < r ∧ Ideal.ofBits .f32 0x2B8CBCCC#32 = (r : EReal) := by
  simp [Ideal.ofBits, Ideal.ieee, -EReal.coe_mul]

theorem isReal_constant (s : Shape) (b : BitVec 32) (hb : ∃ r : ℝ, Ideal.ofBits .f32 b = (r : EReal)) :
    IsReal (constant (F := Ideal) s .f32 b) := fun _ => hb

theorem isNonneg_constant (s : Shape) (b : BitVec 32) (hb : ∃ r : ℝ, 0 ≤ r ∧ Ideal.ofBits .f32 b = (r : EReal)) :
    IsNonneg (constant (F := Ideal) s .f32 b) := fun _ => hb

theorem isPos_constant (s : Shape) (b : BitVec 32) (hb : ∃ r : ℝ, 0 < r ∧ Ideal.ofBits .f32 b = (r : EReal)) :
    IsPos (constant (F := Ideal) s .f32 b) := fun _ => hb

theorem isReal_zero (s : Shape) : IsReal (constant (F := Ideal) s .f32 0x00000000#32) :=
  isReal_constant s _ ⟨0, ofBits_zero⟩

theorem isReal_one (s : Shape) : IsReal (constant (F := Ideal) s .f32 0x3F800000#32) :=
  isReal_constant s _ ⟨1, ofBits_one⟩

theorem isPos_one (s : Shape) : IsPos (constant (F := Ideal) s .f32 0x3F800000#32) :=
  isPos_constant s _ ⟨1, one_pos, ofBits_one⟩

theorem isReal_concatenate₂ {t s₁ s₂ : Shape} (a : Fin t.rank) (x₁ : s₁.Idx → EReal) (x₂ : s₂.Idx → EReal)
    (h : Shape.Concatenates (([⟨s₁, x₁⟩, ⟨s₂, x₂⟩] : List ((s : Shape) × (s.Idx → EReal))).map (·.1)) t a)
    (h1 : IsReal x₁) (h2 : IsReal x₂) : IsReal (concatenate t a [⟨s₁, x₁⟩, ⟨s₂, x₂⟩] h) := by
  refine isReal_concatenate a _ h fun p hp => ?_
  simp only [List.mem_cons, List.mem_singleton, List.not_mem_nil, or_false] at hp
  rcases hp with rfl | rfl
  · exact h1
  · exact h2

section Layer
open Cert.KernelIdeal Cert.KernelIdeal.Facts₀ Cert.KernelIdeal.Facts
variable [Cert.KernelIdeal.Facts] [Cert.ReferenceIdeal.Facts]

theorem isReal_aggOf {x : FVec Ideal S12288x128 .f32} (hx : IsReal x) (s d : IVec S196608 32) :
    IsReal (Cert.Spec.aggOf x s d) := by
  unfold Cert.Spec.aggOf
  refine isReal_hostDivf ?_ ?_
  · exact isReal_scatterAdd _ _ _ _ (isReal_broadcastInDim _ _ (isReal_zero _)) (isReal_gather _ _ hx)
  · refine isPos_broadcastInDim _ _ (isPos_broadcastInDim _ _ (isPos_maximumf ?_ ?_))
    · exact isReal_scatterAdd _ _ _ _ (isReal_broadcastInDim _ _ (isReal_zero _))
        (isReal_broadcastInDim _ _ (isReal_one _))
    · exact isPos_broadcastInDim _ _ (isPos_one _)

theorem isReal_catOf {x : FVec Ideal S12288x128 .f32} (hx : IsReal x) (s d : IVec S196608 32) :
    IsReal (Cert.Spec.catOf x s d) := by
  unfold Cert.Spec.catOf
  exact isReal_concatenate₂ _ _ _ _ hx (isReal_aggOf hx s d)

theorem isReal_proj256 {cat : FVec Ideal S12288x256 .f32} {W : FVec Ideal S256x256 .f32} {b : FVec Ideal S256 .f32}
    (hc : IsReal cat) (hW : IsReal W) (hb : IsReal b) : IsReal (Cert.Spec.proj256 cat W b) := by
  unfold Cert.Spec.proj256
  exact isReal_addf (isReal_dotGeneral _ _ _ _ hc hW) (isReal_broadcastInDim _ _ (isReal_broadcastInDim _ _ hb))

theorem isNonneg_rowLen256 {h : FVec Ideal S12288x256 .f32} (hh : IsReal h) : IsNonneg (Cert.Spec.rowLen256 h) := by
  unfold Cert.Spec.rowLen256
  exact isNonneg_hostSqrt (isNonneg_broadcastInDim _ _
    (isNonneg_reduceAdd _ _ _ _ (isNonneg_mulf_self hh) (isNonneg_constant _ _ ⟨0, le_refl 0, ofBits_zero⟩)))

theorem isReal_rowNorm256 {h : FVec Ideal S12288x256 .f32} (hh : IsReal h) : IsReal (Cert.Spec.rowNorm256 h) := by
  unfold Cert.Spec.rowNorm256
  exact isReal_hostDivf hh (isPos_broadcastInDim _ _
    (isPos_maximumf (isNonneg_rowLen256 hh).isReal (isPos_broadcastInDim _ _ (isPos_constant _ _ ofBits_floor_pos))))

end Layer

end Cert.RealUp

end
-- ==== Proof.RealDown.lean ====
import proofs.«118921_j70214125355087_2_alg».proof.Proof.Spec
import Idealize.ShloMosaic.PureOps.Ideal.Laws
import Idealize.ShloMosaic.Lib.ValueIdx

noncomputable section

namespace Cert.RealDown

open Idealize.ShloMosaic Idealize.ShloMosaic.ValueIdx
open Cert.KernelIdeal Cert.KernelIdeal.Facts₀ Cert.KernelIdeal.Facts

def IsReal {S : Shape} (v : S.Idx → EReal) : Prop := ∀ i, ∃ r : ℝ, v i = (r : EReal)

def IsNonneg {S : Shape} (v : S.Idx → EReal) : Prop := ∀ i, ∃ r : ℝ, 0 ≤ r ∧ v i = (r : EReal)

def IsPos {S : Shape} (v : S.Idx → EReal) : Prop := ∀ i, ∃ r : ℝ, 0 < r ∧ v i = (r : EReal)

def IsBit {S : Shape} (v : S.Idx → EReal) : Prop := ∀ i, v i = 0 ∨ v i = 1

theorem IsPos.isNonneg {S : Shape} {v : S.Idx → EReal} (h : IsPos v) : IsNonneg v :=
  fun i => let ⟨r, h0, e⟩ := h i; ⟨r, h0.le, e⟩
theorem IsNonneg.isReal {S : Shape} {v : S.Idx → EReal} (h : IsNonneg v) : IsReal v :=
  fun i => let ⟨r, _, e⟩ := h i; ⟨r, e⟩
theorem IsPos.isReal {S : Shape} {v : S.Idx → EReal} (h : IsPos v) : IsReal v := h.isNonneg.isReal
theorem IsBit.isNonneg {S : Shape} {v : S.Idx → EReal} (h : IsBit v) : IsNonneg v := fun i => by
  rcases h i with e | e
  · exact ⟨0, le_rfl, by rw [e, EReal.coe_zero]⟩
  · exact ⟨1, zero_le_one, by rw [e, EReal.coe_one]⟩
theorem IsBit.isReal {S : Shape} {v : S.Idx → EReal} (h : IsBit v) : IsReal v := h.isNonneg.isReal

theorem sum_coe {ι : Type*} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

theorem sum_real {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← sum_coe]; exact Finset.sum_congr rfl fun i _ => hg i⟩

theorem sum_nonneg {ι : Type*} (s : Finset ι) (f : ι → EReal) (hf : ∀ i, ∃ r : ℝ, 0 ≤ r ∧ f i = (r : EReal)) :
    ∃ r : ℝ, 0 ≤ r ∧ ∑ i ∈ s, f i = (r : EReal) := by
  choose g hg0 hg using hf
  exact ⟨∑ i ∈ s, g i, Finset.sum_nonneg fun i _ => hg0 i, by rw [← sum_coe]; exact Finset.sum_congr rfl fun i _ => hg i⟩

theorem sum_pos {ι : Type*} (s : Finset ι) (hs : s.Nonempty) (f : ι → EReal) (hf : ∀ i, ∃ r : ℝ, 0 < r ∧ f i = (r : EReal)) :
    ∃ r : ℝ, 0 < r ∧ ∑ i ∈ s, f i = (r : EReal) := by
  choose g hg0 hg using hf
  exact ⟨∑ i ∈ s, g i, Finset.sum_pos (fun i _ => hg0 i) hs, by rw [← sum_coe]; exact Finset.sum_congr rfl fun i _ => hg i⟩

theorem max_real (a b : ℝ) : ∃ c : ℝ, max (a : EReal) (b : EReal) = (c : EReal) := by
  rcases le_total a b with h | h
  · exact ⟨b, max_eq_right (EReal.coe_le_coe_iff.2 h)⟩
  · exact ⟨a, max_eq_left (EReal.coe_le_coe_iff.2 h)⟩

theorem fold_maximumf_real {ι : Type*} (s : Finset ι) (hs : s.Nonempty) (f : ι → Ideal .f32) (hf : ∀ i, ∃ r : ℝ, f i = (r : EReal)) :
    ∃ r : ℝ, s.fold (FloatOps.maximumf (F := Ideal) (φ := .f32)) (⊥ : EReal) f = (r : EReal) := by
  induction hs using Finset.Nonempty.cons_induction with
  | singleton a =>
    obtain ⟨r, hr⟩ := hf a
    exact ⟨r, by rw [Finset.fold_singleton, hr]; exact max_eq_left bot_le⟩
  | cons a s ha hs ih =>
    obtain ⟨r, hr⟩ := hf a
    obtain ⟨t, ht⟩ := ih
    obtain ⟨c, hc⟩ := max_real r t
    exact ⟨c, by rw [Finset.fold_cons, hr, ht]; exact hc⟩

theorem div_coe_coe (a : ℝ) {b : ℝ} (hb : b ≠ 0) : Ideal.div (a : EReal) (b : EReal) = ((a / b : ℝ) : EReal) := by
  rw [Ideal.div_coe hb, ← EReal.coe_mul, mul_one_div]

theorem ofBits_neg_inf : Ideal.ofBits .f32 0xFF800000#32 = (⊥ : EReal) := by simp [Ideal.ofBits, Ideal.ieee]

section Pointwise
variable {s : Shape}

theorem IsReal.mulf {a b : FVec Ideal s .f32} (ha : IsReal a) (hb : IsReal b) : IsReal (mulf a b) := fun i => by
  obtain ⟨x, hx⟩ := ha i; obtain ⟨y, hy⟩ := hb i
  exact ⟨x * y, by rw [mulf_apply, hx, hy, EReal.coe_mul]⟩

theorem IsReal.subf {a b : FVec Ideal s .f32} (ha : IsReal a) (hb : IsReal b) : IsReal (subf a b) := fun i => by
  obtain ⟨x, hx⟩ := ha i; obtain ⟨y, hy⟩ := hb i
  exact ⟨x - y, by rw [subf_apply, hx, hy, EReal.coe_sub]⟩

theorem IsNonneg.mulf {a b : FVec Ideal s .f32} (ha : IsNonneg a) (hb : IsNonneg b) : IsNonneg (mulf a b) := fun i => by
  obtain ⟨x, hx0, hx⟩ := ha i; obtain ⟨y, hy0, hy⟩ := hb i
  exact ⟨x * y, mul_nonneg hx0 hy0, by rw [mulf_apply, hx, hy, EReal.coe_mul]⟩

theorem IsReal.exp {a : FVec Ideal s .f32} (ha : IsReal a) : IsPos (Host.exp a) := fun i => by
  obtain ⟨x, hx⟩ := ha i
  exact ⟨Real.exp x, Real.exp_pos x, by show Ideal.exp (a i) = _; rw [hx, Ideal.exp_coe]⟩

theorem IsNonneg.divf {a b : FVec Ideal s .f32} (ha : IsNonneg a) (hb : IsPos b) : IsNonneg (Host.divf a b) := fun i => by
  obtain ⟨x, hx0, hx⟩ := ha i; obtain ⟨y, hy0, hy⟩ := hb i
  exact ⟨x / y, div_nonneg hx0 hy0.le, by show Ideal.div (a i) (b i) = _; rw [hx, hy, div_coe_coe x hy0.ne']⟩

theorem IsPos.divf {a b : FVec Ideal s .f32} (ha : IsPos a) (hb : IsPos b) : IsPos (Host.divf a b) := fun i => by
  obtain ⟨x, hx0, hx⟩ := ha i; obtain ⟨y, hy0, hy⟩ := hb i
  exact ⟨x / y, div_pos hx0 hy0, by show Ideal.div (a i) (b i) = _; rw [hx, hy, div_coe_coe x hy0.ne']⟩

theorem IsNonneg.addf_pos {a b : FVec Ideal s .f32} (ha : IsNonneg a) (hb : IsPos b) : IsPos (addf a b) := fun i => by
  obtain ⟨x, hx0, hx⟩ := ha i; obtain ⟨y, hy0, hy⟩ := hb i
  exact ⟨x + y, add_pos_of_nonneg_of_pos hx0 hy0, by rw [addf_apply, hx, hy, EReal.coe_add]⟩

theorem IsReal.broadcastInDim {t : Shape} {x : s.Idx → EReal} (hx : IsReal x) (dims : Fin s.rank → Fin t.rank)
    (h : s.BroadcastsInDim t dims) : IsReal (broadcastInDim t dims h x) := fun j => hx _

theorem IsNonneg.broadcastInDim {t : Shape} {x : s.Idx → EReal} (hx : IsNonneg x) (dims : Fin s.rank → Fin t.rank)
    (h : s.BroadcastsInDim t dims) : IsNonneg (broadcastInDim t dims h x) := fun j => hx _

theorem IsPos.broadcastInDim {t : Shape} {x : s.Idx → EReal} (hx : IsPos x) (dims : Fin s.rank → Fin t.rank)
    (h : s.BroadcastsInDim t dims) : IsPos (broadcastInDim t dims h x) := fun j => hx _

theorem IsReal.gather {t si : Shape} {w : Nat} {x : s.Idx → EReal} (hx : IsReal x) (d : GatherDims s si t) (idx : IVec si w) :
    IsReal (Host.gather d x idx) := fun j => hx _

theorem IsReal.scatterAdd {si u : Shape} {w : Nat} (d : ScatterDims s si u) {x : FVec Ideal s .f32} (idx : IVec si w)
    {upd : FVec Ideal u .f32} (hx : IsReal x) (hu : IsReal upd) : IsReal (Host.scatterAdd d x idx upd) := fun i => by
  obtain ⟨a, ha⟩ := hx i
  obtain ⟨b, hb⟩ := sum_real (Finset.univ.filter fun j => d.resultIdx? j idx = some i) upd hu
  exact ⟨a + b, by show x i + ∑ j ∈ Finset.univ.filter (fun j => d.resultIdx? j idx = some i), upd j = _; rw [ha, hb, EReal.coe_add]⟩

end Pointwise

variable [Cert.KernelIdeal.Facts]

theorem uitofp_bit (b : BitVec 1) : (FloatOps.uitofp (F := Ideal) .f32 b : EReal) = 0 ∨ (FloatOps.uitofp (F := Ideal) .f32 b : EReal) = 1 := by
  rcases BitVec.eq_zero_or_eq_one b with h | h
  · left; subst h; show (((0#1 : BitVec 1).toNat : ℝ) : EReal) = 0; simp
  · right; subst h; show (((1#1 : BitVec 1).toNat : ℝ) : EReal) = 1; simp

theorem maskOf_isBit (batch : IVec S12288 32) : IsBit (Spec.maskOf (F := Ideal) batch) := fun i => uitofp_bit _

theorem reduces_rows : S12288x256.Reduces [1] S12288 := by decide

theorem cols_nonempty : (Finset.univ : Finset (Fin (S12288x256.size 1))).Nonempty := ⟨⟨0, by decide⟩, Finset.mem_univ _⟩

theorem rowMax_isReal {z : FVec Ideal S12288x256 .f32} (hz : IsReal z) :
    IsReal (maximumf (broadcastInDim S12288 ![] bcast_S_S12288 (constant (F := Ideal) S_ .f32 0xFF800000#32))
      (Host.reduce FloatOps.maximumf z (constant (F := Ideal) S_ .f32 0xFF800000#32) reducesTo_S12288x256_S12288_d1 h_S_)) := fun j => by
  obtain ⟨r, hr⟩ : ∃ r : ℝ, Host.reduce FloatOps.maximumf z (constant (F := Ideal) S_ .f32 0xFF800000#32)
      reducesTo_S12288x256_S12288_d1 h_S_ j = (r : EReal) := by
    rw [Host.reduce_eq_fold_single FloatOps.maximumf z _ reducesTo_S12288x256_S12288_d1 reduces_rows h_S_ j]
    have e : constant (F := Ideal) S_ .f32 0xFF800000#32 (Shape.Idx.first h_S_) = (⊥ : EReal) := ofBits_neg_inf
    rw [e]
    exact fold_maximumf_real _ cols_nonempty _ fun k => hz _
  refine ⟨r, ?_⟩
  rw [maximumf_apply, hr]
  show max (Ideal.ofBits .f32 0xFF800000#32) _ = _
  rw [ofBits_neg_inf]
  exact max_eq_right bot_le

theorem rowSum_isPos {e : FVec Ideal S12288x256 .f32} (he : IsPos e) :
    IsPos (Host.reduceAdd e (constant (F := Ideal) S_ .f32 0x00000000#32) reducesTo_S12288x256_S12288_d1 h_S_) := fun j => by
  show ∃ r : ℝ, 0 < r ∧ Ideal.hostReduceAdd reducesTo_S12288x256_S12288_d1 e (Ideal.ofBits .f32 0x00000000#32) j = (r : EReal)
  rw [Ideal.hostReduceAdd_single _ reduces_rows, Ideal.ofBits_zero_f32, zero_add]
  exact sum_pos _ cols_nonempty _ fun k => he _

theorem rowSum_isNonneg {e : FVec Ideal S12288x256 .f32} (he : IsNonneg e) :
    IsNonneg (Host.reduceAdd e (constant (F := Ideal) S_ .f32 0x00000000#32) reducesTo_S12288x256_S12288_d1 h_S_) := fun j => by
  show ∃ r : ℝ, 0 ≤ r ∧ Ideal.hostReduceAdd reducesTo_S12288x256_S12288_d1 e (Ideal.ofBits .f32 0x00000000#32) j = (r : EReal)
  rw [Ideal.hostReduceAdd_single _ reduces_rows, Ideal.ofBits_zero_f32, zero_add]
  exact sum_nonneg _ _ fun k => he _

theorem IsReal.wide {v : FVec Ideal S12288 .f32} (hv : IsReal v) : IsReal (Spec.wide v) := fun j => hv _

theorem IsPos.wide {v : FVec Ideal S12288 .f32} (hv : IsPos v) : IsPos (Spec.wide v) := fun j => hv _

theorem ofBits_eps_pos : ∃ c : ℝ, 0 < c ∧ Ideal.ofBits .f32 0x29E12E13#32 = (c : EReal) := by
  refine ⟨(8388608 + 6368787 : ℝ) * (2 : ℝ) ^ (-67 : ℤ), by positivity, ?_⟩
  simp [Ideal.ofBits, Ideal.ieee, -EReal.coe_mul]
  norm_num

theorem softMasked_isNonneg {p mask : FVec Ideal S12288x256 .f32} (hp : IsReal p) (hm : IsBit mask) :
    IsNonneg (Spec.softMasked p mask) := by
  have hz : IsReal (mulf p mask) := hp.mulf hm.isReal
  have hmx := rowMax_isReal hz
  have hex : IsPos (Host.exp (subf (mulf p mask) (Spec.wide (maximumf (broadcastInDim S12288 ![] bcast_S_S12288 (constant (F := Ideal) S_ .f32 0xFF800000#32))
      (Host.reduce FloatOps.maximumf (mulf p mask) (constant (F := Ideal) S_ .f32 0xFF800000#32) reducesTo_S12288x256_S12288_d1 h_S_))))) :=
    (hz.subf hmx.wide).exp
  have hsum := rowSum_isPos hex
  have hq := hex.divf hsum.wide
  exact hq.isNonneg.mulf hm.isNonneg

theorem assignOf_isNonneg {p mask : FVec Ideal S12288x256 .f32} (hp : IsReal p) (hm : IsBit mask) :
    IsNonneg (Spec.assignOf p mask) := by
  have hr := softMasked_isNonneg hp hm
  have hs := rowSum_isNonneg hr
  obtain ⟨c, hc0, hc⟩ := ofBits_eps_pos
  have hden : IsPos (addf (broadcastInDim S12288x1 ![0] bcast_S12288_S12288x1_0
        (Host.reduceAdd (Spec.softMasked p mask) (constant (F := Ideal) S_ .f32 0x00000000#32) reducesTo_S12288x256_S12288_d1 h_S_))
      (broadcastInDim S12288x1 ![] bcast_S_S12288x1 (constant (F := Ideal) S_ .f32 0x29E12E13#32))) :=
    IsNonneg.addf_pos (hs.broadcastInDim _ _) (fun j => ⟨c, hc0, hc⟩)
  exact hr.divf (hden.broadcastInDim _ _)

theorem assignOf_isReal {p mask : FVec Ideal S12288x256 .f32} (hp : IsReal p) (hm : IsBit mask) :
    IsReal (Spec.assignOf p mask) := (assignOf_isNonneg hp hm).isReal

end Cert.RealDown

end
-- ==== Proof.Bridge.lean ====
import proofs.«118921_j70214125355087_2_alg».proof.Proof.Spec
import proofs.«118921_j70214125355087_2_alg».proof.Proof.Fused
import proofs.«118921_j70214125355087_2_alg».proof.Proof.PoolSum
import proofs.«118921_j70214125355087_2_alg».proof.Proof.Loss
import proofs.«118921_j70214125355087_2_alg».proof.Proof.SortCount
import proofs.«118921_j70214125355087_2_alg».proof.Proof.RealUp
import proofs.«118921_j70214125355087_2_alg».proof.Proof.RealDown

noncomputable section

namespace Cert.Bridge

open Idealize.ShloMosaic Cert.KernelIdeal

variable [Cert.KernelIdeal.Facts] [Cert.ReferenceIdeal.Facts]

def IsReal {S : Shape} (v : S.Idx → EReal) : Prop := ∀ i, ∃ r : ℝ, v i = (r : EReal)

section
variable (x : FVec Ideal S12288x128 .f32) (ei : IVec S2x196608 32) (batch : IVec S12288 32)
  (W1 : FVec Ideal S256x128 .f32) (b1 : FVec Ideal S128 .f32) (W2 : FVec Ideal S256x256 .f32) (b2 : FVec Ideal S256 .f32)

abbrev ER : FVec Ideal S12288x128 .f32 :=
  Spec.rowNorm128 (Spec.proj128 (Spec.catOf x (Spec.srcOf ei) (Spec.dstOf ei)) W1 b1)

abbrev SR : FVec Ideal S12288x256 .f32 :=
  Spec.assignOf (Spec.rowNorm256 (Spec.proj256 (Spec.catOf x (Spec.srcOf ei) (Spec.dstOf ei)) W2 b2)) (Spec.maskOf batch)

abbrev EK : FVec Ideal S12288x128 .f32 :=
  Spec.rowNorm128 (Spec.fusedLeft (Spec.fusedOf (Spec.catOf x (Spec.srcOf ei) (Spec.dstOf ei)) W1 b1 W2 b2))

abbrev SK : FVec Ideal S12288x256 .f32 :=
  Spec.assignOf (Spec.rowNorm256 (Spec.fusedRight (Spec.fusedOf (Spec.catOf x (Spec.srcOf ei) (Spec.dstOf ei)) W1 b1 W2 b2))) (Spec.maskOf batch)

theorem EK_eq : EK x ei W1 b1 W2 b2 = ER x ei W1 b1 := by
  unfold EK ER; rw [Cert.Fused.left_eq]
theorem SK_eq : SK x ei batch W1 b1 W2 b2 = SR x ei batch W2 b2 := by
  unfold SK SR; rw [Cert.Fused.right_eq]

-- The two halves of the blockwise sums add up to the sum over all rows, and the fused projection's right cut is the second projection.
theorem adj_eq :
    Spec.halves256 (F := Ideal) (Cert.PoolSum.poolOut256 (SK x ei batch W1 b1 W2 b2) (Spec.arOf (SK x ei batch W1 b1 W2 b2) (Spec.srcOf ei) (Spec.dstOf ei)))
      = Spec.pool256 (SR x ei batch W2 b2) (Spec.arOf (SR x ei batch W2 b2) (Spec.srcOf ei) (Spec.dstOf ei)) := by
  rw [Cert.PoolSum.halves256_poolOut, SK_eq]

theorem h_eq :
    Spec.halves128 (F := Ideal) (Cert.PoolSum.poolOut128 (SK x ei batch W1 b1 W2 b2) (EK x ei W1 b1 W2 b2))
      = Spec.pool128 (SR x ei batch W2 b2) (ER x ei W1 b1) := by
  rw [Cert.PoolSum.halves128_poolOut, SK_eq, EK_eq]

theorem SR_isReal (hx : IsReal x) (hW2 : IsReal W2) (hb2 : IsReal b2) : IsReal (SR x ei batch W2 b2) := by
  have hp : Cert.RealUp.IsReal
      (Spec.rowNorm256 (Spec.proj256 (Spec.catOf x (Spec.srcOf ei) (Spec.dstOf ei)) W2 b2)) :=
    Cert.RealUp.isReal_rowNorm256 (Cert.RealUp.isReal_proj256
      (Cert.RealUp.isReal_catOf (fun i => hx i) (Spec.srcOf ei) (Spec.dstOf ei)) (fun i => hW2 i) (fun i => hb2 i))
  have hS : Cert.RealDown.IsReal
      (Spec.assignOf (Spec.rowNorm256 (Spec.proj256 (Spec.catOf x (Spec.srcOf ei) (Spec.dstOf ei)) W2 b2)) (Spec.maskOf batch)) :=
    Cert.RealDown.assignOf_isReal (fun i => hp i) (Cert.RealDown.maskOf_isBit batch)
  exact fun i => hS i

-- With S real and the edge words in range, the expanded radicand is the square's, and the sorted-key count is ‖A‖².
theorem loss_eq' (hx : IsReal x) (hW1 : IsReal W1) (hb1 : IsReal b1) (hW2 : IsReal W2) (hb2 : IsReal b2)
    (hei : ∀ i, 0 ≤ (ei i).toInt ∧ (ei i).toInt < 12288) :
    Spec.lossK (F := Ideal) (Cert.SortCount.aFrob (Spec.srcOf ei) (Spec.dstOf ei))
        (Spec.crossOf (SK x ei batch W1 b1 W2 b2) (Spec.arOf (SK x ei batch W1 b1 W2 b2) (Spec.srcOf ei) (Spec.dstOf ei)))
        (Spec.halves256 (Cert.PoolSum.poolOut256 (SK x ei batch W1 b1 W2 b2) (SK x ei batch W1 b1 W2 b2)))
      = Spec.lossR (F := Ideal) (Spec.denseOf (Spec.wrapIdx (Spec.srcOf ei)) (Spec.wrapIdx (Spec.dstOf ei)))
          (SR x ei batch W2 b2) := by
  have hs : ∀ e, 0 ≤ (Spec.srcOf ei e).toInt ∧ (Spec.srcOf ei e).toInt < 12288 := fun e => hei _
  have hd : ∀ e, 0 ≤ (Spec.dstOf ei e).toInt ∧ (Spec.dstOf ei e).toInt < 12288 := fun e => hei _
  obtain ⟨Sr, hSr⟩ : ∃ Sr : S12288x256.Idx → ℝ, SR x ei batch W2 b2 = fun i => (Sr i : EReal) :=
    ⟨fun i => (SR_isReal x ei batch W2 b2 hx hW2 hb2 i).choose,
      funext fun i => (SR_isReal x ei batch W2 b2 hx hW2 hb2 i).choose_spec⟩
  rw [Cert.PoolSum.halves256_poolOut, SK_eq, hSr, Cert.SortCount.aFrob_eq _ _ hs hd]
  exact (Cert.Loss.loss_eq Sr (Spec.srcOf ei) (Spec.dstOf ei) (fun e => hs e) (fun e => hd e)).symm

end

end Cert.Bridge

end
-- ==== Proof.lean ====
/-
  The layer pools 12288 nodes into 256 clusters. Each node's features are set beside the mean of its in-neighbours'
  features; two affine maps, each followed by dividing every row by max(its length, 1e-12), give the embedding E and
  the logits; S is the row softmax of the logits under the block mask, masked again and divided by its row sum + 1e-13.
  With A the edge-count matrix the results are Sᵀ(A S), Sᵀ E, ‖A − S Sᵀ‖_F / N² and an entropy term of the mask alone.
  The second program does one product with the two weight matrices side by side, sums the three products Sᵀ E, Sᵀ(A S),
  Sᵀ S over 2 × 6 blocks of 1024 rows, and takes the loss from ‖A‖² − 2⟨S, A S⟩ + ‖Sᵀ S‖², where ‖A‖² is counted as
  Σ (2·rank + 1) over the edges sorted by source·N + destination. Finite inputs and edge words in [0, N) make S real,
  which the expansion of the square needs, and make equal keys exactly parallel edges.
-/
import proofs.«118921_j70214125355087_2_alg».proof.Defs
import proofs.«118921_j70214125355087_2_alg».proof.Proof.Gen.Kernel
import proofs.«118921_j70214125355087_2_alg».proof.Proof.Gen.KernelIdeal
import proofs.«118921_j70214125355087_2_alg».proof.Proof.Gen.KernelIdeal.Skeleton
import proofs.«118921_j70214125355087_2_alg».proof.Proof.Gen.KernelIdeal.Launch
import proofs.«118921_j70214125355087_2_alg».proof.Proof.Gen.KernelIdeal.Points
import proofs.«118921_j70214125355087_2_alg».proof.Proof.Gen.ReferenceIdeal
import proofs.«118921_j70214125355087_2_alg».proof.Proof.Gen.Pre_finite_inputs
import proofs.«118921_j70214125355087_2_alg».proof.Proof.KBClaim
import proofs.«118921_j70214125355087_2_alg».proof.Proof.KIFrame
import proofs.«118921_j70214125355087_2_alg».proof.Proof.KIArr
import proofs.«118921_j70214125355087_2_alg».proof.Proof.KIValue
import proofs.«118921_j70214125355087_2_alg».proof.Proof.KVals
import proofs.«118921_j70214125355087_2_alg».proof.Proof.KTail
import proofs.«118921_j70214125355087_2_alg».proof.Proof.KRes
import proofs.«118921_j70214125355087_2_alg».proof.Proof.RefRun
import proofs.«118921_j70214125355087_2_alg».proof.Proof.RefVals
import proofs.«118921_j70214125355087_2_alg».proof.Proof.PreFacts
import proofs.«118921_j70214125355087_2_alg».proof.Proof.Bridge
import Idealize.ShloMosaic.Adequacy
import Idealize.ShloMosaic.Init

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

abbrev TL : List (List (HloOp Cert.KernelIdeal.τ Cert.KernelIdeal.sig (Elt Ideal))) :=
  [Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9]

open Cert.KernelIdeal.HandFrame in

-- Both runs end at the same four functions of the arguments, once the kernel's result buffers hold the layer's quantities.
theorem algebraic_of
    (res86 : ∀ (m : (ℓ : Loc Cert.KernelIdeal.nD Cert.KernelIdeal.τ Cert.KernelIdeal.sig) → Buf (Elt Ideal) ℓ) (c : Dev Cert.KernelIdeal.nD),
      (Pipeline.afterTail₀ Cert.KernelIdeal.cfgs (dats m) 0 (V0 m) TL c Cert.KernelIdeal.main_v86 : FVec Ideal Cert.KernelIdeal.S256x256 .f32)
        = Spec.halves256 (F := Ideal) (Cert.PoolSum.poolOut256 (Cert.KRes.SK m c) (Cert.KRes.ArK m c)))
    (res85 : ∀ (m : (ℓ : Loc Cert.KernelIdeal.nD Cert.KernelIdeal.τ Cert.KernelIdeal.sig) → Buf (Elt Ideal) ℓ) (c : Dev Cert.KernelIdeal.nD),
      (Pipeline.afterTail₀ Cert.KernelIdeal.cfgs (dats m) 0 (V0 m) TL c Cert.KernelIdeal.main_v85 : FVec Ideal Cert.KernelIdeal.S256x128 .f32)
        = Spec.halves128 (F := Ideal) (Cert.PoolSum.poolOut128 (Cert.KRes.SK m c) (Cert.KRes.EK m c)))
    (res114 : ∀ (m : (ℓ : Loc Cert.KernelIdeal.nD Cert.KernelIdeal.τ Cert.KernelIdeal.sig) → Buf (Elt Ideal) ℓ) (c : Dev Cert.KernelIdeal.nD),
      (Pipeline.afterTail₀ Cert.KernelIdeal.cfgs (dats m) 0 (V0 m) TL c Cert.KernelIdeal.main_v114 : FVec Ideal Cert.KernelIdeal.S_ .f32)
        = Spec.lossK (F := Ideal) (Cert.SortCount.aFrob (F := Ideal) (Cert.KRes.src m c) (Cert.KRes.dst m c))
            (Spec.crossOf (F := Ideal) (Cert.KRes.SK m c) (Cert.KRes.ArK m c))
            (Spec.halves256 (F := Ideal) (Cert.PoolSum.poolOut256 (Cert.KRes.SK m c) (Cert.KRes.SK m c))))
    (res129 : ∀ (m : (ℓ : Loc Cert.KernelIdeal.nD Cert.KernelIdeal.τ Cert.KernelIdeal.sig) → Buf (Elt Ideal) ℓ) (c : Dev Cert.KernelIdeal.nD),
      (Pipeline.afterTail₀ Cert.KernelIdeal.cfgs (dats m) 0 (V0 m) TL c Cert.KernelIdeal.main_v129 : FVec Ideal Cert.KernelIdeal.S_ .f32)
        = Spec.entropyOf (F := Ideal) (Spec.maskOf (F := Ideal) (Cert.KRes.a2 m c))) :
    Cert.algebraic_KernelIdeal_ReferenceIdeal := by
  intro m ρ m' ρ' hpre hagree
  refine ⟨fun c => Cert.ReferenceIdeal.HandRun.Vfin (F := Ideal) m' c Cert.ReferenceIdeal.main_v102,
    fun c => Cert.ReferenceIdeal.HandRun.Vfin (F := Ideal) m' c Cert.ReferenceIdeal.main_v90,
    fun c => Cert.ReferenceIdeal.HandRun.Vfin (F := Ideal) m' c Cert.ReferenceIdeal.main_v123,
    fun c => Cert.ReferenceIdeal.HandRun.Vfin (F := Ideal) m' c Cert.ReferenceIdeal.main_v138,
    ?_, Cert.ReferenceIdeal.HandRun.run (F := Ideal) m' ρ'⟩
  refine (θ_run _ _ _).mono (fun r h c => ?_) (Cert.KernelIdeal.HandFrame.run_results (F := Ideal) m ρ)
  obtain ⟨h86, h85, h114, h129, hargs⟩ := h c
  obtain ⟨e0, e1, e2, e3, e4, e5, e6⟩ := hagree c
  obtain ⟨r102, r90, r123, r138⟩ := Cert.RefVals.results (F := Ideal) m' c
  obtain ⟨hx, hW1, hb1, hW2, hb2, hei⟩ := Cert.PreFacts.of_pre _ _ _ _ _ _ _ (hpre c)

  have key : ∀ (x' : FVec Ideal Cert.KernelIdeal.S12288x128 .f32) (ei' : IVec Cert.KernelIdeal.S2x196608 32)
      (batch' : IVec Cert.KernelIdeal.S12288 32) (W1' : FVec Ideal Cert.KernelIdeal.S256x128 .f32)
      (b1' : FVec Ideal Cert.KernelIdeal.S128 .f32) (W2' : FVec Ideal Cert.KernelIdeal.S256x256 .f32)
      (b2' : FVec Ideal Cert.KernelIdeal.S256 .f32),
      x' = Cert.KRes.a0 m c → ei' = Cert.KRes.a1 m c → batch' = Cert.KRes.a2 m c → W1' = Cert.KRes.a3 m c →
      b1' = Cert.KRes.a4 m c → W2' = Cert.KRes.a5 m c → b2' = Cert.KRes.a6 m c →
      Spec.halves256 (F := Ideal) (Cert.PoolSum.poolOut256 (Cert.KRes.SK m c) (Cert.KRes.ArK m c))
          = Spec.pool256 (F := Ideal) (Cert.Bridge.SR x' ei' batch' W2' b2') (Spec.arOf (Cert.Bridge.SR x' ei' batch' W2' b2') (Spec.srcOf ei') (Spec.dstOf ei'))
      ∧ Spec.halves128 (F := Ideal) (Cert.PoolSum.poolOut128 (Cert.KRes.SK m c) (Cert.KRes.EK m c))
          = Spec.pool128 (F := Ideal) (Cert.Bridge.SR x' ei' batch' W2' b2') (Cert.Bridge.ER x' ei' W1' b1')
      ∧ Spec.lossK (F := Ideal) (Cert.SortCount.aFrob (F := Ideal) (Cert.KRes.src m c) (Cert.KRes.dst m c))
            (Spec.crossOf (F := Ideal) (Cert.KRes.SK m c) (Cert.KRes.ArK m c))
            (Spec.halves256 (F := Ideal) (Cert.PoolSum.poolOut256 (Cert.KRes.SK m c) (Cert.KRes.SK m c)))
          = Spec.lossR (F := Ideal) (Spec.denseOf (Spec.wrapIdx (Spec.srcOf ei')) (Spec.wrapIdx (Spec.dstOf ei'))) (Cert.Bridge.SR x' ei' batch' W2' b2')
      ∧ Spec.entropyOf (F := Ideal) (Spec.maskOf (F := Ideal) (Cert.KRes.a2 m c)) = Spec.entropyOf (F := Ideal) (Spec.maskOf (F := Ideal) batch') := by
    intro x' ei' batch' W1' b1' W2' b2' h0 h1 h2 h3 h4 h5 h6
    subst h0 h1 h2 h3 h4 h5 h6
    exact ⟨Cert.Bridge.adj_eq _ _ _ _ _ _ _, Cert.Bridge.h_eq _ _ _ _ _ _ _,
      Cert.Bridge.loss_eq' _ _ _ _ _ _ _ (fun i => hx i) (fun i => hW1 i) (fun i => hb1 i) (fun i => hW2 i) (fun i => hb2 i) hei, rfl⟩
  obtain ⟨k1, k2, k3, k4⟩ := key _ _ _ _ _ _ _ e0 e1 e2 e3 e4 e5 e6
  exact ⟨h86.trans ((res86 m c).trans (k1.trans r102.symm)), h85.trans ((res85 m c).trans (k2.trans r90.symm)),
    h114.trans ((res114 m c).trans (k3.trans r123.symm)), h129.trans ((res129 m c).trans (k4.trans r138.symm)), hargs⟩

theorem algebraic : Cert.algebraic_KernelIdeal_ReferenceIdeal :=
  algebraic_of
    (fun m c => Cert.KRes.res_v86 m (fun V => Cert.KVals.pre_v81 V) (fun V => Cert.KVals.pre_v83 V) (fun W => Cert.KTail.tail_v86 W)
      (fun c => Cert.KernelIdeal.HandArr.final4 m c (Cert.KernelIdeal.HandValue.last4 m c)) c)
    (fun m c => Cert.KRes.res_v85 m (fun V => Cert.KVals.pre_v81 V) (fun V => Cert.KVals.pre_v82 V) (fun W => Cert.KTail.tail_v85 W)
      (fun c => Cert.KernelIdeal.HandArr.final3 m c (Cert.KernelIdeal.HandValue.last3 m c)) c)
    (fun m c => Cert.KRes.res_v114 m (fun V => Cert.KVals.pre_v1 V) (fun V => Cert.KVals.pre_v3 V) (fun V => Cert.KVals.pre_v80 V)
      (fun V => Cert.KVals.pre_v81 V) (fun W => Cert.KTail.tail_v114 W)
      (fun c => Cert.KernelIdeal.HandArr.final5 m c (Cert.KernelIdeal.HandValue.last5 m c)) c)
    (fun m c => Cert.KRes.res_v129 m (fun V => Cert.KVals.pre_v49 V) (fun W => Cert.KTail.tail_v129 W) c)

theorem claim : Cert.Claim :=
  ⟨Cert.Kernel.Gen.facts, Cert.KernelIdeal.Gen.facts, Cert.ReferenceIdeal.Gen.facts, Cert.Pre_finite_inputs.Gen.facts,
    Cert.KBClaim.frame_bits,
    fun m ρ _ => Cert.KernelIdeal.HandFrame.frame (F := Ideal) m ρ,
    fun m ρ _ => Cert.ReferenceIdeal.HandRun.frame (F := Ideal) m ρ,
    trivial,
    algebraic⟩

end Cert.Proof

end
